-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "fold_c_268435456_13421773" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x256 : Shape := ⟨2, ![256, 256]⟩
abbrev S256 : Shape := ⟨1, ![256]⟩
abbrev S8192x8 : Shape := ⟨2, ![8192, 8]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S8192x8 : S_.BroadcastsInDim S8192x8 (![] : Fin 0 → Fin S8192x8.rank)
  reducesTo_S8192x8_S_d0_1 : S8192x8.ReducesTo [0, 1] S_

variable [Facts]

def fn_part1 {F : FTy → Type} [FloatOps F] (main_arg4 : IVec S8192x8 32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_c_6 : IVec S_ 32 := constantI S_ 32 0#32
  let main_v19 : IVec S8192x8 32 := broadcastInDim S8192x8 ![] bcast_S_S8192x8 main_c_6
  let main_v20 : IVec S8192x8 1 := cmpi .sge main_arg4 main_v19
  let main_c_7 : IVec S_ 32 := constantI S_ 32 8192#32
  let main_v21 : IVec S8192x8 32 := broadcastInDim S8192x8 ![] bcast_S_S8192x8 main_c_7
  let main_v22 : IVec S8192x8 1 := cmpi .slt main_arg4 main_v21
  let main_v23 : IVec S8192x8 1 := andi main_v20 main_v22
  let main_c_8 : IVec S_ 1 := constantI S_ 1 1#1
  let main_v24 : IVec S_ 1 := (fun x v => Host.reduce IntOp.andi x v reducesTo_S8192x8_S_d0_1 h_S_) main_v23 main_c_8
  let main_v25 : IVec S_ 1 := andi main_v18 main_v24
  main_v25

def fn {F : FTy → Type} [FloatOps F] (main_arg0 : FVec F S8192x256 .f32) (main_arg1 : FVec F S8192x256 .f32) (main_arg2 : FVec F S256x256 .f32) (main_arg3 : FVec F S256 .f32) (main_arg4 : IVec S8192x8 32) (main_arg5 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S8192x256 : Shape := ⟨2, ![8192, 256]⟩
abbrev S256x256 : Shape := ⟨2, ![256, 256]⟩
abbrev S256 : Shape := ⟨1, ![256]⟩
abbrev S8192x8 : Shape := ⟨2, ![8192, 8]⟩
abbrev S8192 : Shape := ⟨1, ![8192]⟩
abbrev S2048x256 : Shape := ⟨2, ![2048, 256]⟩
abbrev S1x256 : Shape := ⟨2, ![1, 256]⟩
abbrev S2048 : Shape := ⟨1, ![2048]⟩
abbrev S2048x1 : Shape := ⟨2, ![2048, 1]⟩
abbrev S8192x1 : Shape := ⟨2, ![8192, 1]⟩
abbrev S1x1 : Shape := ⟨2, ![1, 1]⟩
abbrev S1024x256 : Shape := ⟨2, ![1024, 256]⟩
abbrev S1024x8 : Shape := ⟨2, ![1024, 8]⟩
abbrev S1024x1 : Shape := ⟨2, ![1024, 1]⟩
abbrev S1024x1024 : Shape := ⟨2, ![1024, 1024]⟩
abbrev S1024 : Shape := ⟨1, ![1024]⟩
abbrev S1x8 : Shape := ⟨2, ![1, 8]⟩
abbrev S1 : Shape := ⟨1, ![1]⟩
abbrev S_ : Shape := ⟨0, ![]⟩

abbrev nBuf : Space → Nat
  | .hbm => 12
  | .vmem => 25
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S256x256, .f32⟩
  | .hbm, ⟨3, _⟩ => ⟨S256, .f32⟩
  | .hbm, ⟨4, _⟩ => ⟨S8192x8, .i32⟩
  | .hbm, ⟨5, _⟩ => ⟨S8192, .i32⟩
  | .hbm, ⟨6, _⟩ => ⟨S256x256, .f32⟩
  | .hbm, ⟨7, _⟩ => ⟨S8192x256, .bf16⟩
  | .hbm, ⟨8, _⟩ => ⟨S8192x256, .bf16⟩
  | .hbm, ⟨9, _⟩ => ⟨S8192x1, .i32⟩
  | .hbm, ⟨10, _⟩ => ⟨S1x1, .f32⟩
  | .hbm, ⟨11, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S256, .f32⟩
  | .local _ .vmem, ⟨4, _⟩ => ⟨S2048x256, .bf16⟩
  | .local _ .vmem, ⟨5, _⟩ => ⟨S2048x256, .bf16⟩
  | .local _ .vmem, ⟨6, _⟩ => ⟨S2048x256, .f32⟩
  | .local _ .vmem, ⟨7, _⟩ => ⟨S2048x256, .f32⟩
  | .local _ .vmem, ⟨8, _⟩ => ⟨S256x256, .f32⟩
  | .local _ .vmem, ⟨9, _⟩ => ⟨S256, .f32⟩
  | .local _ .vmem, ⟨10, _⟩ => ⟨S2048x256, .bf16⟩
  | .local _ .vmem, ⟨11, _⟩ => ⟨S2048x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x8, .i32⟩
  | .local _ .vmem, ⟨17, _⟩ => ⟨S1024x8, .i32⟩
  | .local _ .vmem, ⟨18, _⟩ => ⟨S1024x1, .i32⟩
  | .local _ .vmem, ⟨19, _⟩ => ⟨S1024x1, .i32⟩
  | .local _ .vmem, ⟨20, _⟩ => ⟨S1x1, .f32⟩
  | .local _ .vmem, ⟨21, _⟩ => ⟨S1024x1, .f32⟩
  | .local _ .vmem, ⟨22, _⟩ => ⟨S1024x1, .f32⟩
  | .local _ .vmem, ⟨23, _⟩ => ⟨S1024x8, .f32⟩
  | .local _ .vmem, ⟨24, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_scratch0 : Ref sig .tc := ⟨.vmem, 21, rfl⟩
abbrev cc2_scratch1 : Ref sig .tc := ⟨.vmem, 22, rfl⟩
abbrev cc2_scratch2 : Ref sig .tc := ⟨.vmem, 23, rfl⟩
abbrev cc2_scratch3 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 8], ![false, false]⟩

def k2_cond4 (i : grid2.Coords) : BitVec 1 :=
  let arg0 : BitVec 32 := BitVec.ofNat 32 (i 0).val
  let c7_i32_62 : BitVec 32 := 7#32
  let v153 : BitVec 1 := Scalar.cmpi .eq arg0 c7_i32_62
  let arg1 : BitVec 32 := BitVec.ofNat 32 (i 1).val
  let c7_i32_63 : BitVec 32 := 7#32
  let v154 : BitVec 1 := Scalar.cmpi .eq arg1 c7_i32_63
  let v155 : BitVec 1 := Scalar.andi v153 v154
  let v156 : BitVec 32 := Scalar.extui v155
  let c0_i32_64 : BitVec 32 := 0#32
  let v157 : BitVec 1 := Scalar.cmpi .ne v156 c0_i32_64
  v157

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x8 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

class Facts₀ : Prop where
  transposes_S256x256_S256x256_1_0 : S256x256.Transposes [1, 0] S256x256
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  reduces_S2048x256_S2048 : S2048x256.Reduces [1] S2048
  shapeCasts_S2048_S2048x1 : S2048.ShapeCasts S2048x1
  broadcasts_S2048x1_S2048x256 : S2048x1.Broadcasts S2048x256
  packedbf16_S2048x256_S2048x256_0_0 : (Rect.unit (s := S2048x256) ![0, 0] S2048x256.size inb_S2048x256_S2048x256_0_0).PackedRows (EltTy.packing .bf16)
  shapeCasts_S8192_S8192x1 : S8192.ShapeCasts S8192x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x1024_S1024 : S1024x1024.Reduces [1] S1024
  shapeCasts_S1024_S1024x1 : S1024.ShapeCasts S1024x1
  broadcasts_S1024x1_S1024x1024 : S1024x1.Broadcasts S1024x1024
  iota_S1024x1024_d1_w32 : S1024x1024.Iotas .tc 32 [1]
  slices_S1024x8_o0_0_S1024x1 : S1024x8.Slices ![0, 0] S1024x1
  inb_S1024x8_S1024x1_0_0 : ∀ a, (![0, 0] : Fin 2 → Nat) a + S1024x1.size a ≤ S1024x8.size a
  slices_S1024x8_o0_1_S1024x1 : S1024x8.Slices ![0, 1] S1024x1
  inb_S1024x8_S1024x1_0_1 : ∀ a, (![0, 1] : Fin 2 → Nat) a + S1024x1.size a ≤ S1024x8.size a
  slices_S1024x8_o0_2_S1024x1 : S1024x8.Slices ![0, 2] S1024x1
  inb_S1024x8_S1024x1_0_2 : ∀ a, (![0, 2] : Fin 2 → Nat) a + S1024x1.size a ≤ S1024x8.size a
  slices_S1024x8_o0_3_S1024x1 : S1024x8.Slices ![0, 3] S1024x1
  inb_S1024x8_S1024x1_0_3 : ∀ a, (![0, 3] : Fin 2 → Nat) a + S1024x1.size a ≤ S1024x8.size a
  slices_S1024x8_o0_4_S1024x1 : S1024x8.Slices ![0, 4] S1024x1
  inb_S1024x8_S1024x1_0_4 : ∀ a, (![0, 4] : Fin 2 → Nat) a + S1024x1.size a ≤ S1024x8.size a
  slices_S1024x8_o0_5_S1024x1 : S1024x8.Slices ![0, 5] S1024x1
  inb_S1024x8_S1024x1_0_5 : ∀ a, (![0, 5] : Fin 2 → Nat) a + S1024x1.size a ≤ S1024x8.size a
  slices_S1024x8_o0_6_S1024x1 : S1024x8.Slices ![0, 6] S1024x1
  inb_S1024x8_S1024x1_0_6 : ∀ a, (![0, 6] : Fin 2 → Nat) a + S1024x1.size a ≤ S1024x8.size a
  slices_S1024x8_o0_7_S1024x1 : S1024x8.Slices ![0, 7] S1024x1
  inb_S1024x8_S1024x1_0_7 : ∀ a, (![0, 7] : Fin 2 → Nat) a + S1024x1.size a ≤ S1024x8.size a
  broadcasts_S1024x1_S1024x8 : S1024x1.Broadcasts S1024x8
  iota_S1x8_d1_w32 : S1x8.Iotas .tc 32 [1]
  broadcasts_S1x8_S1024x8 : S1x8.Broadcasts S1024x8
  natLt_1_32 : 1 < 32
  reduces_S1024x8_S1024 : S1024x8.Reduces [1] S1024
  reduces_S1024x1_S1 : S1024x1.Reduces [0] S1
  shapeCasts_S1_S1x1 : S1.ShapeCasts S1x1
  shapeCasts_S1x1_S_ : S1x1.ShapeCasts S_
  dot_S2048x256_S256x256_S2048x256_1_0_0_1_n_n_wf : DotDims.WF S2048x256 S256x256 S2048x256 [1] [0] [0] [1] [] []
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x256.size a
  hwx0_3 : ∀ i : grid0.Coords, EltTy.bits .bf16 = 32 ∨ (Rect.block (s := S8192x256) S2048x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x256.size a
  hwx1_0 : ∀ i : grid1.Coords, EltTy.bits .f32 = 32 ∨ (Rect.block (s := S8192x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S8192x256.size a
  hwx1_3 : ∀ i : grid1.Coords, EltTy.bits .bf16 = 32 ∨ (Rect.block (s := S8192x256) S2048x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x256.size a
  hwx2_0 : ∀ i : grid2.Coords, EltTy.bits .bf16 = 32 ∨ (Rect.block (s := S8192x256) S1024x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S8192x256.size a
  hwx2_1 : ∀ i : grid2.Coords, EltTy.bits .bf16 = 32 ∨ (Rect.block (s := S8192x256) S1024x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x8.size a ≤ S8192x8.size a
  hwx2_2 : ∀ i : grid2.Coords, EltTy.bits .i32 = 32 ∨ (Rect.block (s := S8192x8) S1024x8.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S8192x1.size a
  hwx2_3 : ∀ i : grid2.Coords, EltTy.bits .i32 = 32 ∨ (Rect.block (s := S8192x1) S1024x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1024x8.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1024x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v4) S1x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond4 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S256x256 : Shape := ⟨2, ![256, 256]⟩
abbrev S256 : Shape := ⟨1, ![256]⟩
abbrev S8192x8 : Shape := ⟨2, ![8192, 8]⟩
abbrev S8192 : Shape := ⟨1, ![8192]⟩
abbrev S1x256 : Shape := ⟨2, ![1, 256]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S8192x8x1 : Shape := ⟨3, ![8192, 8, 1]⟩
abbrev S1 : Shape := ⟨1, ![1]⟩
abbrev S1x1x1 : Shape := ⟨3, ![1, 1, 1]⟩
abbrev S8 : Shape := ⟨1, ![8]⟩
abbrev S1x8 : Shape := ⟨2, ![1, 8]⟩

abbrev nBuf : Space → Nat
  | .hbm => 96
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S256x256, .f32⟩
  | .hbm, ⟨3, _⟩ => ⟨S256, .f32⟩
  | .hbm, ⟨4, _⟩ => ⟨S8192x8, .i32⟩
  | .hbm, ⟨5, _⟩ => ⟨S8192, .i32⟩
  | .hbm, ⟨6, _⟩ => ⟨S256x256, .f32⟩
  | .hbm, ⟨7, _⟩ => ⟨S8192x256, .f32⟩
  | .hbm, ⟨8, _⟩ => ⟨S1x256, .f32⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S256x256, .f32⟩
  | .hbm, ⟨13, _⟩ => ⟨S8192x256, .f32⟩
  | .hbm, ⟨14, _⟩ => ⟨S1x256, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x256, .f32⟩
  | .hbm, ⟨37, _⟩ => ⟨S8192x256, .f32⟩
  | .hbm, ⟨38, _⟩ => ⟨S256x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1, .f32⟩
  | .hbm, ⟨56, _⟩ => ⟨S8192x8192, .f32⟩
  | .hbm, ⟨57, _⟩ => ⟨S8192x8192, .f32⟩
  | .hbm, ⟨58, _⟩ => ⟨S_, .i32⟩
  | .hbm, ⟨59, _⟩ => ⟨S8192x8, .i32⟩
  | .hbm, ⟨60, _⟩ => ⟨S8192x8, .i1⟩
  | .hbm, ⟨61, _⟩ => ⟨S_, .i32⟩
  | .hbm, ⟨62, _⟩ => ⟨S8192x8, .i32⟩
  | .hbm, ⟨63, _⟩ => ⟨S8192x8, .i32⟩
  | .hbm, ⟨64, _⟩ => ⟨S8192x8, .i32⟩
  | .hbm, ⟨65, _⟩ => ⟨S8192x8x1, .i32⟩
  | .hbm, ⟨66, _⟩ => ⟨S1, .i32⟩
  | .hbm, ⟨67, _⟩ => ⟨S_, .i32⟩
  | .hbm, ⟨68, _⟩ => ⟨S8192x8x1, .i32⟩
  | .hbm, ⟨69, _⟩ => ⟨S8192x8x1, .i1⟩
  | .hbm, ⟨70, _⟩ => ⟨S1x1x1, .i32⟩
  | .hbm, ⟨71, _⟩ => ⟨S8192x8x1, .i32⟩
  | .hbm, ⟨72, _⟩ => ⟨S8192x8x1, .i1⟩
  | .hbm, ⟨73, _⟩ => ⟨S8192x8x1, .i1⟩
  | .hbm, ⟨74, _⟩ => ⟨S_, .i1⟩
  | .hbm, ⟨75, _⟩ => ⟨S8192x8, .i1⟩
  | .hbm, ⟨76, _⟩ => ⟨S8192x8, .f32⟩
  | .hbm, ⟨77, _⟩ => ⟨S_, .f32⟩
  | .hbm, ⟨78, _⟩ => ⟨S8192x8, .f32⟩
  | .hbm, ⟨79, _⟩ => ⟨S8192x8, .f32⟩
  | .hbm, ⟨80, _⟩ => ⟨S8, .i32⟩
  | .hbm, ⟨81, _⟩ => ⟨S1x8, .i32⟩
  | .hbm, ⟨82, _⟩ => ⟨S8192x1, .i32⟩
  | .hbm, ⟨83, _⟩ => ⟨S8192x8, .i32⟩
  | .hbm, ⟨84, _⟩ => ⟨S8192x8, .i32⟩
  | .hbm, ⟨85, _⟩ => ⟨S8192x8, .i1⟩
  | .hbm, ⟨86, _⟩ => ⟨S8192x8, .f32⟩
  | .hbm, ⟨87, _⟩ => ⟨S8192x8, .f32⟩
  | .hbm, ⟨88, _⟩ => ⟨S_, .f32⟩
  | .hbm, ⟨89, _⟩ => ⟨S8192, .f32⟩
  | .hbm, ⟨90, _⟩ => ⟨S8192, .f32⟩
  | .hbm, ⟨91, _⟩ => ⟨S8192, .f32⟩
  | .hbm, ⟨92, _⟩ => ⟨S8192, .f32⟩
  | .hbm, ⟨93, _⟩ => ⟨S8192, .f32⟩
  | .hbm, ⟨94, _⟩ => ⟨S_, .f32⟩
  | .hbm, ⟨95, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_cst : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call1_v0 : Ref sig .tc := ⟨.hbm, 28, rfl⟩
abbrev main_call1_cst : Ref sig .tc := ⟨.hbm, 29, rfl⟩
abbrev main_call1_v1 : Ref sig .tc := ⟨.hbm, 30, rfl⟩
abbrev main_call1_v2 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_v25 : Ref sig .tc := ⟨.hbm, 42, rfl⟩
abbrev main_call2_cst : Ref sig .tc := ⟨.hbm, 43, rfl⟩
abbrev main_call2_v0 : Ref sig .tc := ⟨.hbm, 44, rfl⟩
abbrev main_call2_cst_0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_v6 : Ref sig .tc := ⟨.hbm, 51, rfl⟩
abbrev main_call2_cst_1 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_v26 : Ref sig .tc := ⟨.hbm, 57, rfl⟩
abbrev main_call3_c : Ref sig .tc := ⟨.hbm, 58, rfl⟩
abbrev main_call3_v0 : Ref sig .tc := ⟨.hbm, 59, rfl⟩
abbrev main_call3_v1 : Ref sig .tc := ⟨.hbm, 60, rfl⟩
abbrev main_call3_c_0 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_c_1 : Ref sig .tc := ⟨.hbm, 66, rfl⟩
abbrev main_call3_c_2 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_v9 : Ref sig .tc := ⟨.hbm, 71, rfl⟩
abbrev main_call3_v10 : Ref sig .tc := ⟨.hbm, 72, rfl⟩
abbrev main_call3_v11 : Ref sig .tc := ⟨.hbm, 73, rfl⟩
abbrev main_call3_c_3 : Ref sig .tc := ⟨.hbm, 74, rfl⟩
abbrev main_call3_v12 : Ref sig .tc := ⟨.hbm, 75, rfl⟩
abbrev main_call3_v13 : Ref sig .tc := ⟨.hbm, 76, rfl⟩
abbrev main_call3_cst : Ref sig .tc := ⟨.hbm, 77, rfl⟩
abbrev main_call3_v14 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_cst_2 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_cst_3 : Ref sig .tc := ⟨.hbm, 94, rfl⟩
abbrev main_v41 : Ref sig .tc := ⟨.hbm, 95, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  bcast_S_S8192x8 : S_.BroadcastsInDim S8192x8 (![] : Fin 0 → Fin S8192x8.rank)
  shapeCasts_S8192x8_S8192x8x1 : S8192x8.ShapeCasts S8192x8x1
  bcast_S_S8192x8x1 : S_.BroadcastsInDim S8192x8x1 (![] : Fin 0 → Fin S8192x8x1.rank)
  bcast_S1_S1x1x1_2 : S1.BroadcastsInDim S1x1x1 (![2] : Fin 1 → Fin S1x1x1.rank)
  bcast_S1x1x1_S8192x8x1_0_1_2 : S1x1x1.BroadcastsInDim S8192x8x1 (![0, 1, 2] : Fin 3 → Fin S8192x8x1.rank)
  reducesTo_S8192x8x1_S8192x8_d2 : S8192x8x1.ReducesTo [2] S8192x8
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  bcast_S8192x1_S8192x8_0_1 : S8192x1.BroadcastsInDim S8192x8 (![0, 1] : Fin 2 → Fin S8192x8.rank)
  reducesTo_S8192x8_S8192_d1 : S8192x8.ReducesTo [1] S8192
  reducesTo_S8192_S_d0 : S8192.ReducesTo [0] S_
  dot_S8192x256_S256x256_S8192x256_1_0_0_1_n_n_wf : DotDims.WF S8192x256 S256x256 S8192x256 [1] [0] [0] [1] [] []
  dot_S8192x256_S256x8192_S8192x8192_1_0_0_1_n_n_wf : DotDims.WF S8192x256 S256x8192 S8192x8192 [1] [0] [0] [1] [] []
  gather_S8192x8192_S8192x8x1_S8192x8_n_1_0_0_1_2_11_wf : GatherDims.WF S8192x8192 S8192x8x1 S8192x8 [] [1] [0] [1] [0] 2 ![1, 1]

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S8192x8x1_S8192x8_n_1_0_0_1_2_11 : GatherDims S8192x8192 S8192x8x1 S8192x8 where
  offsetDims := []
  collapsedSliceDims := [1]
  operandBatchingDims := [0]
  startIndicesBatchingDims := [0]
  startIndexMap := [1]
  indexVectorDim := 2
  sliceSizes := ![1, 1]
  wf := gather_S8192x8192_S8192x8x1_S8192x8_n_1_0_0_1_2_11_wf

class Facts : Prop extends Facts₀ where

variable [Facts]
-- ==== Proof.KDense0.lean ====
import proofs.«417307_j14809047236881_2_alg».proof.Proof.Gen.Kernel.Launch
import proofs.«417307_j14809047236881_2_alg».proof.Proof.Gen.Kernel.Skeleton
import proofs.«417307_j14809047236881_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_e : Rect S2048x256 := Rect.unit (s := S2048x256) ![0, 0] S2048x256.size inb_S2048x256_S2048x256_0_0
abbrev r0_w : Rect S256x256 := Rect.unit (s := S256x256) ![0, 0] S256x256.size inb_S256x256_S256x256_0_0
abbrev r0_b : Rect S256 := Rect.unit (s := S256) ![0] S256.size inb_S256_S256_0

def out0_3 (x0 : Vec F S2048x256 .f32) (x1 : Vec F S256x256 .f32) (x2 : Vec F S256 .f32) : Vec F S2048x256 .bf16 :=
  View.canon [⟨r0_e, k0_pay1 (View.ld x0 r0_e) (View.ld x1 r0_w) (View.ld x2 r0_b)⟩]

theorem cover0_3 (p0 : Vec F S2048x256 .bf16) (y : S2048x256.Idx) :
    ∃ pc ∈ ([⟨r0_e, p0⟩] : List (View.Piece (Elt F) S2048x256 .bf16)), y ∈ pc.1.set :=
  View.cover_of_tiled [⟨r0_e, p0⟩] S2048x256.size (by rfl) y

set_option maxHeartbeats 4000000 in

theorem sound_kernel0 (c : Dev nD) (E : Set ℕ) (i : grid0.Coords) (arg1 : Memref sig .tc .vmem S2048x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S2048x256 .bf16) (harg4 : arg4.IsWhole)
    (x0 : Vec F S2048x256 .f32) (x1 : Vec F S256x256 .f32) (x2 : Vec F S256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0_dense_norm_kernel i arg1 harg1 arg2 harg2 arg3 harg3 arg4 harg4) K := by
  simp only [cc0_dense_norm_kernel_eq_skeleton]; unfold cc0_dense_norm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe H0 H1 H2
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.KDense1.lean ====
import proofs.«417307_j14809047236881_2_alg».proof.Proof.Gen.Kernel.Launch
import proofs.«417307_j14809047236881_2_alg».proof.Proof.Gen.Kernel.Skeleton
import proofs.«417307_j14809047236881_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_e : Rect S2048x256 := Rect.unit (s := S2048x256) ![0, 0] S2048x256.size inb_S2048x256_S2048x256_0_0
abbrev r1_w : Rect S256x256 := Rect.unit (s := S256x256) ![0, 0] S256x256.size inb_S256x256_S256x256_0_0
abbrev r1_b : Rect S256 := Rect.unit (s := S256) ![0] S256.size inb_S256_S256_0

def out1_3 (x0 : Vec F S2048x256 .f32) (x1 : Vec F S256x256 .f32) (x2 : Vec F S256 .f32) : Vec F S2048x256 .bf16 :=
  View.canon [⟨r1_e, k1_pay1 (View.ld x0 r1_e) (View.ld x1 r1_w) (View.ld x2 r1_b)⟩]

theorem cover1_3 (p0 : Vec F S2048x256 .bf16) (y : S2048x256.Idx) :
    ∃ pc ∈ ([⟨r1_e, p0⟩] : List (View.Piece (Elt F) S2048x256 .bf16)), y ∈ pc.1.set :=
  View.cover_of_tiled [⟨r1_e, p0⟩] S2048x256.size (by rfl) y

set_option maxHeartbeats 4000000 in

theorem sound_kernel1 (c : Dev nD) (E : Set ℕ) (i : grid1.Coords) (arg1 : Memref sig .tc .vmem S2048x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S2048x256 .bf16) (harg4 : arg4.IsWhole)
    (x0 : Vec F S2048x256 .f32) (x1 : Vec F S256x256 .f32) (x2 : Vec F S256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_dense_norm_kernel i arg1 harg1 arg2 harg2 arg3 harg3 arg4 harg4) K := by
  simp only [cc1_dense_norm_kernel_eq_skeleton]; unfold cc1_dense_norm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  iframe H0 H1 H2
  isplitl [H3]; · iexists _; iexact H3
  iintro ⟨H0, H1, H2, H3⟩
  iframe

theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.KMainShared.lean ====
import proofs.«417307_j14809047236881_2_alg».proof.Proof.Gen.Kernel.Launch
import proofs.«417307_j14809047236881_2_alg».proof.Proof.Gen.Kernel.Skeleton
import proofs.«417307_j14809047236881_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop :=
  (Scalar.cmpi .ne (Scalar.extui (Scalar.cmpi .eq (BitVec.ofNat 32 (i 1).val) 0#32)) 0#32) = 1#1
theorem hcond2_1 : ∀ t : Fin cfg2.N, cond2_1 (grid2.coords t) ↔ t.val % 8 = 0 :=
  (by decide +kernel : ∀ t : Fin grid2.N, cond2_1 (grid2.coords t) ↔ t.val % 8 = 0)

abbrev cond2_2 (i : grid2.Coords) : Prop :=
  (Scalar.cmpi .ne (Scalar.extui (Scalar.cmpi .eq (BitVec.ofNat 32 (i 1).val) 7#32)) 0#32) = 1#1
theorem hcond2_2 : ∀ t : Fin cfg2.N, cond2_2 (grid2.coords t) ↔ t.val % 8 = 7 :=
  (by decide +kernel : ∀ t : Fin grid2.N, cond2_2 (grid2.coords t) ↔ t.val % 8 = 7)

abbrev cond2_3 (i : grid2.Coords) : Prop := k2_cond4 i = 1#1
theorem hcond2_3 : ∀ t : Fin cfg2.N, cond2_3 (grid2.coords t) ↔ t.val = 63 :=
  (by decide +kernel : ∀ t : Fin grid2.N, cond2_3 (grid2.coords t) ↔ t.val = 63)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

theorem idleAt2_4 : ∀ t : Fin cfg2.N, ¬cond2_3 (grid2.coords t) → cfg2.idle 4 (grid2.coords t) = true := by decide +kernel

theorem noFlush2_4 : ∀ t : Fin cfg2.N, ¬cond2_3 (grid2.coords t) → (cfg2.win 4).flush t = false := by decide +kernel

theorem liveAt2_4 : ∀ t : Fin cfg2.N, cond2_3 (grid2.coords t) → cfg2.idle 4 (grid2.coords t) = false := by decide +kernel

abbrev VO2_4 : View sig .tc .vmem S1x1 .f32 := (Memref.whole cc2_stg4_0 : Memref sig .tc .vmem S1x1 .f32).view
abbrev ms2_0 (t : Fin cfg2.N) : Memref sig .tc .vmem S1024x256 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x8 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)

abbrev scM2_0 : Memref sig .tc .vmem S1024x1 .f32 := Memref.whole cc2_scratch0
abbrev scM2_1 : Memref sig .tc .vmem S1024x1 .f32 := Memref.whole cc2_scratch1
abbrev scM2_2 : Memref sig .tc .vmem S1024x8 .f32 := Memref.whole cc2_scratch2
abbrev scM2_3 : Memref sig .tc .vmem S1x1 .f32 := Memref.whole cc2_scratch3
abbrev VS2_0 : View sig .tc .vmem S1024x1 .f32 := scM2_0.view
abbrev VS2_1 : View sig .tc .vmem S1024x1 .f32 := scM2_1.view
abbrev VS2_2 : View sig .tc .vmem S1024x8 .f32 := scM2_2.view
abbrev VS2_3 : View sig .tc .vmem S1x1 .f32 := scM2_3.view

abbrev other2 (c : Dev nD) (b : Ref sig .tc) : sProp 𝕄 :=
  iprop(∃ f : Buf (Elt F) ((c : Thread nD τ).loc b), ((c : Thread nD τ).loc b) ↦{fullShare} f)

def others2 (c : Dev nD) : sProp 𝕄 :=
  iprop(other2 (F := F) c cc0_stg0_0 ∗ other2 (F := F) c cc0_stg0_1 ∗ other2 (F := F) c cc0_stg1_0 ∗ other2 (F := F) c cc0_stg2_0 ∗ other2 (F := F) c cc0_stg3_0 ∗ other2 (F := F) c cc0_stg3_1 ∗ other2 (F := F) c cc1_stg0_0 ∗ other2 (F := F) c cc1_stg0_1 ∗ other2 (F := F) c cc1_stg1_0 ∗ other2 (F := F) c cc1_stg2_0 ∗ other2 (F := F) c cc1_stg3_0 ∗ other2 (F := F) c cc1_stg3_1)

def Phi2_0 (c : Dev nD) : sProp 𝕄 :=
  iprop(others2 (F := F) c ∗ (∃ d, owns (c : Thread nD τ) scM2_0 fullShare d) ∗ (∃ d, owns (c : Thread nD τ) scM2_1 fullShare d)
    ∗ (∃ d, owns (c : Thread nD τ) scM2_2 fullShare d) ∗ (∃ d, owns (c : Thread nD τ) scM2_3 fullShare d) ∗ (∃ r, prngReg c r))

theorem Phi2_0_of_rest (c : Dev nD) :
    iprop((∃ r, prngReg c r) ∗ Pipeline.scopedRest (Ix := Unit) (Name := ℕ) (U := UR sig nD τ) (Lvl := ℕ) (Val := Elt F) spec2 c) ⊢ Phi2_0 (F := F) c := by
  rw [scopedRest2_eq]; unfold Phi2_0 others2
  simp only [scM2_0, scM2_1, scM2_2, scM2_3, owns_whole]
  iintro ⟨Hp, B0, B1, B2, B3, B4, B5, B6, B7, B8, B9, B10, B11, S0, S1, S2, S3⟩
  iframe

theorem rest_of_Phi2_0 (c : Dev nD) :
    Phi2_0 (F := F) c ⊢ iprop((∃ r, prngReg c r) ∗ Pipeline.scopedRest (Ix := Unit) (Name := ℕ) (U := UR sig nD τ) (Lvl := ℕ) (Val := Elt F) spec2 c) := by
  rw [scopedRest2_eq]; unfold Phi2_0 others2
  simp only [scM2_0, scM2_1, scM2_2, scM2_3, owns_whole]
  iintro ⟨⟨B0, B1, B2, B3, B4, B5, B6, B7, B8, B9, B10, B11⟩, S0, S1, S2, S3, Hp⟩
  iframe

end Cert.Kernel.Gen

end
-- ==== Proof.KMainRunA.lean ====
import proofs.«417307_j14809047236881_2_alg».proof.Proof.KMainShared

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg2 : Memref sig .tc .vmem S1024x256 .bf16) (harg2 : arg2.IsWhole) (arg3 : Memref sig .tc .vmem S1024x256 .bf16) (harg3 : arg3.IsWhole) (arg4 : Memref sig .tc .vmem S1024x8 .i32) (harg4 : arg4.IsWhole) (arg5 : Memref sig .tc .vmem S1024x1 .i32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x8 .f32) (harg9 : arg9.IsWhole) (arg10 : Memref sig .tc .vmem S1x1 .f32) (harg10 : arg10.IsWhole)
    (hc0 : cond2_0 i) (hc1 : cond2_1 i) (hc2 : ¬cond2_2 i) (hc3 : ¬cond2_3 i)
    (x0 : Vec F S1024x256 .bf16) (x1 : Vec F S1024x256 .bf16) (x2 : Vec F S1024x8 .i32) (x3 : Vec F S1024x1 .i32) :
    Σ' (LS0 : List (View.Piece (Elt F) S1024x1 .f32)) (LS1 : List (View.Piece (Elt F) S1024x1 .f32)) (LS2 : List (View.Piece (Elt F) S1024x8 .f32)), { LS3 : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4
            ∗ (∃ d, owns (c : Thread nD τ) arg7 fullShare d)
            ∗ (∃ d, owns (c : Thread nD τ) arg8 fullShare d)
            ∗ (∃ d, owns (c : Thread nD τ) arg9 fullShare d)
            ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)
                ∗ (∃ f, arg10.view.loc (c : Thread nD τ) ↦[arg10.view.set]{fullShare} arg10.view.writes (Elt F) f LS3)) -∗ K ⟨⟩))
          ⊢ wp frame (wpE (defs₀ (F := F)) Variants.none c none) E (cc2_main_kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc2_main_kernel_eq_skeleton]; unfold cc2_main_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Gen

end
-- ==== Proof.KMainRunB.lean ====
import proofs.«417307_j14809047236881_2_alg».proof.Proof.KMainRunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg2 : Memref sig .tc .vmem S1024x256 .bf16) (harg2 : arg2.IsWhole) (arg3 : Memref sig .tc .vmem S1024x256 .bf16) (harg3 : arg3.IsWhole) (arg4 : Memref sig .tc .vmem S1024x8 .i32) (harg4 : arg4.IsWhole) (arg5 : Memref sig .tc .vmem S1024x1 .i32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x8 .f32) (harg9 : arg9.IsWhole) (arg10 : Memref sig .tc .vmem S1x1 .f32) (harg10 : arg10.IsWhole)
    (hc0 : ¬cond2_0 i) (hc1 : ¬cond2_1 i) (hc2 : ¬cond2_2 i) (hc3 : ¬cond2_3 i)
    (x0 : Vec F S1024x256 .bf16) (x1 : Vec F S1024x256 .bf16) (x2 : Vec F S1024x8 .i32) (x3 : Vec F S1024x1 .i32) (xs0 : Vec F S1024x1 .f32) (xs1 : Vec F S1024x1 .f32) (xs2 : Vec F S1024x8 .f32) :
    Σ' (LS0 : List (View.Piece (Elt F) S1024x1 .f32)) (LS1 : List (View.Piece (Elt F) S1024x1 .f32)), { LS2 : List (View.Piece (Elt F) S1024x8 .f32) //
      ∀ (xi4 : Vec F S1x1 .f32) (xs3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ owns (c : Thread nD τ) arg10 fullShare xs3) -∗ K ⟨⟩))
          ⊢ wp frame (wpE (defs₀ (F := F)) Variants.none c none) E (cc2_main_kernel i arg2 harg2 arg3 harg3 arg4 harg4 arg5 harg5 arg6 harg6 arg7 harg7 arg8 harg8 arg9 harg9 arg10 harg10) K } := by
  refine ⟨?_, ?_, ?_, fun xi4 xs3 E K => ?run⟩
  case run =>
    simp only [cc2_main_kernel_eq_skeleton]; unfold cc2_main_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4
    obtain rfl := harg7.eq_unread hfs0; obtain rfl := harg8.eq_unread hfs1; obtain rfl := harg9.eq_unread hfs2; obtain rfl := harg10.eq_unread hfs3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; isplitr; · ipureintro; exact harg10.read_unread _
    iexact HS3

end Cert.Kernel.Gen

end
-- ==== Proof.KMainRunC.lean ====
import proofs.«417307_j14809047236881_2_alg».proof.Proof.KMainRunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg2 : Memref sig .tc .vmem S1024x256 .bf16) (harg2 : arg2.IsWhole) (arg3 : Memref sig .tc .vmem S1024x256 .bf16) (harg3 : arg3.IsWhole) (arg4 : Memref sig .tc .vmem S1024x8 .i32) (harg4 : arg4.IsWhole) (arg5 : Memref sig .tc .vmem S1024x1 .i32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x8 .f32) (harg9 : arg9.IsWhole) (arg10 : Memref sig .tc .vmem S1x1 .f32) (harg10 : arg10.IsWhole)
    (hc0 : ¬cond2_0 i) (hc1 : ¬cond2_1 i) (hc2 : cond2_2 i) (hc3 : ¬cond2_3 i)
    (x0 : Vec F S1024x256 .bf16) (x1 : Vec F S1024x256 .bf16) (x2 : Vec F S1024x8 .i32) (x3 : Vec F S1024x1 .i32) (xs0 : Vec F S1024x1 .f32) (xs1 : Vec F S1024x1 .f32) (xs2 : Vec F S1024x8 .f32) (xs3 : Vec F S1x1 .f32) :
    Σ' (LS0 : List (View.Piece (Elt F) S1024x1 .f32)) (LS1 : List (View.Piece (Elt F) S1024x1 .f32)) (LS2 : List (View.Piece (Elt F) S1024x8 .f32)), { LS3 : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4
            ∗ owns (c : Thread nD τ) arg7 fullShare xs0
            ∗ owns (c : Thread nD τ) arg8 fullShare xs1
            ∗ owns (c : Thread nD τ) arg9 fullShare xs2
            ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)
                ∗ (∃ f, arg10.view.loc (c : Thread nD τ) ↦[arg10.view.set]{fullShare} arg10.view.writes (Elt F) f LS3)) -∗ K ⟨⟩))
          ⊢ wp frame (wpE (defs₀ (F := F)) Variants.none c none) E (cc2_main_kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc2_main_kernel_eq_skeleton]; unfold cc2_main_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4
    obtain rfl := harg7.eq_unread hfs0; obtain rfl := harg8.eq_unread hfs1; obtain rfl := harg9.eq_unread hfs2; obtain rfl := harg10.eq_unread hfs3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Gen

end
-- ==== Proof.KMainRunD.lean ====
import proofs.«417307_j14809047236881_2_alg».proof.Proof.KMainRunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_D (c : Dev nD) (i : grid2.Coords) (arg2 : Memref sig .tc .vmem S1024x256 .bf16) (harg2 : arg2.IsWhole) (arg3 : Memref sig .tc .vmem S1024x256 .bf16) (harg3 : arg3.IsWhole) (arg4 : Memref sig .tc .vmem S1024x8 .i32) (harg4 : arg4.IsWhole) (arg5 : Memref sig .tc .vmem S1024x1 .i32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x8 .f32) (harg9 : arg9.IsWhole) (arg10 : Memref sig .tc .vmem S1x1 .f32) (harg10 : arg10.IsWhole)
    (hc0 : ¬cond2_0 i) (hc1 : cond2_1 i) (hc2 : ¬cond2_2 i) (hc3 : ¬cond2_3 i)
    (x0 : Vec F S1024x256 .bf16) (x1 : Vec F S1024x256 .bf16) (x2 : Vec F S1024x8 .i32) (x3 : Vec F S1024x1 .i32) :
    Σ' (LS0 : List (View.Piece (Elt F) S1024x1 .f32)) (LS1 : List (View.Piece (Elt F) S1024x1 .f32)), { LS2 : List (View.Piece (Elt F) S1024x8 .f32) //
      ∀ (xi4 : Vec F S1x1 .f32) (xs3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4
            ∗ (∃ d, owns (c : Thread nD τ) arg7 fullShare d)
            ∗ (∃ d, owns (c : Thread nD τ) arg8 fullShare d)
            ∗ (∃ d, owns (c : Thread nD τ) arg9 fullShare d)
            ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)
                ∗ owns (c : Thread nD τ) arg10 fullShare xs3) -∗ K ⟨⟩))
          ⊢ wp frame (wpE (defs₀ (F := F)) Variants.none c none) E (cc2_main_kernel i arg2 harg2 arg3 harg3 arg4 harg4 arg5 harg5 arg6 harg6 arg7 harg7 arg8 harg8 arg9 harg9 arg10 harg10) K } := by
  refine ⟨?_, ?_, ?_, fun xi4 xs3 E K => ?run⟩
  case run =>
    simp only [cc2_main_kernel_eq_skeleton]; unfold cc2_main_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4
    obtain rfl := harg10.eq_unread hfs3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; isplitr; · ipureintro; exact harg10.read_unread _
    iexact HS3

end Cert.Kernel.Gen

end
-- ==== Proof.KMainRunE.lean ====
import proofs.«417307_j14809047236881_2_alg».proof.Proof.KMainRunD

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_E (c : Dev nD) (i : grid2.Coords) (arg2 : Memref sig .tc .vmem S1024x256 .bf16) (harg2 : arg2.IsWhole) (arg3 : Memref sig .tc .vmem S1024x256 .bf16) (harg3 : arg3.IsWhole) (arg4 : Memref sig .tc .vmem S1024x8 .i32) (harg4 : arg4.IsWhole) (arg5 : Memref sig .tc .vmem S1024x1 .i32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x8 .f32) (harg9 : arg9.IsWhole) (arg10 : Memref sig .tc .vmem S1x1 .f32) (harg10 : arg10.IsWhole)
    (hc0 : ¬cond2_0 i) (hc1 : ¬cond2_1 i) (hc2 : cond2_2 i) (hc3 : cond2_3 i)
    (x0 : Vec F S1024x256 .bf16) (x1 : Vec F S1024x256 .bf16) (x2 : Vec F S1024x8 .i32) (x3 : Vec F S1024x1 .i32) (xs0 : Vec F S1024x1 .f32) (xs1 : Vec F S1024x1 .f32) (xs2 : Vec F S1024x8 .f32) (xs3 : Vec F S1x1 .f32) :
    Σ' (L4 : List (View.Piece (Elt F) S1x1 .f32)) (LS0 : List (View.Piece (Elt F) S1024x1 .f32)) (LS1 : List (View.Piece (Elt F) S1024x1 .f32)) (LS2 : List (View.Piece (Elt F) S1024x8 .f32)), { LS3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ owns (c : Thread nD τ) arg7 fullShare xs0
            ∗ owns (c : Thread nD τ) arg8 fullShare xs1
            ∗ owns (c : Thread nD τ) arg9 fullShare xs2
            ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)
                ∗ (∃ f, arg10.view.loc (c : Thread nD τ) ↦[arg10.view.set]{fullShare} arg10.view.writes (Elt F) f LS3)) -∗ K ⟨⟩))
          ⊢ wp frame (wpE (defs₀ (F := F)) Variants.none c none) E (cc2_main_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2_main_kernel_eq_skeleton]; unfold cc2_main_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.Kernel.Gen

end
-- ==== Proof.KMainFrame.lean ====
import proofs.«417307_j14809047236881_2_alg».proof.Proof.KMainRunE

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def idleOut2 : Vec F S1x1 .f32 := VO2_4.read (Elt F) VO2_4.junk

section
variable (c : Dev nD) (i : grid2.Coords)
  (arg2 : Memref sig .tc .vmem S1024x256 .bf16) (harg2 : arg2.IsWhole)
  (arg3 : Memref sig .tc .vmem S1024x256 .bf16) (harg3 : arg3.IsWhole)
  (arg4 : Memref sig .tc .vmem S1024x8 .i32) (harg4 : arg4.IsWhole)
  (arg5 : Memref sig .tc .vmem S1024x1 .i32) (harg5 : arg5.IsWhole)
  (arg6 : Memref sig .tc .vmem S1x1 .f32) (harg6 : arg6.IsWhole)
  (arg7 : Memref sig .tc .vmem S1024x1 .f32) (harg7 : arg7.IsWhole)
  (arg8 : Memref sig .tc .vmem S1024x1 .f32) (harg8 : arg8.IsWhole)
  (arg9 : Memref sig .tc .vmem S1024x8 .f32) (harg9 : arg9.IsWhole)
  (arg10 : Memref sig .tc .vmem S1x1 .f32) (harg10 : arg10.IsWhole)

section
variable (hc0 : cond2_0 i) (hc1 : cond2_1 i) (hc2 : ¬cond2_2 i) (hc3 : ¬cond2_3 i)
  (x0 : Vec F S1024x256 .bf16) (x1 : Vec F S1024x256 .bf16) (x2 : Vec F S1024x8 .i32) (x3 : Vec F S1024x1 .i32)

theorem scover2_A_0 (y : S1024x1.Idx) :
    ∃ pc ∈ (kernelRun2_A c i arg2 harg2 arg3 harg3 arg4 harg4 arg5 harg5 arg6 harg6 arg7 harg7 arg8 harg8 arg9 harg9 arg10 harg10 hc0 hc1 hc2 hc3 x0 x1 x2 x3).1, y ∈ pc.1.set :=
  View.cover_of_tiledL _ S1024x1.size (by sl_kernel_rfl) y

def sout2_A_0 : Vec F S1024x1 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 hc0 hc1 hc2 hc3 x0 x1 x2 x3).1)

theorem scover2_A_1 (y : S1024x1.Idx) :
    ∃ pc ∈ (kernelRun2_A c i arg2 harg2 arg3 harg3 arg4 harg4 arg5 harg5 arg6 harg6 arg7 harg7 arg8 harg8 arg9 harg9 arg10 harg10 hc0 hc1 hc2 hc3 x0 x1 x2 x3).2.1, y ∈ pc.1.set :=
  View.cover_of_tiledL _ S1024x1.size (by sl_kernel_rfl) y

def sout2_A_1 : Vec F S1024x1 .f32 :=
  VS2_1.read (Elt F) (VS2_1.writes (Elt F) VS2_1.junk (kernelRun2_A c i arg2 harg2 arg3 harg3 arg4 harg4 arg5 harg5 arg6 harg6 arg7 harg7 arg8 harg8 arg9 harg9 arg10 harg10 hc0 hc1 hc2 hc3 x0 x1 x2 x3).2.1)

theorem scover2_A_2 (y : S1024x8.Idx) :
    ∃ pc ∈ (kernelRun2_A c i arg2 harg2 arg3 harg3 arg4 harg4 arg5 harg5 arg6 harg6 arg7 harg7 arg8 harg8 arg9 harg9 arg10 harg10 hc0 hc1 hc2 hc3 x0 x1 x2 x3).2.2.1, y ∈ pc.1.set :=
  View.cover_of_tiledL _ S1024x8.size (by sl_kernel_rfl) y

def sout2_A_2 : Vec F S1024x8 .f32 :=
  VS2_2.read (Elt F) (VS2_2.writes (Elt F) VS2_2.junk (kernelRun2_A c i arg2 harg2 arg3 harg3 arg4 harg4 arg5 harg5 arg6 harg6 arg7 harg7 arg8 harg8 arg9 harg9 arg10 harg10 hc0 hc1 hc2 hc3 x0 x1 x2 x3).2.2.1)

theorem scover2_A_3 (y : S1x1.Idx) :
    ∃ pc ∈ (kernelRun2_A c i arg2 harg2 arg3 harg3 arg4 harg4 arg5 harg5 arg6 harg6 arg7 harg7 arg8 harg8 arg9 harg9 arg10 harg10 hc0 hc1 hc2 hc3 x0 x1 x2 x3).2.2.2.1, y ∈ pc.1.set :=
  View.cover_of_tiledL _ S1x1.size (by sl_kernel_rfl) y

def sout2_A_3 : Vec F S1x1 .f32 :=
  VS2_3.read (Elt F) (VS2_3.writes (Elt F) VS2_3.junk (kernelRun2_A c i arg2 harg2 arg3 harg3 arg4 harg4 arg5 harg5 arg6 harg6 arg7 harg7 arg8 harg8 arg9 harg9 arg10 harg10 hc0 hc1 hc2 hc3 x0 x1 x2 x3).2.2.2.1)

def outs2_A :=
  (idleOut2 (F := F), sout2_A_0 c i arg2 harg2 arg3 harg3 arg4 harg4 arg5 harg5 arg6 harg6 arg7 harg7 arg8 harg8 arg9 harg9 arg10 harg10 hc0 hc1 hc2 hc3 x0 x1 x2 x3, sout2_A_1 c i arg2 harg2 arg3 harg3 arg4 harg4 arg5 harg5 arg6 harg6 arg7 harg7 arg8 harg8 arg9 harg9 arg10 harg10 hc0 hc1 hc2 hc3 x0 x1 x2 x3, sout2_A_2 c i arg2 harg2 arg3 harg3 arg4 harg4 arg5 harg5 arg6 harg6 arg7 harg7 arg8 harg8 arg9 harg9 arg10 harg10 hc0 hc1 hc2 hc3 x0 x1 x2 x3, sout2_A_3 c i arg2 harg2 arg3 harg3 arg4 harg4 arg5 harg5 arg6 harg6 arg7 harg7 arg8 harg8 arg9 harg9 arg10 harg10 hc0 hc1 hc2 hc3 x0 x1 x2 x3)

end

section
variable (hc0 : ¬cond2_0 i) (hc1 : ¬cond2_1 i) (hc2 : ¬cond2_2 i) (hc3 : ¬cond2_3 i)
  (x0 : Vec F S1024x256 .bf16) (x1 : Vec F S1024x256 .bf16) (x2 : Vec F S1024x8 .i32) (x3 : Vec F S1024x1 .i32) (xs0 : Vec F S1024x1 .f32) (xs1 : Vec F S1024x1 .f32) (xs2 : Vec F S1024x8 .f32)

theorem scover2_B_0 (y : S1024x1.Idx) :
    ∃ pc ∈ (kernelRun2_B c i arg2 harg2 arg3 harg3 arg4 harg4 arg5 harg5 arg6 harg6 arg7 harg7 arg8 harg8 arg9 harg9 arg10 harg10 hc0 hc1 hc2 hc3 x0 x1 x2 x3 xs0 xs1 xs2).1, y ∈ pc.1.set :=
  View.cover_of_tiledL _ S1024x1.size (by sl_kernel_rfl) y

def sout2_B_0 : Vec F S1024x1 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 hc0 hc1 hc2 hc3 x0 x1 x2 x3 xs0 xs1 xs2).1)

theorem scover2_B_1 (y : S1024x1.Idx) :
    ∃ pc ∈ (kernelRun2_B c i arg2 harg2 arg3 harg3 arg4 harg4 arg5 harg5 arg6 harg6 arg7 harg7 arg8 harg8 arg9 harg9 arg10 harg10 hc0 hc1 hc2 hc3 x0 x1 x2 x3 xs0 xs1 xs2).2.1, y ∈ pc.1.set :=
  View.cover_of_tiledL _ S1024x1.size (by sl_kernel_rfl) y

def sout2_B_1 : Vec F S1024x1 .f32 :=
  VS2_1.read (Elt F) (VS2_1.writes (Elt F) VS2_1.junk (kernelRun2_B c i arg2 harg2 arg3 harg3 arg4 harg4 arg5 harg5 arg6 harg6 arg7 harg7 arg8 harg8 arg9 harg9 arg10 harg10 hc0 hc1 hc2 hc3 x0 x1 x2 x3 xs0 xs1 xs2).2.1)

theorem scover2_B_2 (y : S1024x8.Idx) :
    ∃ pc ∈ (kernelRun2_B c i arg2 harg2 arg3 harg3 arg4 harg4 arg5 harg5 arg6 harg6 arg7 harg7 arg8 harg8 arg9 harg9 arg10 harg10 hc0 hc1 hc2 hc3 x0 x1 x2 x3 xs0 xs1 xs2).2.2.1, y ∈ pc.1.set :=
  View.cover_of_tiledL (s := S1024x8) _ S1024x1.size (by sl_kernel_rfl) y

def sout2_B_2 : Vec F S1024x8 .f32 :=
  VS2_2.read (Elt F) (VS2_2.writes (Elt F) VS2_2.junk (kernelRun2_B c i arg2 harg2 arg3 harg3 arg4 harg4 arg5 harg5 arg6 harg6 arg7 harg7 arg8 harg8 arg9 harg9 arg10 harg10 hc0 hc1 hc2 hc3 x0 x1 x2 x3 xs0 xs1 xs2).2.2.1)

def outs2_B (xs3 : Vec F S1x1 .f32) :=
  (idleOut2 (F := F), sout2_B_0 c i arg2 harg2 arg3 harg3 arg4 harg4 arg5 harg5 arg6 harg6 arg7 harg7 arg8 harg8 arg9 harg9 arg10 harg10 hc0 hc1 hc2 hc3 x0 x1 x2 x3 xs0 xs1 xs2, sout2_B_1 c i arg2 harg2 arg3 harg3 arg4 harg4 arg5 harg5 arg6 harg6 arg7 harg7 arg8 harg8 arg9 harg9 arg10 harg10 hc0 hc1 hc2 hc3 x0 x1 x2 x3 xs0 xs1 xs2, sout2_B_2 c i arg2 harg2 arg3 harg3 arg4 harg4 arg5 harg5 arg6 harg6 arg7 harg7 arg8 harg8 arg9 harg9 arg10 harg10 hc0 hc1 hc2 hc3 x0 x1 x2 x3 xs0 xs1 xs2, xs3)

end

section
variable (hc0 : ¬cond2_0 i) (hc1 : ¬cond2_1 i) (hc2 : cond2_2 i) (hc3 : ¬cond2_3 i)
  (x0 : Vec F S1024x256 .bf16) (x1 : Vec F S1024x256 .bf16) (x2 : Vec F S1024x8 .i32) (x3 : Vec F S1024x1 .i32) (xs0 : Vec F S1024x1 .f32) (xs1 : Vec F S1024x1 .f32) (xs2 : Vec F S1024x8 .f32) (xs3 : Vec F S1x1 .f32)

theorem scover2_C_0 (y : S1024x1.Idx) :
    ∃ pc ∈ (kernelRun2_C c i arg2 harg2 arg3 harg3 arg4 harg4 arg5 harg5 arg6 harg6 arg7 harg7 arg8 harg8 arg9 harg9 arg10 harg10 hc0 hc1 hc2 hc3 x0 x1 x2 x3 xs0 xs1 xs2 xs3).1, y ∈ pc.1.set :=
  View.cover_of_tiledL _ S1024x1.size (by sl_kernel_rfl) y

def sout2_C_0 : Vec F S1024x1 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 hc0 hc1 hc2 hc3 x0 x1 x2 x3 xs0 xs1 xs2 xs3).1)

theorem scover2_C_1 (y : S1024x1.Idx) :
    ∃ pc ∈ (kernelRun2_C c i arg2 harg2 arg3 harg3 arg4 harg4 arg5 harg5 arg6 harg6 arg7 harg7 arg8 harg8 arg9 harg9 arg10 harg10 hc0 hc1 hc2 hc3 x0 x1 x2 x3 xs0 xs1 xs2 xs3).2.1, y ∈ pc.1.set :=
  View.cover_of_tiledL _ S1024x1.size (by sl_kernel_rfl) y

def sout2_C_1 : Vec F S1024x1 .f32 :=
  VS2_1.read (Elt F) (VS2_1.writes (Elt F) VS2_1.junk (kernelRun2_C c i arg2 harg2 arg3 harg3 arg4 harg4 arg5 harg5 arg6 harg6 arg7 harg7 arg8 harg8 arg9 harg9 arg10 harg10 hc0 hc1 hc2 hc3 x0 x1 x2 x3 xs0 xs1 xs2 xs3).2.1)

theorem scover2_C_2 (y : S1024x8.Idx) :
    ∃ pc ∈ (kernelRun2_C c i arg2 harg2 arg3 harg3 arg4 harg4 arg5 harg5 arg6 harg6 arg7 harg7 arg8 harg8 arg9 harg9 arg10 harg10 hc0 hc1 hc2 hc3 x0 x1 x2 x3 xs0 xs1 xs2 xs3).2.2.1, y ∈ pc.1.set :=
  View.cover_of_tiledL (s := S1024x8) _ S1024x1.size (by sl_kernel_rfl) y

def sout2_C_2 : Vec F S1024x8 .f32 :=
  VS2_2.read (Elt F) (VS2_2.writes (Elt F) VS2_2.junk (kernelRun2_C c i arg2 harg2 arg3 harg3 arg4 harg4 arg5 harg5 arg6 harg6 arg7 harg7 arg8 harg8 arg9 harg9 arg10 harg10 hc0 hc1 hc2 hc3 x0 x1 x2 x3 xs0 xs1 xs2 xs3).2.2.1)

theorem scover2_C_3 (y : S1x1.Idx) :
    ∃ pc ∈ (kernelRun2_C c i arg2 harg2 arg3 harg3 arg4 harg4 arg5 harg5 arg6 harg6 arg7 harg7 arg8 harg8 arg9 harg9 arg10 harg10 hc0 hc1 hc2 hc3 x0 x1 x2 x3 xs0 xs1 xs2 xs3).2.2.2.1, y ∈ pc.1.set :=
  View.cover_of_tiledL _ S1x1.size (by sl_kernel_rfl) y

def sout2_C_3 : Vec F S1x1 .f32 :=
  VS2_3.read (Elt F) (VS2_3.writes (Elt F) VS2_3.junk (kernelRun2_C c i arg2 harg2 arg3 harg3 arg4 harg4 arg5 harg5 arg6 harg6 arg7 harg7 arg8 harg8 arg9 harg9 arg10 harg10 hc0 hc1 hc2 hc3 x0 x1 x2 x3 xs0 xs1 xs2 xs3).2.2.2.1)

def outs2_C :=
  (idleOut2 (F := F), sout2_C_0 c i arg2 harg2 arg3 harg3 arg4 harg4 arg5 harg5 arg6 harg6 arg7 harg7 arg8 harg8 arg9 harg9 arg10 harg10 hc0 hc1 hc2 hc3 x0 x1 x2 x3 xs0 xs1 xs2 xs3, sout2_C_1 c i arg2 harg2 arg3 harg3 arg4 harg4 arg5 harg5 arg6 harg6 arg7 harg7 arg8 harg8 arg9 harg9 arg10 harg10 hc0 hc1 hc2 hc3 x0 x1 x2 x3 xs0 xs1 xs2 xs3, sout2_C_2 c i arg2 harg2 arg3 harg3 arg4 harg4 arg5 harg5 arg6 harg6 arg7 harg7 arg8 harg8 arg9 harg9 arg10 harg10 hc0 hc1 hc2 hc3 x0 x1 x2 x3 xs0 xs1 xs2 xs3, sout2_C_3 c i arg2 harg2 arg3 harg3 arg4 harg4 arg5 harg5 arg6 harg6 arg7 harg7 arg8 harg8 arg9 harg9 arg10 harg10 hc0 hc1 hc2 hc3 x0 x1 x2 x3 xs0 xs1 xs2 xs3)

end

section
variable (hc0 : ¬cond2_0 i) (hc1 : cond2_1 i) (hc2 : ¬cond2_2 i) (hc3 : ¬cond2_3 i)
  (x0 : Vec F S1024x256 .bf16) (x1 : Vec F S1024x256 .bf16) (x2 : Vec F S1024x8 .i32) (x3 : Vec F S1024x1 .i32)

theorem scover2_D_0 (y : S1024x1.Idx) :
    ∃ pc ∈ (kernelRun2_D c i arg2 harg2 arg3 harg3 arg4 harg4 arg5 harg5 arg6 harg6 arg7 harg7 arg8 harg8 arg9 harg9 arg10 harg10 hc0 hc1 hc2 hc3 x0 x1 x2 x3).1, y ∈ pc.1.set :=
  View.cover_of_tiledL _ S1024x1.size (by sl_kernel_rfl) y

def sout2_D_0 : Vec F S1024x1 .f32 :=
  VS2_0.read (Elt F) (VS2_0.writes (Elt F) VS2_0.junk (kernelRun2_D c i arg2 harg2 arg3 harg3 arg4 harg4 arg5 harg5 arg6 harg6 arg7 harg7 arg8 harg8 arg9 harg9 arg10 harg10 hc0 hc1 hc2 hc3 x0 x1 x2 x3).1)

theorem scover2_D_1 (y : S1024x1.Idx) :
    ∃ pc ∈ (kernelRun2_D c i arg2 harg2 arg3 harg3 arg4 harg4 arg5 harg5 arg6 harg6 arg7 harg7 arg8 harg8 arg9 harg9 arg10 harg10 hc0 hc1 hc2 hc3 x0 x1 x2 x3).2.1, y ∈ pc.1.set :=
  View.cover_of_tiledL _ S1024x1.size (by sl_kernel_rfl) y

def sout2_D_1 : Vec F S1024x1 .f32 :=
  VS2_1.read (Elt F) (VS2_1.writes (Elt F) VS2_1.junk (kernelRun2_D c i arg2 harg2 arg3 harg3 arg4 harg4 arg5 harg5 arg6 harg6 arg7 harg7 arg8 harg8 arg9 harg9 arg10 harg10 hc0 hc1 hc2 hc3 x0 x1 x2 x3).2.1)

theorem scover2_D_2 (y : S1024x8.Idx) :
    ∃ pc ∈ (kernelRun2_D c i arg2 harg2 arg3 harg3 arg4 harg4 arg5 harg5 arg6 harg6 arg7 harg7 arg8 harg8 arg9 harg9 arg10 harg10 hc0 hc1 hc2 hc3 x0 x1 x2 x3).2.2.1, y ∈ pc.1.set :=
  View.cover_of_tiledL _ S1024x8.size (by sl_kernel_rfl) y

def sout2_D_2 : Vec F S1024x8 .f32 :=
  VS2_2.read (Elt F) (VS2_2.writes (Elt F) VS2_2.junk (kernelRun2_D c i arg2 harg2 arg3 harg3 arg4 harg4 arg5 harg5 arg6 harg6 arg7 harg7 arg8 harg8 arg9 harg9 arg10 harg10 hc0 hc1 hc2 hc3 x0 x1 x2 x3).2.2.1)

def outs2_D (xs3 : Vec F S1x1 .f32) :=
  (idleOut2 (F := F), sout2_D_0 c i arg2 harg2 arg3 harg3 arg4 harg4 arg5 harg5 arg6 harg6 arg7 harg7 arg8 harg8 arg9 harg9 arg10 harg10 hc0 hc1 hc2 hc3 x0 x1 x2 x3, sout2_D_1 c i arg2 harg2 arg3 harg3 arg4 harg4 arg5 harg5 arg6 harg6 arg7 harg7 arg8 harg8 arg9 harg9 arg10 harg10 hc0 hc1 hc2 hc3 x0 x1 x2 x3, sout2_D_2 c i arg2 harg2 arg3 harg3 arg4 harg4 arg5 harg5 arg6 harg6 arg7 harg7 arg8 harg8 arg9 harg9 arg10 harg10 hc0 hc1 hc2 hc3 x0 x1 x2 x3, xs3)

end

section
variable (hc0 : ¬cond2_0 i) (hc1 : ¬cond2_1 i) (hc2 : cond2_2 i) (hc3 : cond2_3 i)
  (x0 : Vec F S1024x256 .bf16) (x1 : Vec F S1024x256 .bf16) (x2 : Vec F S1024x8 .i32) (x3 : Vec F S1024x1 .i32) (xs0 : Vec F S1024x1 .f32) (xs1 : Vec F S1024x1 .f32) (xs2 : Vec F S1024x8 .f32) (xs3 : Vec F S1x1 .f32)

theorem cover2_E_4 (y : S1x1.Idx) :
    ∃ pc ∈ (kernelRun2_E c i arg2 harg2 arg3 harg3 arg4 harg4 arg5 harg5 arg6 harg6 arg7 harg7 arg8 harg8 arg9 harg9 arg10 harg10 hc0 hc1 hc2 hc3 x0 x1 x2 x3 xs0 xs1 xs2 xs3).1, y ∈ pc.1.set :=
  View.cover_of_tiledL _ S1x1.size (by sl_kernel_rfl) y

def out2_E_4 : Vec F S1x1 .f32 :=
  VO2_4.read (Elt F) (VO2_4.writes (Elt F) VO2_4.junk (kernelRun2_E c i arg2 harg2 arg3 harg3 arg4 harg4 arg5 harg5 arg6 harg6 arg7 harg7 arg8 harg8 arg9 harg9 arg10 harg10 hc0 hc1 hc2 hc3 x0 x1 x2 x3 xs0 xs1 xs2 xs3).1)

theorem scover2_E_0 (y : S1024x1.Idx) :
    ∃ pc ∈ (kernelRun2_E c i arg2 harg2 arg3 harg3 arg4 harg4 arg5 harg5 arg6 harg6 arg7 harg7 arg8 harg8 arg9 harg9 arg10 harg10 hc0 hc1 hc2 hc3 x0 x1 x2 x3 xs0 xs1 xs2 xs3).2.1, y ∈ pc.1.set :=
  View.cover_of_tiledL _ S1024x1.size (by sl_kernel_rfl) y

def sout2_E_0 : Vec F S1024x1 .f32 :=
  VS2_0.read (Elt F) (VS2_0.writes (Elt F) VS2_0.junk (kernelRun2_E c i arg2 harg2 arg3 harg3 arg4 harg4 arg5 harg5 arg6 harg6 arg7 harg7 arg8 harg8 arg9 harg9 arg10 harg10 hc0 hc1 hc2 hc3 x0 x1 x2 x3 xs0 xs1 xs2 xs3).2.1)

theorem scover2_E_1 (y : S1024x1.Idx) :
    ∃ pc ∈ (kernelRun2_E c i arg2 harg2 arg3 harg3 arg4 harg4 arg5 harg5 arg6 harg6 arg7 harg7 arg8 harg8 arg9 harg9 arg10 harg10 hc0 hc1 hc2 hc3 x0 x1 x2 x3 xs0 xs1 xs2 xs3).2.2.1, y ∈ pc.1.set :=
  View.cover_of_tiledL _ S1024x1.size (by sl_kernel_rfl) y

def sout2_E_1 : Vec F S1024x1 .f32 :=
  VS2_1.read (Elt F) (VS2_1.writes (Elt F) VS2_1.junk (kernelRun2_E c i arg2 harg2 arg3 harg3 arg4 harg4 arg5 harg5 arg6 harg6 arg7 harg7 arg8 harg8 arg9 harg9 arg10 harg10 hc0 hc1 hc2 hc3 x0 x1 x2 x3 xs0 xs1 xs2 xs3).2.2.1)

theorem scover2_E_2 (y : S1024x8.Idx) :
    ∃ pc ∈ (kernelRun2_E c i arg2 harg2 arg3 harg3 arg4 harg4 arg5 harg5 arg6 harg6 arg7 harg7 arg8 harg8 arg9 harg9 arg10 harg10 hc0 hc1 hc2 hc3 x0 x1 x2 x3 xs0 xs1 xs2 xs3).2.2.2.1, y ∈ pc.1.set :=
  View.cover_of_tiledL (s := S1024x8) _ S1024x1.size (by sl_kernel_rfl) y

def sout2_E_2 : Vec F S1024x8 .f32 :=
  VS2_2.read (Elt F) (VS2_2.writes (Elt F) VS2_2.junk (kernelRun2_E c i arg2 harg2 arg3 harg3 arg4 harg4 arg5 harg5 arg6 harg6 arg7 harg7 arg8 harg8 arg9 harg9 arg10 harg10 hc0 hc1 hc2 hc3 x0 x1 x2 x3 xs0 xs1 xs2 xs3).2.2.2.1)

theorem scover2_E_3 (y : S1x1.Idx) :
    ∃ pc ∈ (kernelRun2_E c i arg2 harg2 arg3 harg3 arg4 harg4 arg5 harg5 arg6 harg6 arg7 harg7 arg8 harg8 arg9 harg9 arg10 harg10 hc0 hc1 hc2 hc3 x0 x1 x2 x3 xs0 xs1 xs2 xs3).2.2.2.2.1, y ∈ pc.1.set :=
  View.cover_of_tiledL _ S1x1.size (by sl_kernel_rfl) y

def sout2_E_3 : Vec F S1x1 .f32 :=
  VS2_3.read (Elt F) (VS2_3.writes (Elt F) VS2_3.junk (kernelRun2_E c i arg2 harg2 arg3 harg3 arg4 harg4 arg5 harg5 arg6 harg6 arg7 harg7 arg8 harg8 arg9 harg9 arg10 harg10 hc0 hc1 hc2 hc3 x0 x1 x2 x3 xs0 xs1 xs2 xs3).2.2.2.2.1)

def outs2_E :=
  (out2_E_4 c i arg2 harg2 arg3 harg3 arg4 harg4 arg5 harg5 arg6 harg6 arg7 harg7 arg8 harg8 arg9 harg9 arg10 harg10 hc0 hc1 hc2 hc3 x0 x1 x2 x3 xs0 xs1 xs2 xs3, sout2_E_0 c i arg2 harg2 arg3 harg3 arg4 harg4 arg5 harg5 arg6 harg6 arg7 harg7 arg8 harg8 arg9 harg9 arg10 harg10 hc0 hc1 hc2 hc3 x0 x1 x2 x3 xs0 xs1 xs2 xs3, sout2_E_1 c i arg2 harg2 arg3 harg3 arg4 harg4 arg5 harg5 arg6 harg6 arg7 harg7 arg8 harg8 arg9 harg9 arg10 harg10 hc0 hc1 hc2 hc3 x0 x1 x2 x3 xs0 xs1 xs2 xs3, sout2_E_2 c i arg2 harg2 arg3 harg3 arg4 harg4 arg5 harg5 arg6 harg6 arg7 harg7 arg8 harg8 arg9 harg9 arg10 harg10 hc0 hc1 hc2 hc3 x0 x1 x2 x3 xs0 xs1 xs2 xs3, sout2_E_3 c i arg2 harg2 arg3 harg3 arg4 harg4 arg5 harg5 arg6 harg6 arg7 harg7 arg8 harg8 arg9 harg9 arg10 harg10 hc0 hc1 hc2 hc3 x0 x1 x2 x3 xs0 xs1 xs2 xs3)

end

end

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- The state after point n, by recursion on n: the point's case acts on the state the point before left.
def outsAt2 (c : Dev nD) : (n : ℕ) → n < cfg2.N → Vec F S1x1 .f32 × Vec F S1024x1 .f32 × Vec F S1024x1 .f32 × Vec F S1024x8 .f32 × Vec F S1x1 .f32
  | 0, hn => outs2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) scM2_2 (Memref.isWhole_whole _) scM2_3 (Memref.isWhole_whole _) ((hcond2_0 ⟨0, hn⟩).mpr rfl) ((hcond2_1 ⟨0, hn⟩).mpr (Nat.zero_mod _)) (fun h => (fun h => by (try dsimp only at h); omega) ((hcond2_2 ⟨0, hn⟩).mp h)) (fun h => (fun h => by (try dsimp only at h); omega) ((hcond2_3 ⟨0, hn⟩).mp h)) (iblk2 V c 0 ⟨0, hn⟩) (iblk2 V c 1 ⟨0, hn⟩) (iblk2 V c 2 ⟨0, hn⟩) (iblk2 V c 3 ⟨0, hn⟩)
  | n + 1, hn =>
    if h8 : (n + 1) % 8 = 0 then
      outs2_D c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) scM2_3 (Memref.isWhole_whole _) (fun h => Nat.succ_ne_zero n ((hcond2_0 ⟨n + 1, hn⟩).mp h)) ((hcond2_1 ⟨n + 1, hn⟩).mpr h8) (fun h => (by omega : ¬(n + 1) % 8 = 7) ((hcond2_2 ⟨n + 1, hn⟩).mp h)) (fun h => (by omega : ¬n + 1 = 63) ((hcond2_3 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.2
    else if h7 : (n + 1) % 8 = 7 then
      if h63 : n + 1 = 63 then
        outs2_E c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) scM2_3 (Memref.isWhole_whole _) (fun h => Nat.succ_ne_zero n ((hcond2_0 ⟨n + 1, hn⟩).mp h)) (fun h => h8 ((hcond2_1 ⟨n + 1, hn⟩).mp h)) ((hcond2_2 ⟨n + 1, hn⟩).mpr h7) ((hcond2_3 ⟨n + 1, hn⟩).mpr h63) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2
      else
        outs2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) scM2_3 (Memref.isWhole_whole _) (fun h => Nat.succ_ne_zero n ((hcond2_0 ⟨n + 1, hn⟩).mp h)) (fun h => h8 ((hcond2_1 ⟨n + 1, hn⟩).mp h)) ((hcond2_2 ⟨n + 1, hn⟩).mpr h7) (fun h => h63 ((hcond2_3 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2
    else
      outs2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) scM2_3 (Memref.isWhole_whole _) (fun h => Nat.succ_ne_zero n ((hcond2_0 ⟨n + 1, hn⟩).mp h)) (fun h => h8 ((hcond2_1 ⟨n + 1, hn⟩).mp h)) (fun h => h7 ((hcond2_2 ⟨n + 1, hn⟩).mp h)) (fun h => (by omega : ¬n + 1 = 63) ((hcond2_3 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2

theorem outsAt2_A (c : Dev nD) (t : Fin cfg2.N) (h0 : t.val = 0) :
    outsAt2 V c t.val t.isLt = outs2_A c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) ((hcond2_0 t).mpr h0) ((hcond2_1 t).mpr (by omega)) (fun h => (by omega : ¬t.val % 8 = 7) ((hcond2_2 t).mp h)) (fun h => (by omega : ¬t.val = 63) ((hcond2_3 t).mp h)) (iblk2 V c 0 t) (iblk2 V c 1 t) (iblk2 V c 2 t) (iblk2 V c 3 t) := by
  obtain ⟨n, hn⟩ := t
  cases n with
  | zero => exact rfl
  | succ n => exact absurd h0 (Nat.succ_ne_zero n)

theorem outsAt2_B (c : Dev nD) (t : Fin cfg2.N) (h0 : ¬t.val = 0) (h8 : ¬t.val % 8 = 0) (h7 : ¬t.val % 8 = 7) :
    outsAt2 V c t.val t.isLt = outs2_B c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => h0 ((hcond2_0 t).mp h)) (fun h => h8 ((hcond2_1 t).mp h)) (fun h => h7 ((hcond2_2 t).mp h)) (fun h => (by omega : ¬t.val = 63) ((hcond2_3 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2 := by
  obtain ⟨n, hn⟩ := t
  cases n with
  | zero => exact absurd rfl h0
  | succ n => exact (dif_neg h8).trans ((dif_neg h7).trans rfl)

theorem outsAt2_C (c : Dev nD) (t : Fin cfg2.N) (h8 : ¬t.val % 8 = 0) (h7 : t.val % 8 = 7) (h63 : ¬t.val = 63) :
    outsAt2 V c t.val t.isLt = outs2_C c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => (by omega : ¬t.val = 0) ((hcond2_0 t).mp h)) (fun h => h8 ((hcond2_1 t).mp h)) ((hcond2_2 t).mpr h7) (fun h => h63 ((hcond2_3 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2 := by
  obtain ⟨n, hn⟩ := t
  cases n with
  | zero => exact (by exfalso; (try dsimp only at h7); omega)
  | succ n => exact (dif_neg h8).trans ((dif_pos h7).trans ((dif_neg h63).trans rfl))

theorem outsAt2_D (c : Dev nD) (t : Fin cfg2.N) (h0 : ¬t.val = 0) (h8 : t.val % 8 = 0) :
    outsAt2 V c t.val t.isLt = outs2_D c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => h0 ((hcond2_0 t).mp h)) ((hcond2_1 t).mpr h8) (fun h => (by omega : ¬t.val % 8 = 7) ((hcond2_2 t).mp h)) (fun h => (by omega : ¬t.val = 63) ((hcond2_3 t).mp h)) (iblk2 V c 0 t) (iblk2 V c 1 t) (iblk2 V c 2 t) (iblk2 V c 3 t) (outsAt2 V c (t.val - 1) (Nat.lt_of_le_of_lt (Nat.sub_le _ _) t.isLt)).2.2.2.2 := by
  obtain ⟨n, hn⟩ := t
  cases n with
  | zero => exact absurd rfl h0
  | succ n => exact (dif_pos h8).trans rfl

theorem outsAt2_E (c : Dev nD) (t : Fin cfg2.N) (h8 : ¬t.val % 8 = 0) (h7 : t.val % 8 = 7) (h63 : t.val = 63) :
    outsAt2 V c t.val t.isLt = outs2_E c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => (by omega : ¬t.val = 0) ((hcond2_0 t).mp h)) (fun h => h8 ((hcond2_1 t).mp h)) ((hcond2_2 t).mpr h7) ((hcond2_3 t).mpr h63) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2 := by
  obtain ⟨n, hn⟩ := t
  cases n with
  | zero => exact (by exfalso; (try dsimp only at h7); omega)
  | succ n => exact (dif_neg h8).trans ((dif_pos h7).trans ((dif_pos h63).trans rfl))

def PhiS (c : Dev nD) : (n : ℕ) → n ≤ cfg2.N → sProp 𝕄
  | 0, _ => Phi2_0 (F := F) c
  | n + 1, hn => iprop(others2 (F := F) c ∗ owns (c : Thread nD τ) scM2_0 fullShare ((outsAt2 V c n hn).2.1) ∗ owns (c : Thread nD τ) scM2_1 fullShare ((outsAt2 V c n hn).2.2.1)
      ∗ owns (c : Thread nD τ) scM2_2 fullShare ((outsAt2 V c n hn).2.2.2.1) ∗ owns (c : Thread nD τ) scM2_3 fullShare ((outsAt2 V c n hn).2.2.2.2) ∗ (∃ r, prngReg c r))

theorem PhiS_zero (c : Dev nD) (n : ℕ) (h : n ≤ cfg2.N) (hz : n = 0) : PhiS V c n h = Phi2_0 (F := F) c := by
  subst hz; rfl

theorem PhiS_succ (c : Dev nD) (n : ℕ) (hn : n < cfg2.N) :
    PhiS V c (n + 1) hn = iprop(others2 (F := F) c ∗ owns (c : Thread nD τ) scM2_0 fullShare ((outsAt2 V c n hn).2.1) ∗ owns (c : Thread nD τ) scM2_1 fullShare ((outsAt2 V c n hn).2.2.1)
      ∗ owns (c : Thread nD τ) scM2_2 fullShare ((outsAt2 V c n hn).2.2.2.1) ∗ owns (c : Thread nD τ) scM2_3 fullShare ((outsAt2 V c n hn).2.2.2.2) ∗ (∃ r, prngReg c r)) := rfl

theorem PhiS_pos (c : Dev nD) (n : ℕ) (h : n ≤ cfg2.N) (hz : n ≠ 0) :
    PhiS V c n h = iprop(others2 (F := F) c ∗ owns (c : Thread nD τ) scM2_0 fullShare ((outsAt2 V c (n - 1) (by omega)).2.1) ∗ owns (c : Thread nD τ) scM2_1 fullShare ((outsAt2 V c (n - 1) (by omega)).2.2.1)
      ∗ owns (c : Thread nD τ) scM2_2 fullShare ((outsAt2 V c (n - 1) (by omega)).2.2.2.1) ∗ owns (c : Thread nD τ) scM2_3 fullShare ((outsAt2 V c (n - 1) (by omega)).2.2.2.2) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

theorem leavesExact2 (c : Dev nD) (w : Fin cfg2.W) (t : Fin cfg2.N) (h : cfg2.idle w (grid2.coords t) = false) :
    (dat2 V c).leavesExact w t = owns (c : Thread nD τ) ((cfg2.win w).stage (cfg2.slots t w)) fullShare ((dat2 V c).after w t) := by
  unfold Dat.leavesExact; rw [h]

-- Pieces that cover the whole shape fix what is read back, whatever was there before.
theorem owns_of_cover {s : Shape} {e : EltTy} {κ' : Kind} {sp' : Space} {v' : View sig κ' sp' s e} (c : Dev nD)
    {M : Memref sig .tc .vmem s e} {L : List (View.Piece (Elt F) s e)} (h : ∀ y, ∃ p ∈ L, y ∈ p.1.set) :
    (iprop(∃ f, M.view.loc (c : Thread nD τ) ↦[M.view.set]{fullShare} M.view.writes (Elt F) f L) : sProp 𝕄)
      ⊢ owns (c : Thread nD τ) M fullShare (v'.read (Elt F) (v'.writes (Elt F) v'.junk L)) := by
  unfold owns; iintro ⟨%f, H⟩; iexists _; isplitr; swap; · iexact H
  ipureintro; exact View.read_writes_of_cover _ _ _ _ _ h

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

set_option maxHeartbeats 2000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl,
    show (dat2 V c).Φ t.succ = PhiS V c (t.val + 1) t.isLt from rfl, PhiS_succ, PhiS_castSucc V c t,
    leavesExact2 V c 0 t (liveAt2_0 t), leavesExact2 V c 1 t (liveAt2_1 t), leavesExact2 V c 2 t (liveAt2_2 t),
    leavesExact2 V c 3 t (liveAt2_3 t), after2_0, after2_1, after2_2, after2_3]
  by_cases h63 : t.val = 63
  · rw [leavesExact2 V c 4 t (liveAt2_4 t ((hcond2_3 t).mpr h63)), after2_4, outsAt2_E V c t (by omega) (by omega) h63,
      PhiS_pos V c _ _ (by omega)]
    unfold outs2_E out2_E_4 sout2_E_0 sout2_E_1 sout2_E_2 sout2_E_3; (try dsimp only)
    iintro ⟨⟨HO, HS0, HS1, HS2, HS3, Hg⟩, Ho, ⟨%d0, H0⟩, ⟨%d1, H1⟩, ⟨%d2, H2⟩, ⟨%d3, H3⟩, ⟨%d4, H4⟩⟩
    iapply ((kernelRun2_E c (grid2.coords t) _ _ _ _ _ _ _ _ _ _ _ _ _ _ _ _ _ _ (mt (hcond2_0 t).mp (by omega)) (mt (hcond2_1 t).mp (by omega)) ((hcond2_2 t).mpr (by omega)) ((hcond2_3 t).mpr h63) _ _ _ _ _ _ _ _).2.2.2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HO HS0 HS1 HS2 HS3 Hg]
    · isplitl [HO]; · iexact HO
      isplitl [HS0]; · iapply (owns_of_cover c (scover2_E_0 c _ _ _ _ _ _ _ _ _ _ _ _ _ _ _ _ _ _ _ _ _ _ _ _ _ _ _ _ _ _ _)); iexact HS0
      isplitl [HS1]; · iapply (owns_of_cover c (scover2_E_1 c _ _ _ _ _ _ _ _ _ _ _ _ _ _ _ _ _ _ _ _ _ _ _ _ _ _ _ _ _ _ _)); iexact HS1
      isplitl [HS2]; · iapply (owns_of_cover c (scover2_E_2 c _ _ _ _ _ _ _ _ _ _ _ _ _ _ _ _ _ _ _ _ _ _ _ _ _ _ _ _ _ _ _)); iexact HS2
      isplitl [HS3]; · iapply (owns_of_cover c (scover2_E_3 c _ _ _ _ _ _ _ _ _ _ _ _ _ _ _ _ _ _ _ _ _ _ _ _ _ _ _ _ _ _ _)); iexact HS3
      iexact Hg
    isplitl [Ho]; · iexact Ho
    isplitl [H0]; · iexact H0
    isplitl [H1]; · iexact H1
    isplitl [H2]; · iexact H2
    isplitl [H3]; · iexact H3
    iapply (owns_of_cover c (cover2_E_4 c _ _ _ _ _ _ _ _ _ _ _ _ _ _ _ _ _ _ _ _ _ _ _ _ _ _ _ _ _ _ _)); iexact H4
  have hn63 : ¬cond2_3 (grid2.coords t) := mt (hcond2_3 t).mp h63
  rw [Dat.leavesExact_idle (dat2 V c) 4 t (idleAt2_4 t hn63) (noFlush2_4 t hn63)]
  by_cases h0 : t.val = 0
  · rw [outsAt2_A V c t h0, PhiS_zero V c _ _ h0]
    unfold outs2_A sout2_A_0 sout2_A_1 sout2_A_2 sout2_A_3 Phi2_0; (try dsimp only)
    iintro ⟨⟨HO, HS0, HS1, HS2, HS3, Hg⟩, Ho, ⟨%d0, H0⟩, ⟨%d1, H1⟩, ⟨%d2, H2⟩, ⟨%d3, H3⟩, ⟨%d4, H4⟩⟩
    iapply ((kernelRun2_A c (grid2.coords t) _ _ _ _ _ _ _ _ _ _ _ _ _ _ _ _ _ _ ((hcond2_0 t).mpr h0) ((hcond2_1 t).mpr (by omega)) (mt (hcond2_2 t).mp (by omega)) hn63 _ _ _ _).2.2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HO HS0 HS1 HS2 HS3 Hg]
    · isplitl [HO]; · iexact HO
      isplitl [HS0]; · iapply (owns_of_cover c (scover2_A_0 c _ _ _ _ _ _ _ _ _ _ _ _ _ _ _ _ _ _ _ _ _ _ _ _ _ _ _)); iexact HS0
      isplitl [HS1]; · iapply (owns_of_cover c (scover2_A_1 c _ _ _ _ _ _ _ _ _ _ _ _ _ _ _ _ _ _ _ _ _ _ _ _ _ _ _)); iexact HS1
      isplitl [HS2]; · iapply (owns_of_cover c (scover2_A_2 c _ _ _ _ _ _ _ _ _ _ _ _ _ _ _ _ _ _ _ _ _ _ _ _ _ _ _)); iexact HS2
      isplitl [HS3]; · iapply (owns_of_cover c (scover2_A_3 c _ _ _ _ _ _ _ _ _ _ _ _ _ _ _ _ _ _ _ _ _ _ _ _ _ _ _)); iexact HS3
      iexact Hg
    isplitl [Ho]; · iexact Ho
    isplitl [H0]; · iexact H0
    isplitl [H1]; · iexact H1
    isplitl [H2]; · iexact H2
    isplitl [H3]; · iexact H3
    iexists _; iexact H4
  rw [PhiS_pos V c _ _ h0]
  by_cases h8 : t.val % 8 = 0
  · rw [outsAt2_D V c t h0 h8]
    unfold outs2_D sout2_D_0 sout2_D_1 sout2_D_2; (try dsimp only)
    iintro ⟨⟨HO, HS0, HS1, HS2, HS3, Hg⟩, Ho, ⟨%d0, H0⟩, ⟨%d1, H1⟩, ⟨%d2, H2⟩, ⟨%d3, H3⟩, ⟨%d4, H4⟩⟩
    iapply ((kernelRun2_D c (grid2.coords t) _ _ _ _ _ _ _ _ _ _ _ _ _ _ _ _ _ _ (mt (hcond2_0 t).mp h0) ((hcond2_1 t).mpr h8) (mt (hcond2_2 t).mp (by omega)) hn63 _ _ _ _).2.2.2 _ _ Set.univ _)
    isplitl [H0]; · iexact H0
    isplitl [H1]; · iexact H1
    isplitl [H2]; · iexact H2
    isplitl [H3]; · iexact H3
    isplitl [H4]; · iexact H4
    isplitl [HS0]; · iexists _; iexact HS0
    isplitl [HS1]; · iexists _; iexact HS1
    isplitl [HS2]; · iexists _; iexact HS2
    isplitl [HS3]; · iexact HS3
    iintro ⟨H0, H1, H2, H3, H4, HS0, HS1, HS2, HS3⟩
    isplitl [HO HS0 HS1 HS2 HS3 Hg]
    · isplitl [HO]; · iexact HO
      isplitl [HS0]; · iapply (owns_of_cover c (scover2_D_0 c _ _ _ _ _ _ _ _ _ _ _ _ _ _ _ _ _ _ _ _ _ _ _ _ _ _ _)); iexact HS0
      isplitl [HS1]; · iapply (owns_of_cover c (scover2_D_1 c _ _ _ _ _ _ _ _ _ _ _ _ _ _ _ _ _ _ _ _ _ _ _ _ _ _ _)); iexact HS1
      isplitl [HS2]; · iapply (owns_of_cover c (scover2_D_2 c _ _ _ _ _ _ _ _ _ _ _ _ _ _ _ _ _ _ _ _ _ _ _ _ _ _ _)); iexact HS2
      isplitl [HS3]; · iexact HS3
      iexact Hg
    isplitl [Ho]; · iexact Ho
    isplitl [H0]; · iexact H0
    isplitl [H1]; · iexact H1
    isplitl [H2]; · iexact H2
    isplitl [H3]; · iexact H3
    iexists _; iexact H4
  by_cases h7 : t.val % 8 = 7
  · rw [outsAt2_C V c t h8 h7 h63]
    unfold outs2_C sout2_C_0 sout2_C_1 sout2_C_2 sout2_C_3; (try dsimp only)
    iintro ⟨⟨HO, HS0, HS1, HS2, HS3, Hg⟩, Ho, ⟨%d0, H0⟩, ⟨%d1, H1⟩, ⟨%d2, H2⟩, ⟨%d3, H3⟩, ⟨%d4, H4⟩⟩
    iapply ((kernelRun2_C c (grid2.coords t) _ _ _ _ _ _ _ _ _ _ _ _ _ _ _ _ _ _ (mt (hcond2_0 t).mp h0) (mt (hcond2_1 t).mp h8) ((hcond2_2 t).mpr h7) hn63 _ _ _ _ _ _ _ _).2.2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HO HS0 HS1 HS2 HS3 Hg]
    · isplitl [HO]; · iexact HO
      isplitl [HS0]; · iapply (owns_of_cover c (scover2_C_0 c _ _ _ _ _ _ _ _ _ _ _ _ _ _ _ _ _ _ _ _ _ _ _ _ _ _ _ _ _ _ _)); iexact HS0
      isplitl [HS1]; · iapply (owns_of_cover c (scover2_C_1 c _ _ _ _ _ _ _ _ _ _ _ _ _ _ _ _ _ _ _ _ _ _ _ _ _ _ _ _ _ _ _)); iexact HS1
      isplitl [HS2]; · iapply (owns_of_cover c (scover2_C_2 c _ _ _ _ _ _ _ _ _ _ _ _ _ _ _ _ _ _ _ _ _ _ _ _ _ _ _ _ _ _ _)); iexact HS2
      isplitl [HS3]; · iapply (owns_of_cover c (scover2_C_3 c _ _ _ _ _ _ _ _ _ _ _ _ _ _ _ _ _ _ _ _ _ _ _ _ _ _ _ _ _ _ _)); iexact HS3
      iexact Hg
    isplitl [Ho]; · iexact Ho
    isplitl [H0]; · iexact H0
    isplitl [H1]; · iexact H1
    isplitl [H2]; · iexact H2
    isplitl [H3]; · iexact H3
    iexists _; iexact H4
  rw [outsAt2_B V c t h0 h8 h7]
  unfold outs2_B sout2_B_0 sout2_B_1 sout2_B_2; (try dsimp only)
  iintro ⟨⟨HO, HS0, HS1, HS2, HS3, Hg⟩, Ho, ⟨%d0, H0⟩, ⟨%d1, H1⟩, ⟨%d2, H2⟩, ⟨%d3, H3⟩, ⟨%d4, H4⟩⟩
  iapply ((kernelRun2_B c (grid2.coords t) _ _ _ _ _ _ _ _ _ _ _ _ _ _ _ _ _ _ (mt (hcond2_0 t).mp h0) (mt (hcond2_1 t).mp h8) (mt (hcond2_2 t).mp h7) hn63 _ _ _ _ _ _ _).2.2.2 _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  isplitl [HO HS0 HS1 HS2 HS3 Hg]
  · isplitl [HO]; · iexact HO
    isplitl [HS0]; · iapply (owns_of_cover c (scover2_B_0 c _ _ _ _ _ _ _ _ _ _ _ _ _ _ _ _ _ _ _ _ _ _ _ _ _ _ _ _ _ _)); iexact HS0
    isplitl [HS1]; · iapply (owns_of_cover c (scover2_B_1 c _ _ _ _ _ _ _ _ _ _ _ _ _ _ _ _ _ _ _ _ _ _ _ _ _ _ _ _ _ _)); iexact HS1
    isplitl [HS2]; · iapply (owns_of_cover c (scover2_B_2 c _ _ _ _ _ _ _ _ _ _ _ _ _ _ _ _ _ _ _ _ _ _ _ _ _ _ _ _ _ _)); iexact HS2
    isplitl [HS3]; · iexact HS3
    iexact Hg
  isplitl [Ho]; · iexact Ho
  isplitl [H0]; · iexact H0
  isplitl [H1]; · iexact H1
  isplitl [H2]; · iexact H2
  isplitl [H3]; · iexact H3
  iexists _; iexact H4

theorem body_obligation2 (c : Dev nD) : BodyObligation (dat2 (F := F) V c) (defs₀ (F := F)) Variants.none () Set.univ := fun t => by
  rw [bigSep_W2, bigSep_W2]
  exact sound_body2 V c t

theorem hin2 (c : Dev nD) :
    iprop((∃ r, prngReg c r) ∗ Pipeline.scopedRest (Ix := Unit) (Name := ℕ) (U := UR sig nD τ) (Lvl := ℕ) (Val := Elt F) spec2 c) ⊢ (dat2 V c).Φ 0 := by
  rw [show (dat2 V c).Φ 0 = PhiS V c 0 (Nat.zero_le _) from rfl, PhiS_zero V c 0 _ rfl]
  exact Phi2_0_of_rest c

theorem Phi_out2 (c : Dev nD) (t : Fin (cfg2.N + 1)) (ht : t.val ≠ 0) :
    (dat2 V c).Φ t ⊢ iprop((∃ r, prngReg c r) ∗ Pipeline.scopedRest (Ix := Unit) (Name := ℕ) (U := UR sig nD τ) (Lvl := ℕ) (Val := Elt F) spec2 c) := by
  rw [show (dat2 V c).Φ t = PhiS V c t.val (Nat.le_of_lt_succ t.isLt) from rfl, PhiS_pos V c _ _ ht]
  refine .trans ?_ (rest_of_Phi2_0 c)
  unfold Phi2_0
  iintro ⟨HO, HS0, HS1, HS2, HS3, Hg⟩
  isplitl [HO]; · iexact HO
  isplitl [HS0]; · iexists _; iexact HS0
  isplitl [HS1]; · iexists _; iexact HS1
  isplitl [HS2]; · iexists _; iexact HS2
  isplitl [HS3]; · iexists _; iexact HS3
  iexact Hg

theorem hout2 (c : Dev nD) :
    (dat2 V c).Φ (Fin.last cfg2.N) ⊢ iprop((∃ r, prngReg c r) ∗ Pipeline.scopedRest (Ix := Unit) (Name := ℕ) (U := UR sig nD τ) (Lvl := ℕ) (Val := Elt F) spec2 c) :=
  Phi_out2 V c _ (by rw [Fin.val_last]; have : cfg2.N = 64 := N_2; omega)

end Cert.Kernel.Gen

end
-- ==== Proof.LibRegion.lean ====
import Idealize.ShloMosaic.Lib.Pipeline.FrameBody
import Idealize.ShloMosaic.Lib.Pipeline.RegionsLoop
import Idealize.ShloMosaic.Lib.Tactic

noncomputable section

namespace Cert.LibRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {nD : Nat} {τ : Topo} {sig : RefSig} {Val : EltTy → Type} {U : Type} [URA U]
variable {Λ₀ : Labels} {P : Type}

local notation "𝕄" => MT nD τ sig Unit Val ℕ U ℕ

abbrev Beside (c : Dev nD) : sProp 𝕄 := iprop((∃ r, prngReg c r) ∗ ∃ W, owes (c : Thread nD τ) (0 : CellTallies nD τ sig Unit) W)

variable (cfgs : P → Cfg sig Λ₀)
  (pdats : (p : P) → (c : Dev nD) → Dat τ Val Unit ℕ U ℕ (cfgs p) c)
  (defs₀ : Defs nD τ sig Val Λ₀) (𝒱₀ : Variants)
  (L : GSem nD τ sig → Finset Unit) (lv : GSem nD τ sig → Unit → ℕ)

set_option backward.isDefEq.respectTransparency.types false in
-- A region that writes one array o takes the buffers from V to V', which is V but for o's array.
def regionOfHeld (p : P) (lf : LaunchFacts (nD := nD) (τ := τ) cfgs p) (V V' : Dev nD → Valuation τ sig Val)
    (hbody : ∀ c, BodyObligationLoose (pdats p c) defs₀ 𝒱₀ () Set.univ)
    (o : Fin (cfgs p).W)
    (hin : ∀ c, iprop((∃ r, prngReg c r) ∗ prefHeld (Ix := Unit) (Name := ℕ) (U := U) (Lvl := ℕ) ((cfgs p).toPCfg (Val := Val)).pre c (fun _ => fullShare) ((cfgs p).toPCfg_adm (Val := Val)).1 ∗ scopedRest (cfgs p).spec c) ⊢ (pdats p c).Φ 0)
    (hout : ∀ c, (pdats p c).Φ (Fin.last (cfgs p).N) ⊢ iprop((∃ r, prngReg c r) ∗ emp ∗ scopedRest (Ix := Unit) (Name := ℕ) (U := U) (Lvl := ℕ) (cfgs p).spec c))
    (hO : ∀ c, V' c (arrRef (cfgs p).spec o) = (pdats p c).arrAt o (cfgs p).N := by exact fun _ => Function.update_self ..)
    (hI : ∀ c (b : Ref sig .tc), b ≠ arrRef (cfgs p).spec o → V' c b = V c b := by exact fun _ _ h => Function.update_of_ne (StableHlo.devRef_ne_of_ne h) ..)
    (hinp : ∀ w, w ≠ o → ((cfgs p).win w).isOut = false := by decide)
    (howed : ∀ c t, (pdats p c).owed t = 0 := by exact fun _ _ => rfl)
    (hrec : ∀ c, (pdats p c).recorded 0 = Set.univ := by exact fun _ => rfl)
    (hq : ∀ c w, (pdats p c).q w = fullShare := by exact fun _ _ => rfl)
    (hA : ∀ c w, (pdats p c).A w = V c (arrRef (cfgs p).spec w) := by exact fun _ _ => rfl) :
    RegionSeg (fun q => (cfgs q).toPCfg (Val := Val)) (fun q => (cfgs q).toPCfg_adm) pdats () defs₀ 𝒱₀ L lv p where
  win := lf.win.to₀
  block_pos := lf.block_pos
  stage_whole := lf.stage_whole
  K := PEmpty
  osem k := k.elim
  ho := OwnSemFacts.none _
  hbody := hbody
  hwaits := hwaits_of_owed_zero _ _ _ _ L lv p howed
  pre c := iprop(StableHlo.held (c : Thread nD τ) (ucRefs τ sig) (V c) ∗ Beside c)
  post c := iprop(StableHlo.held (c : Thread nD τ) (ucRefs τ sig) (V' c) ∗ Beside c)
  X c := iprop(∃ r, prngReg c r)
  Y c := iprop(∃ r, prngReg c r)
  Z c := unscopedRest (Ix := Unit) (Name := ℕ) (U := U) (Lvl := ℕ) (cfgs p).spec c (fun b => V c b)
  hentry c := by
    rw [ownSems0_none]
    have hsplit := arrays_of_unscopedBufs (p := p) (fun q => (cfgs q).toPCfg (Val := Val)) (fun q => (cfgs q).toPCfg_adm) pdats lf.win lf.arr_whole c
      ((pdats p c).share_full (hq c)) (fun b => V c b) (hA c)
    rw [unscopedBufs_held] at hsplit
    iintro ⟨⟨Hub, Hp, HO⟩, -, -⟩
    ihave H := hsplit $$ Hub
    icases H with ⟨Ha, Hrest⟩
    imodintro
    iframe Ha Hp Hrest
    isplitr; · unfold prefHeld; rw [show (Finset.univ : Finset (Fin 0)) = ∅ from rfl, BI.bigSep_empty]; iempintro
    unfold Dat.owesAt owesWithin; rw [howed c 0]
    icases HO with ⟨%W, HO⟩; iexists W; isplitr; · ipureintro; unfold Dat.bound; rw [hrec c]; exact fun _ _ => Or.inl trivial
    iexact HO
  hin := hin
  hout c := by rw [ownSems0_none]; exact hout c
  hexit c := by
    have hjoin := unscopedBufs_of_arrays (p := p) (fun q => (cfgs q).toPCfg (Val := Val)) (fun q => (cfgs q).toPCfg_adm) (Ix := Unit) (Name := ℕ) (U := U) (Lvl := ℕ)
      lf.win lf.arr_whole c pdats ((pdats p c).share_full (hq c))
      (fun b => V c b) (fun b => V' c b) ((pdats p c).arrAt · (cfgs p).N)
      (fun w => by
        by_cases h : w = o; · rw [h, hO]
        rw [(pdats p c).arrAt_in w (hinp w h), hA c w, hI c _ fun e => h (lf.win.arr_inj e)])
      (fun b hb => hI c b fun e => hb (Finset.mem_image.mpr ⟨o, Finset.mem_univ _, e.symm⟩))
    rw [unscopedBufs_held] at hjoin
    iintro ⟨Ha, HO, HY, Hrest⟩
    imodintro
    isplitl [Ha Hrest]
    · iapply hjoin; iframe
    isplitl [HY]; · iexact HY
    unfold Dat.owesAt owesWithin; rw [howed c]
    icases HO with ⟨%W, -, HO⟩; iexists W; iexact HO

set_option backward.isDefEq.respectTransparency.types false in
-- The same for a region whose invariant holds nothing of its own.
def regionΦA (p : P) (lf : LaunchFacts (nD := nD) (τ := τ) cfgs p) (V V' : Dev nD → Valuation τ sig Val)
    (hbody : ∀ c, BodyObligationLoose (pdats p c) defs₀ 𝒱₀ () Set.univ)
    (o : Fin (cfgs p).W)
    (hO : ∀ c, V' c (arrRef (cfgs p).spec o) = (pdats p c).arrAt o (cfgs p).N := by exact fun _ => Function.update_self ..)
    (hI : ∀ c (b : Ref sig .tc), b ≠ arrRef (cfgs p).spec o → V' c b = V c b := by exact fun _ _ h => Function.update_of_ne (StableHlo.devRef_ne_of_ne h) ..)
    (hinp : ∀ w, w ≠ o → ((cfgs p).win w).isOut = false := by decide)
    (hΦ₀ : ∀ c, (pdats p c).Φ 0 = ΦA (cfgs p).spec c := by exact fun _ => rfl)
    (hΦₙ : ∀ c, (pdats p c).Φ (Fin.last (cfgs p).N) = ΦA (cfgs p).spec c := by exact fun _ => rfl)
    (howed : ∀ c t, (pdats p c).owed t = 0 := by exact fun _ _ => rfl)
    (hrec : ∀ c, (pdats p c).recorded 0 = Set.univ := by exact fun _ => rfl)
    (hq : ∀ c w, (pdats p c).q w = fullShare := by exact fun _ _ => rfl)
    (hA : ∀ c w, (pdats p c).A w = V c (arrRef (cfgs p).spec w) := by exact fun _ _ => rfl) :
    RegionSeg (fun q => (cfgs q).toPCfg (Val := Val)) (fun q => (cfgs q).toPCfg_adm) pdats () defs₀ 𝒱₀ L lv p :=
  regionOfHeld cfgs pdats defs₀ 𝒱₀ L lv p lf V V' hbody o
    (fun c => by
      rw [hΦ₀]; unfold ΦA
      iintro ⟨Hp, -, Hr⟩
      iframe)
    (fun c => by
      rw [hΦₙ]; unfold ΦA
      iintro ⟨Hr, Hp⟩
      iframe)
    hO hI hinp howed hrec hq hA

omit cfgs pdats defs₀ 𝒱₀ L lv in
theorem own_launch (u : U) : (ownU u : sProp 𝕄) ⊢ |={Set.univ}=> iprop(BI.own (emb₁ u) ∗ bigSep Finset.univ fun _ : Dev nD => (BI.emp : sProp 𝕄)) := by
  rw [BI.bigSep_emp_const]
  iintro Hu; imodintro
  isplitl [Hu]; · iapply (show (ownU u : sProp 𝕄) ⊢ BI.own (emb₁ u) from .rfl); iexact Hu
  iempintro

end Cert.LibRegion

end
-- ==== Proof.KRunAll.lean ====
import proofs.«417307_j14809047236881_2_alg».proof.Proof.Gen.Kernel.Regions
import proofs.«417307_j14809047236881_2_alg».proof.Proof.KDense0
import proofs.«417307_j14809047236881_2_alg».proof.Proof.KDense1
import proofs.«417307_j14809047236881_2_alg».proof.Proof.KMainFrame
import proofs.«417307_j14809047236881_2_alg».proof.Proof.LibRegion

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- The buffers' contents between @main's six items: a host stretch applies its operations, a region replaces its output array.
abbrev W0 : Dev nD → Valuation τ sig (Elt F) := fun c b => m (c, b)
abbrev W1 : Dev nD → Valuation τ sig (Elt F) := fun c => StableHlo.after hostOps0 (W0 m c)
abbrev U1 : (c : Dev nD) → (b : Ref sig .tc) → Buf (Elt F) ((c : Thread nD τ).loc b) := fun c b => W1 m c b
def W2 (c : Dev nD) : Valuation τ sig (Elt F) := Function.update (W1 m c) main_v1 ((dat0 (U1 m) c).arrAt 3 cfg0.N)
abbrev U2 : (c : Dev nD) → (b : Ref sig .tc) → Buf (Elt F) ((c : Thread nD τ).loc b) := fun c b => W2 m c b
def W3 (c : Dev nD) : Valuation τ sig (Elt F) := Function.update (W2 m c) main_v2 ((dat1 (U2 m) c).arrAt 3 cfg1.N)
abbrev W4 : Dev nD → Valuation τ sig (Elt F) := fun c => StableHlo.after hostOps2 (W3 m c)
abbrev U4 : (c : Dev nD) → (b : Ref sig .tc) → Buf (Elt F) ((c : Thread nD τ).loc b) := fun c b => W4 m c b
def W5 (c : Dev nD) : Valuation τ sig (Elt F) := Function.update (W4 m c) main_v4 ((dat2 (U4 m) c).arrAt 4 cfg2.N)
abbrev W6 : Dev nD → Valuation τ sig (Elt F) := fun c => StableHlo.after hostOps3 (W5 m c)

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ≠ main_v1) : W2 m c r = W1 m c r :=
  Function.update_of_ne (StableHlo.devRef_ne_of_ne h) ..
theorem W3_of (c : Dev nD) (r : Ref sig .tc) (h : r ≠ main_v2) : W3 m c r = W2 m c r :=
  Function.update_of_ne (StableHlo.devRef_ne_of_ne h) ..
theorem W4_of (c : Dev nD) (r : Ref sig .tc) (h : r ∉ hostOps2_W) : W4 m c r = W3 m c r :=
  StableHlo.after_of_writes_sub hostOps2 _ hostOps2_writes h
theorem W5_of (c : Dev nD) (r : Ref sig .tc) (h : r ≠ main_v4) : W5 m c r = W4 m c r :=
  Function.update_of_ne (StableHlo.devRef_ne_of_ne h) ..
theorem W6_of (c : Dev nD) (r : Ref sig .tc) (h : r ∉ hostOps3_W) : W6 m c r = W5 m c r :=
  StableHlo.after_of_writes_sub hostOps3 _ hostOps3_writes h

-- A buffer no item writes ends as launched.
theorem W6_kept (c : Dev nD) (r : Ref sig .tc) (h0 : r ∉ hostOps0_W := by decide) (h1 : r ≠ main_v1 := by decide) (h2 : r ≠ main_v2 := by decide)
    (h3 : r ∉ hostOps2_W := by decide) (h4 : r ≠ main_v4 := by decide) (h5 : r ∉ hostOps3_W := by decide) : W6 m c r = m ((c : Thread nD τ).loc r) :=
  (W6_of m c r h5).trans <| (W5_of m c r h4).trans <| (W4_of m c r h3).trans <| (W3_of m c r h2).trans <| (W2_of m c r h1).trans <| W1_of m c r h0

def pdats : (p : Fin 3) → (c : Dev nD) → Dat τ (Elt F) Unit ℕ (UR sig nD τ) ℕ (cfgs p) c
  | ⟨0, _⟩ => fun c => dat0 (U1 m) c
  | ⟨1, _⟩ => fun c => dat1 (U2 m) c
  | ⟨2, _⟩ => fun c => dat2 (U4 m) c
abbrev 𝒱₀ : Variants := Variants.none
abbrev L : GSem nD τ sig → Finset Unit := fun _ => ∅
abbrev lv : GSem nD τ sig → Unit → ℕ := fun _ _ => 0

set_option backward.isDefEq.respectTransparency.types false in
def reg0 : Pipeline.RegionSeg (pcfgs (F := F)) adm (pdats m) () defs₀ 𝒱₀ L lv 0 :=
  Cert.LibRegion.regionΦA cfgs (pdats m) defs₀ 𝒱₀ L lv 0 launch0 (W1 m) (W2 m) (fun c => (body_obligation0 (U1 m) c).loose) 3
set_option backward.isDefEq.respectTransparency.types false in
def reg1 : Pipeline.RegionSeg (pcfgs (F := F)) adm (pdats m) () defs₀ 𝒱₀ L lv 1 :=
  Cert.LibRegion.regionΦA cfgs (pdats m) defs₀ 𝒱₀ L lv 1 launch1 (W2 m) (W3 m) (fun c => (body_obligation1 (U2 m) c).loose) 3
set_option backward.isDefEq.respectTransparency.types false in
def reg2 : Pipeline.RegionSeg (pcfgs (F := F)) adm (pdats m) () defs₀ 𝒱₀ L lv 2 :=
  Cert.LibRegion.regionOfHeld cfgs (pdats m) defs₀ 𝒱₀ L lv 2 launch2 (W4 m) (W5 m) (fun c => (body_obligation2 (U4 m) c).loose) 4
    (fun c => by
      refine .trans ?_ (hin2 (U4 m) c)
      iintro ⟨Hp, -, Hr⟩
      iframe)
    (fun c => by
      refine (hout2 (U4 m) c).trans ?_
      iintro ⟨Hp, Hr⟩
      iframe)

abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Cert.LibRegion.Beside

abbrev items : List (Pipeline.Seg (pcfgs (F := F)) adm (pdats m) () defs₀ 𝒱₀ L lv) :=
  [.host (hostSeg hostOps0 hostOps0_sub hostOps0_fresh (W0 m)), .region (reg0 m), .region (reg1 m),
    .host (hostSeg hostOps2 hostOps2_sub hostOps2_fresh (W3 m)), .region (reg2 m), .host (hostSeg hostOps3 hostOps3_sub hostOps3_fresh (W5 m))]
theorem main_run (c : Dev nD) : main (F := F) c = Pipeline.Seg.run (items m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
theorem run_held : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main
    (items m) (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := Cert.LibRegion.own_launch _)
    (T₀ := fun c => iprop(StableHlo.held (c : Thread nD τ) (Pipeline.ucRefs τ sig) (W0 m c) ∗ Cert.LibRegion.Beside c))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ Cert.LibRegion.Beside c)
        ⊢ iprop(iprop(StableHlo.held (c : Thread nD τ) (Pipeline.ucRefs τ sig) (W6 m c) ∗ ∃ r, prngReg c r)
            ∗ ∃ W, owes (c : Thread nD τ) (0 : CellTallies nD τ sig Unit) W)
      iintro ⟨Hh, Hp, HO⟩
      iframe⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

-- Every weakly fair execution of @main ends with the result buffer at the last valuation and every argument as launched.
theorem run_all : θ_run defs (onTc (τ := τ) (main (F := F))) ⟨m, fun _ => 0, ρ⟩ (fun r => ∀ c : Dev nD,
      r.2.mem ((c.tc : Thread nD τ).loc main_v5) = W6 m c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨h c _ (mem_uc main_v5 (by decide)),
      (h c _ (mem_uc main_arg0 (by decide))).trans (W6_kept m c main_arg0), (h c _ (mem_uc main_arg1 (by decide))).trans (W6_kept m c main_arg1),
      (h c _ (mem_uc main_arg2 (by decide))).trans (W6_kept m c main_arg2), (h c _ (mem_uc main_arg3 (by decide))).trans (W6_kept m c main_arg3),
      (h c _ (mem_uc main_arg4 (by decide))).trans (W6_kept m c main_arg4), (h c _ (mem_uc main_arg5 (by decide))).trans (W6_kept m c main_arg5)⟩) (run_held m ρ)

end Cert.Kernel.Gen

end
-- ==== Proof.RefRunMain.lean ====
import proofs.«417307_j14809047236881_2_alg».proof.Proof.RefRun
import proofs.«417307_j14809047236881_2_alg».proof.Proof.RefRead
import Idealize.ShloMosaic.Lib.StableHlo.Run
import Idealize.ShloMosaic.Lib.Pipeline.Frame

noncomputable section

namespace Cert.ReferenceIdeal.RunH

open Cert.ReferenceIdeal Cert.ReferenceIdeal.Gen Idealize.ShloMosaic Idealize.ShloMosaic.TcCoe Idealize.SL.Sem Idealize.ShloMosaic.StableHlo Cert.ReferenceIdeal.ValueP Cert.ReferenceIdeal.ReadP

variable {F : FTy → Type} [FloatOps F]

-- The 90 operations as three consecutive stretches: 0 to 31, 32 to 51, 52 to 89.
abbrev opsA : List (HloOp τ sig (Elt F)) := ops.take 32
abbrev opsB : List (HloOp τ sig (Elt F)) := (ops.drop 32).take 20
abbrev opsC : List (HloOp τ sig (Elt F)) := ops.drop 52

theorem ops_split : (ops : List (HloOp τ sig (Elt F))) = (opsA ++ opsB) ++ opsC := by
  rw [opsA, opsB, opsC, ← List.take_add, List.take_append_drop]

variable (m : (ℓ : Loc nD τ sig) → Buf (Elt F) ℓ) (c : Dev nD)

abbrev arg (r : Ref sig .tc) := m ((c.tc : Thread nD τ).loc r)

-- Buffer r after the operations L, run from the launch contents.
abbrev rd (L : List (HloOp τ sig (Elt F))) (r : Ref sig .tc) := StableHlo.after L (launchContents m c) (Proc.devRef .tc r)

set_option maxHeartbeats 4000000 in
theorem readA : rd m c opsA main_v16 = val_main_v16 (F := F) (arg m c main_arg0) (arg m c main_arg2) (arg m c main_arg3)
    ∧ rd m c opsA main_v21 = val_main_v21 (F := F) (arg m c main_arg1) (arg m c main_arg2) (arg m c main_arg3)
    ∧ rd m c opsA main_arg4 = arg m c main_arg4 ∧ rd m c opsA main_arg5 = arg m c main_arg5 := by
  refine ⟨?_, ?_, ?_, ?_⟩ <;>
    (simp only [rd, opsA, List.take_succ_cons, List.take_zero]; after_results_simp <;> rfl)

-- A cast along a reflexive equation is the identity.
set_option maxHeartbeats 4000000 in
theorem readAB : rd m c (opsA ++ opsB) main_v26 = val_main_v26 (F := F) (arg m c main_arg0) (arg m c main_arg1) (arg m c main_arg2) (arg m c main_arg3)
    ∧ rd m c (opsA ++ opsB) main_arg4 = arg m c main_arg4 ∧ rd m c (opsA ++ opsB) main_arg5 = arg m c main_arg5 := by
  obtain ⟨h16, h21, h4, h5⟩ := readA m c
  simp only [rd, StableHlo.after_append] at h16 h21 h4 h5 ⊢
  generalize StableHlo.after (opsA (F := F)) (launchContents m c) = VA at h16 h21 h4 h5 ⊢
  simp only [opsB, List.drop_succ_cons, List.drop_zero, List.take_succ_cons, List.take_zero]
  refine ⟨?_, ?_, ?_⟩ <;> after_results_simp
  · rw [h16, h21]
    dsimp only [TRef.ofBuf, TRef.toBuf]
    repeat rw [cast_eq]
    rfl
  · exact h4
  · exact h5

set_option maxHeartbeats 4000000 in
theorem result_val : rd m c ops main_v41
    = val_main_v41 (F := F) (arg m c main_arg0) (arg m c main_arg1) (arg m c main_arg2) (arg m c main_arg3) (arg m c main_arg4) (arg m c main_arg5) := by
  obtain ⟨h26, h4, h5⟩ := readAB m c
  simp only [rd] at h26 h4 h5 ⊢
  rw [ops_split, StableHlo.after_append]
  generalize StableHlo.after (opsA (F := F) ++ opsB) (launchContents m c) = VB at h26 h4 h5 ⊢
  simp only [opsC, List.drop_succ_cons, List.drop_zero]
  after_results_simp
  rw [h26, h4, h5]
  dsimp only [TRef.ofBuf, TRef.toBuf]
  repeat rw [cast_eq]
  rfl

-- No operation writes an argument.
set_option maxHeartbeats 4000000 in
theorem kept : rd m c ops main_arg0 = arg m c main_arg0 ∧ rd m c ops main_arg1 = arg m c main_arg1
    ∧ rd m c ops main_arg2 = arg m c main_arg2 ∧ rd m c ops main_arg3 = arg m c main_arg3
    ∧ rd m c ops main_arg4 = arg m c main_arg4 ∧ rd m c ops main_arg5 = arg m c main_arg5 := by
  refine ⟨?_, ?_, ?_, ?_, ?_, ?_⟩ <;> (simp only [rd]; after_results_simp <;> rfl)

set_option maxHeartbeats 36000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41) = val_main_v41 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      have ⟨k0, k1, k2, k3, k4, k5⟩ := kept m c
      ⟨(h c main_v41).trans (result_val m c), (h c main_arg0).trans k0, (h c main_arg1).trans k1,
        (h c main_arg2).trans k2, (h c main_arg3).trans k3, (h c main_arg4).trans k4, (h c main_arg5).trans k5⟩)
    (run_seq scopedRefs_eq scopedSems_eq defs main (fun _ => ops) main_eq (fun _ => ops_sub) m ρ)

end Cert.ReferenceIdeal.RunH

end
-- ==== Proof.LibRealVariance.lean ====
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.BigOperators.Group.Finset.Sigma
import Mathlib.Algebra.Order.BigOperators.Group.Finset
import Mathlib.Logic.Equiv.Fin.Basic
import Mathlib.Tactic.FieldSimp
import Mathlib.Tactic.Ring
import Mathlib.Tactic.NormNum

noncomputable section

namespace Cert.Alg

open Idealize.ShloMosaic
open scoped BigOperators

def IsReal (x : EReal) : Prop := ∃ r : ℝ, x = (r : EReal)

-- The embedding of ℝ is additive, so it carries a finite sum to the sum of the embedded terms.
theorem coe_finset_sum {ι : Type*} (s : Finset ι) (r : ι → ℝ) :
    ((∑ i ∈ s, r i : ℝ) : EReal) = ∑ i ∈ s, (r i : EReal) := by
  classical
  induction s using Finset.induction_on with
  | empty => simp
  | insert j s hj ih => rw [Finset.sum_insert hj, Finset.sum_insert hj, EReal.coe_add, ih]

namespace IsReal

theorem coe (r : ℝ) : IsReal (r : EReal) := ⟨r, rfl⟩

theorem add {x y : EReal} (hx : IsReal x) (hy : IsReal y) : IsReal (x + y) :=
  let ⟨a, ha⟩ := hx; let ⟨b, hb⟩ := hy; ⟨a + b, by rw [ha, hb, EReal.coe_add]⟩

theorem mul {x y : EReal} (hx : IsReal x) (hy : IsReal y) : IsReal (x * y) :=
  let ⟨a, ha⟩ := hx; let ⟨b, hb⟩ := hy; ⟨a * b, by rw [ha, hb, EReal.coe_mul]⟩

theorem sum {ι : Type*} [Fintype ι] (a : ι → EReal) (h : ∀ i, IsReal (a i)) : IsReal (∑ i, a i) := by
  choose r hr using h
  exact ⟨∑ i, r i, by rw [coe_finset_sum]; exact Finset.sum_congr rfl fun i _ => hr i⟩

-- A quotient by a nonzero real is the product with its real reciprocal.
theorem div {x y : EReal} (hx : IsReal x) (hy : IsReal y) (hy0 : y ≠ 0) : IsReal (Ideal.div x y) := by
  obtain ⟨b, rfl⟩ := hy
  rw [Ideal.div_coe fun h => hy0 (by rw [h]; rfl)]
  exact mul hx (coe _)

end IsReal

theorem isReal_iff (x : EReal) : IsReal x ↔ x ≠ ⊤ ∧ x ≠ ⊥ :=
  ⟨fun ⟨r, h⟩ => h ▸ ⟨EReal.coe_ne_top r, EReal.coe_ne_bot r⟩,
    fun ⟨ht, hb⟩ => ⟨x.toReal, (EReal.coe_toReal ht hb).symm⟩⟩

-- At ⊤ the first argument of the maximum is ⊤, at ⊥ the second is.
theorem isReal_of_abs_lt_top {x : EReal} (h : max x (-x) < ⊤) : IsReal x := by
  rw [isReal_iff]
  constructor <;> rintro rfl <;> exact absurd h (by simp)

theorem sum_regroup {α β γ M : Type*} [Fintype α] [Fintype β] [Fintype γ] [AddCommMonoid M]
    (e : α × β ≃ γ) (f : γ → M) : ∑ x, ∑ y, f (e (x, y)) = ∑ k, f k := by
  rw [← Fintype.sum_prod_type (fun p : α × β => f (e p))]
  exact Fintype.sum_equiv e _ _ fun _ => rfl

end Cert.Alg

end
-- ==== Proof.LibSoftmax.lean ====
import proofs.«417307_j14809047236881_2_alg».proof.Proof.LibRealVariance
import Idealize.ShloMosaic.PureOps.Ideal
import Mathlib.Data.Finset.Fold
import Mathlib.Analysis.SpecialFunctions.Exp

noncomputable section

namespace Cert.Softmax

open Idealize.ShloMosaic Cert.Alg
open scoped BigOperators

-- A maximum folded from -∞ over entries below +∞, one of them real, is real: it is above that entry and below +∞.
theorem isReal_fold_max {ι : Type*} (s : Finset ι) (f : ι → EReal) (hf : ∀ i ∈ s, f i ≠ ⊤) {j : ι} (hj : j ∈ s)
    (hr : IsReal (f j)) : IsReal (s.fold max ⊥ f) := by
  obtain ⟨r, hr⟩ := hr
  rw [isReal_iff]
  refine ⟨ne_of_lt ?_, ne_of_gt ?_⟩
  · rw [Finset.fold_max_lt]
    exact ⟨bot_lt_top, fun i hi => lt_top_iff_ne_top.mpr (hf i hi)⟩
  · rw [Finset.lt_fold_max]
    exact Or.inr ⟨j, hj, by rw [hr]; exact EReal.bot_lt_coe r⟩

theorem exp_sub_pos {x M : EReal} (hx : IsReal x) (hM : IsReal M) :
    ∃ r : ℝ, 0 < r ∧ Ideal.exp (x - M) = (r : EReal) := by
  obtain ⟨a, rfl⟩ := hx
  obtain ⟨b, rfl⟩ := hM
  exact ⟨Real.exp (a - b), Real.exp_pos _, by rw [← EReal.coe_sub, Ideal.exp_coe]⟩

end Cert.Softmax

end
-- ==== Proof.LibOnlineSoftmax.lean ====
import proofs.«417307_j14809047236881_2_alg».proof.Proof.LibRealVariance
import proofs.«417307_j14809047236881_2_alg».proof.Proof.LibSoftmax
import Idealize.ShloMosaic.PureOps.Ideal
import Mathlib.Data.Finset.Fold
import Mathlib.Data.Fintype.BigOperators
import Mathlib.Algebra.Order.BigOperators.Group.Finset
import Mathlib.Analysis.SpecialFunctions.Exp
import Mathlib.Analysis.SpecialFunctions.Log.Basic
import Mathlib.Data.EReal.Operations
import Mathlib.Tactic.Ring

noncomputable section

namespace Cert.Online

open Cert.Alg Idealize.ShloMosaic
open scoped BigOperators

def bmax {W : ℕ} (x : Fin W → EReal) : EReal := (Finset.univ : Finset (Fin W)).fold max ⊥ x

def stepM {W : ℕ} (mo : EReal) (x : Fin W → EReal) : EReal := max mo (bmax x)

def stepL {W : ℕ} (mo lo : EReal) (x : Fin W → EReal) : EReal :=
  lo * Ideal.exp (mo - stepM mo x) + ∑ q, Ideal.exp (x q - stepM mo x)

def run {W : ℕ} (x : ℕ → Fin W → EReal) : ℕ → EReal × EReal
  | 0 => (stepM ⊥ (x 0), stepL ⊥ 0 (x 0))
  | k + 1 => (stepM (run x k).1 (x (k + 1)), stepL (run x k).1 (run x k).2 (x (k + 1)))

def blocks {W N : ℕ} (y : Fin N → EReal) (k : ℕ) (q : Fin W) : EReal :=
  if h : k * W + q.val < N then y ⟨k * W + q.val, h⟩ else ⊥

def ext {N : ℕ} (y : Fin N → EReal) (n : ℕ) : EReal := if h : n < N then y ⟨n, h⟩ else ⊥

theorem exp_nonneg (x : EReal) : 0 ≤ Ideal.exp x := by
  induction x using EReal.rec with
  | bot => rw [Ideal.exp_bot]
  | coe r => rw [Ideal.exp_coe]; exact_mod_cast (Real.exp_pos r).le
  | top => rw [Ideal.exp_top]; exact le_top

theorem exp_sub_mul_exp_sub {x : EReal} (hx : x ≠ ⊤) (a b : ℝ) :
    Ideal.exp (x - a) * Ideal.exp ((a : EReal) - b) = Ideal.exp (x - b) := by
  induction x using EReal.rec with
  | bot => rw [EReal.bot_sub, EReal.bot_sub, Ideal.exp_bot, zero_mul]
  | coe r =>
    rw [← EReal.coe_sub, ← EReal.coe_sub, ← EReal.coe_sub, Ideal.exp_coe, Ideal.exp_coe,
      Ideal.exp_coe, ← EReal.coe_mul, ← Real.exp_add]
    congr 2; ring
  | top => exact absurd rfl hx

theorem sum_exp_rescale {ι : Type*} (s : Finset ι) (f : ι → EReal) (hf : ∀ i ∈ s, f i ≠ ⊤)
    (a b : ℝ) :
    (∑ i ∈ s, Ideal.exp (f i - a)) * Ideal.exp ((a : EReal) - b) = ∑ i ∈ s, Ideal.exp (f i - b) := by
  classical
  induction s using Finset.induction_on with
  | empty => simp
  | insert j s hj ih =>
    rw [Finset.sum_insert hj, Finset.sum_insert hj,
      EReal.right_distrib_of_nonneg (exp_nonneg _) (Finset.sum_nonneg fun i _ => exp_nonneg _),
      exp_sub_mul_exp_sub (hf j (Finset.mem_insert_self j s)),
      ih fun i hi => hf i (Finset.mem_insert_of_mem hi)]

theorem fold_max_range_add (g : ℕ → EReal) (a w : ℕ) :
    (Finset.range (a + w)).fold max ⊥ g
      = max ((Finset.range a).fold max ⊥ g) ((Finset.range w).fold max ⊥ fun i => g (a + i)) := by
  refine eq_of_forall_ge_iff fun c => ?_
  simp only [Finset.fold_max_le, max_le_iff, bot_le, true_and, Finset.mem_range]
  constructor
  · intro h
    exact ⟨fun n hn => h n (by omega), fun i hi => h (a + i) (by omega)⟩
  · rintro ⟨h1, h2⟩ n hn
    rcases lt_or_ge n a with h | h
    · exact h1 n h
    · have := h2 (n - a) (by omega)
      rwa [Nat.add_sub_of_le h] at this

theorem fold_max_fin (w : ℕ) (g : ℕ → EReal) :
    (Finset.univ : Finset (Fin w)).fold max ⊥ (fun q => g q.val) = (Finset.range w).fold max ⊥ g := by
  refine eq_of_forall_ge_iff fun c => ?_
  simp only [Finset.fold_max_le, bot_le, true_and, Finset.mem_range, Finset.mem_univ,
    forall_true_left]
  exact ⟨fun h n hn => h ⟨n, hn⟩, fun h q => h q.val q.isLt⟩

theorem stepM_shift (W : ℕ) (g : ℕ → EReal) (a : ℕ) (mo : EReal) :
    stepM mo (fun q : Fin W => g (a + q.val))
      = max mo ((Finset.range W).fold max ⊥ fun i => g (a + i)) :=
  congrArg (max mo) (fold_max_fin W fun i => g (a + i))

theorem sum_fin_shift (W : ℕ) (g : ℕ → EReal) (a : ℕ) (m : EReal) :
    ∑ q : Fin W, Ideal.exp (g (a + q.val) - m) = ∑ i ∈ Finset.range W, Ideal.exp (g (a + i) - m) :=
  Fin.sum_univ_eq_sum_range (fun i => Ideal.exp (g (a + i) - m)) W

theorem run_seq (W : ℕ) (hW : 0 < W) (g : ℕ → EReal) (hg : ∀ n, g n ≠ ⊤) (h0 : IsReal (g 0))
    (k : ℕ) :
    run (fun k (q : Fin W) => g (k * W + q.val)) k
      = ((Finset.range ((k + 1) * W)).fold max ⊥ g,
          ∑ i ∈ Finset.range ((k + 1) * W),
            Ideal.exp (g i - (Finset.range ((k + 1) * W)).fold max ⊥ g)) := by
  induction k with
  | zero =>
    have hM : stepM ⊥ (fun q : Fin W => g (0 * W + q.val)) = (Finset.range ((0 + 1) * W)).fold max ⊥ g := by
      rw [stepM_shift, max_bot_left]
      simp only [Nat.zero_mul, Nat.zero_add, Nat.one_mul]
    show (stepM ⊥ (fun q : Fin W => g (0 * W + q.val)),
        stepL ⊥ 0 (fun q : Fin W => g (0 * W + q.val))) = _
    refine Prod.ext hM ?_
    show 0 * _ + ∑ q : Fin W, Ideal.exp (g (0 * W + q.val) - stepM ⊥ (fun q : Fin W => g (0 * W + q.val))) = _
    rw [hM, zero_mul, zero_add, sum_fin_shift]
    simp only [Nat.zero_mul, Nat.zero_add, Nat.one_mul]
  | succ k ih =>
    have hA : (k + 1 + 1) * W = (k + 1) * W + W := Nat.succ_mul (k + 1) W
    have hApos : 0 < (k + 1) * W := Nat.mul_pos (Nat.succ_pos k) hW
    obtain ⟨m, hm⟩ := Cert.Softmax.isReal_fold_max _ g (fun i _ => hg i) (Finset.mem_range.mpr hApos) h0
    obtain ⟨m', hm'⟩ := Cert.Softmax.isReal_fold_max _ g (fun i _ => hg i) (Finset.mem_range.mpr (Nat.add_pos_left hApos W)) h0
    have hM : stepM ((Finset.range ((k + 1) * W)).fold max ⊥ g)
        (fun q : Fin W => g ((k + 1) * W + q.val)) = (Finset.range ((k + 1) * W + W)).fold max ⊥ g := by
      rw [stepM_shift, ← fold_max_range_add]
    show (stepM (run _ k).1 (fun q : Fin W => g ((k + 1) * W + q.val)),
        stepL (run _ k).1 (run _ k).2 (fun q : Fin W => g ((k + 1) * W + q.val))) = _
    rw [ih, hA]
    refine Prod.ext hM ?_
    show (∑ i ∈ Finset.range ((k + 1) * W), Ideal.exp (g i - (Finset.range ((k + 1) * W)).fold max ⊥ g))
          * Ideal.exp ((Finset.range ((k + 1) * W)).fold max ⊥ g - stepM _ _)
        + ∑ q : Fin W, Ideal.exp (g ((k + 1) * W + q.val) - stepM _ _) = _
    rw [hM, hm', hm, sum_exp_rescale _ g (fun i _ => hg i) m m', sum_fin_shift,
      ← Finset.sum_range_add]

theorem ext_ne_top {N : ℕ} (y : Fin N → EReal) (hy : ∀ j, IsReal (y j)) (n : ℕ) : ext y n ≠ ⊤ := by
  unfold ext
  split
  · exact ((isReal_iff _).mp (hy _)).1
  · exact bot_ne_top

theorem fold_max_ext {N : ℕ} (y : Fin N → EReal) {n : ℕ} (hn : N ≤ n) :
    (Finset.range n).fold max ⊥ (ext y) = (Finset.univ : Finset (Fin N)).fold max ⊥ y := by
  refine eq_of_forall_ge_iff fun c => ?_
  simp only [Finset.fold_max_le, bot_le, true_and, Finset.mem_range, Finset.mem_univ,
    forall_true_left]
  constructor
  · intro h j
    have := h j.val (lt_of_lt_of_le j.isLt hn)
    rwa [ext, dif_pos j.isLt] at this
  · intro h i _
    unfold ext
    split
    · exact h _
    · exact bot_le

theorem sum_exp_ext {N : ℕ} (y : Fin N → EReal) {n : ℕ} (hn : N ≤ n) (m : EReal) :
    ∑ i ∈ Finset.range n, Ideal.exp (ext y i - m) = ∑ j : Fin N, Ideal.exp (y j - m) := by
  have h1 : ∑ i ∈ Finset.range N, Ideal.exp (ext y i - m)
      = ∑ i ∈ Finset.range n, Ideal.exp (ext y i - m) :=
    Finset.sum_subset (Finset.range_mono hn) fun i _ hi => by
      have hi' : ¬ i < N := by simpa using hi
      rw [ext, dif_neg hi', EReal.bot_sub, Ideal.exp_bot]
  rw [← h1, ← Fin.sum_univ_eq_sum_range]
  refine Finset.sum_congr rfl fun j _ => ?_
  rw [ext, dif_pos j.isLt]

-- After the last block the pass holds the row's maximum and the sum of exp (y j - maximum) over the row.
theorem run_last {W K N : ℕ} (hW : 0 < W) (hlo : K * W < N) (hhi : N ≤ (K + 1) * W)
    (y : Fin N → EReal) (hy : ∀ j, IsReal (y j)) :
    run (blocks (W := W) y) K = ((Finset.univ : Finset (Fin N)).fold max ⊥ y,
      ∑ j, Ideal.exp (y j - (Finset.univ : Finset (Fin N)).fold max ⊥ y)) := by
  have h0 : IsReal (ext y 0) := by rw [ext, dif_pos ((Nat.zero_le _).trans_lt hlo)]; exact hy _
  show run (fun k (q : Fin W) => ext y (k * W + q.val)) K = _
  rw [run_seq W hW (ext y) (ext_ne_top y hy) h0 K, fold_max_ext y hhi, sum_exp_ext y hhi]

theorem row_law {W K N : ℕ} (hW : 0 < W) (hlo : K * W < N) (hhi : N ≤ (K + 1) * W)
    (y : Fin N → EReal) (hy : ∀ j, IsReal (y j)) (F : EReal) (hF : IsReal F) :
    F - ((run (blocks (W := W) y) K).1 + Ideal.log (run (blocks (W := W) y) K).2)
      = (F - max ⊥ ((Finset.univ : Finset (Fin N)).fold max ⊥ y))
        - Ideal.log (0 + ∑ j, Ideal.exp (y j - max ⊥ ((Finset.univ : Finset (Fin N)).fold max ⊥ y))) := by
  have hN : 0 < N := (Nat.zero_le _).trans_lt hlo
  haveI : Nonempty (Fin N) := ⟨⟨0, hN⟩⟩
  simp only [run_last hW hlo hhi y hy, max_bot_left, zero_add]
  obtain ⟨M, hM⟩ := Cert.Softmax.isReal_fold_max Finset.univ y (fun j _ => ((isReal_iff _).mp (hy j)).1)
    (Finset.mem_univ ⟨0, hN⟩) (hy _)
  obtain ⟨f, rfl⟩ := hF
  rw [hM]
  have he : ∀ j, ∃ r : ℝ, 0 < r ∧ Ideal.exp (y j - (M : EReal)) = (r : EReal) :=
    fun j => Cert.Softmax.exp_sub_pos (hy j) (IsReal.coe M)
  choose e he using he
  have hL : (0 : ℝ) < ∑ j, e j := Finset.sum_pos (fun j _ => (he j).1) Finset.univ_nonempty
  rw [Finset.sum_congr rfl fun j _ => (he j).2, ← coe_finset_sum, Ideal.log_coe,
    if_neg (not_le.mpr hL), ← EReal.coe_add, ← EReal.coe_sub, ← EReal.coe_sub, ← EReal.coe_sub]
  congr 1
  ring

end Cert.Online

end
-- ==== Proof.Spec.lean ====
import Idealize.ShloMosaic.PureOps.Ideal
import Idealize.ShloMosaic.PureOps.Ideal.Laws
import Idealize.ShloMosaic.Lib.ValueIdx
import proofs.«417307_j14809047236881_2_alg».proof.Proof.LibRealVariance
import proofs.«417307_j14809047236881_2_alg».proof.Proof.LibSoftmax
import proofs.«417307_j14809047236881_2_alg».proof.Proof.LibOnlineSoftmax

noncomputable section

namespace Cert.Spec

open Idealize.ShloMosaic Cert.Alg
open scoped BigOperators

def eps : EReal := Ideal.ofBits .f32 0x322BCC77#32

def temp : EReal := Ideal.ofBits .f32 0x3D4CCCCD#32

def scale : EReal := ((268435456 / 13421773 : ℝ) : EReal)

def proj (e : Fin 8192 → Fin 256 → EReal) (W : Fin 256 → Fin 256 → EReal) (b : Fin 256 → EReal)
    (r : Fin 8192) (h : Fin 256) : EReal :=
  Ideal.tanh ((∑ k : Fin 256, e r k * W h k) + b h)

def nrm (z : Fin 256 → EReal) : EReal := max (Ideal.sqrt (∑ h : Fin 256, z h * z h)) eps

def unit (e : Fin 8192 → Fin 256 → EReal) (W : Fin 256 → Fin 256 → EReal) (b : Fin 256 → EReal)
    (r : Fin 8192) (h : Fin 256) : EReal :=
  Ideal.div (proj e W b r h) (nrm (proj e W b r))

def cosine (n1 n2 : Fin 8192 → Fin 256 → EReal) (i j : Fin 8192) : EReal := ∑ h : Fin 256, n1 i h * n2 j h

def logit (n1 n2 : Fin 8192 → Fin 256 → EReal) (i j : Fin 8192) : EReal := Ideal.div (cosine n1 n2 i j) temp

def rowMax (y : Fin 8192 → EReal) : EReal := (Finset.univ : Finset (Fin 8192)).fold max ⊥ y

def lsm (y : Fin 8192 → EReal) (c : Fin 8192) : EReal :=
  (y c - max ⊥ (rowMax y)) - Ideal.log (0 + ∑ k, Ideal.exp (y k - max ⊥ (rowMax y)))

def rowTerm (y : Fin 8192 → EReal) (lab : Fin 8 → Fin 8192) (mask : Fin 8 → EReal) (cnt : EReal) : EReal :=
  Ideal.div (-(0 + ∑ j : Fin 8, lsm y (lab j) * mask j)) (cnt * cnt)

def loss (y : Fin 8192 → Fin 8192 → EReal) (lab : Fin 8192 → Fin 8 → Fin 8192)
    (mask : Fin 8192 → Fin 8 → EReal) (cnt : Fin 8192 → EReal) : EReal :=
  0 + ∑ i : Fin 8192, rowTerm (y i) (lab i) (mask i) (cnt i)

def labOf (w : BitVec 32) : Fin 8192 := ⟨w.toNat % 8192, Nat.mod_lt _ (by norm_num)⟩

def maskOf (cnt : BitVec 32) (j : Fin 8) : EReal := if (BitVec.ofNat 32 j.val).slt cnt then 1 else 0

def cntOf (cnt : BitVec 32) : EReal := ((cnt.toInt : ℝ) : EReal)

def lossOf (e1 e2 : Fin 8192 → Fin 256 → EReal) (W : Fin 256 → Fin 256 → EReal) (b : Fin 256 → EReal)
    (labels : Fin 8192 → Fin 8 → BitVec 32) (counts : Fin 8192 → BitVec 32) : EReal :=
  loss (fun i j => logit (unit e1 W b) (unit e2 W b) i j) (fun i j => labOf (labels i j))
    (fun i j => maskOf (counts i) j) (fun i => cntOf (counts i))

theorem mul_scale_eq_div_temp {x : EReal} (hx : IsReal x) : x * scale = Ideal.div x temp := by

  have ht : Ideal.ofBits .f32 0x3D4CCCCD#32 = ((13421773 / 268435456 : ℝ) : EReal) := by
    simp [Ideal.ofBits, Ideal.ieee, -EReal.coe_mul]; norm_num
  obtain ⟨r, rfl⟩ := hx
  have hd : (13421773 / 268435456 : ℝ) ≠ 0 := by norm_num
  rw [scale, temp, ht, Ideal.div_coe hd, ← EReal.coe_mul, ← EReal.coe_mul]
  congr 1
  norm_num

theorem online_eq_lsm (y : Fin 8192 → EReal) (hy : ∀ j, IsReal (y j)) (c : Fin 8192) :
    y c - ((Cert.Online.run (Cert.Online.blocks (W := 1024) y) 7).1
        + Ideal.log (Cert.Online.run (Cert.Online.blocks (W := 1024) y) 7).2) = lsm y c := by

  exact Cert.Online.row_law (W := 1024) (K := 7) (N := 8192) (by norm_num) (by norm_num)
    (by norm_num) y hy (y c) (hy c)

theorem pick_by_blocks (y : Fin 8192 → EReal) (l : Fin 8192) :
    (∑ k : Fin 8, ∑ q : Fin 1024, if q.val + 1024 * k.val = l.val then y ⟨q.val + 1024 * k.val, by omega⟩ else 0) = y l := by

  let e : Fin 8 × Fin 1024 ≃ Fin 8192 := finProdFinEquiv
  have h := sum_regroup e (fun j : Fin 8192 => if j = l then y j else 0)
  rw [Finset.sum_ite_eq' Finset.univ l y, if_pos (Finset.mem_univ l)] at h
  rw [← h]
  refine Finset.sum_congr rfl fun k _ => Finset.sum_congr rfl fun q _ => ?_
  have he : e (k, q) = ⟨q.val + 1024 * k.val, by omega⟩ := rfl
  rw [he]
  simp only [Fin.ext_iff]

def tileSum (f : Fin 8192 → EReal) (q : Fin 8) : EReal :=
  0 + ∑ r : Fin 1024, f ⟨r.val + 1024 * q.val, by omega⟩

def acc (f : Fin 8192 → EReal) : ℕ → EReal
  | 0 => 0
  | n + 1 => acc f n + (if h : n < 8 then tileSum f ⟨n, h⟩ else 0)

theorem sum_tiles (f : Fin 8192 → EReal) : acc f 8 = 0 + ∑ i : Fin 8192, f i := by

  have hacc : ∀ n : ℕ, acc f n
      = ∑ q ∈ Finset.range n, (if h : q < 8 then tileSum f ⟨q, h⟩ else 0) := by
    intro n
    induction n with
    | zero => simp [acc]
    | succ n ih => rw [acc, ih, Finset.sum_range_succ]

  let e : Fin 8 × Fin 1024 ≃ Fin 8192 := finProdFinEquiv
  have htile : ∀ q : Fin 8, tileSum f q = ∑ r : Fin 1024, f (e (q, r)) := by
    intro q
    rw [tileSum, zero_add]
    rfl
  rw [hacc 8, ← Fin.sum_univ_eq_sum_range (fun q => if h : q < 8 then tileSum f ⟨q, h⟩ else 0) 8,
    zero_add, ← sum_regroup e f]
  refine Finset.sum_congr rfl fun q _ => ?_
  rw [dif_pos q.isLt]
  exact htile q

end Cert.Spec

end
-- ==== Proof.RefValue.lean ====
import proofs.«417307_j14809047236881_2_alg».proof.Proof.RefRun
import proofs.«417307_j14809047236881_2_alg».proof.Proof.RefRead
import proofs.«417307_j14809047236881_2_alg».proof.Proof.Spec
import Idealize.ShloMosaic.Lib.ValueIdx
import Idealize.ShloMosaic.Lib.Affine
import Idealize.ShloMosaic.Lib.ValueIdxRank1
import Idealize.ShloMosaic.Lib.Pipeline.Value
import Idealize.ShloMosaic.PureOps.Ideal.Laws

noncomputable section

namespace Cert.ReferenceIdeal.RefValue

open Idealize.ShloMosaic Cert.Alg
open Cert.ReferenceIdeal Cert.ReferenceIdeal.Gen Cert.ReferenceIdeal.ReadP Idealize.ShloMosaic.ValueIdx
open scoped BigOperators

abbrev rowDims := gather_S8192x8192_S8192x8x1_S8192x8_n_1_0_0_1_2_11

-- The row axis is the batching axis and keeps the result's row; the column axis is collapsed, so its coordinate is the clamped start index alone.
theorem gather_row_apply {α : Type} {w : Nat} (x : S8192x8192.Idx → α) (idx : IVec S8192x8x1 w) (i : Fin 8192) (j : Fin 8)
    (c : Fin 8192) (hc : c.val = min (idx (ix3 i j (0 : Fin 1))).toInt.toNat 8191) :
    Host.gather rowDims x idx (ix2 i j) = x (ix2 i c) := by
  unfold Host.gather
  congr 1
  funext ax
  refine Fin.ext ?_
  show rowDims.start (ix2 i j) idx ax + rowDims.batchCoord (ix2 i j) ax + rowDims.offCoord (ix2 i j) ax = _
  match ax with
  | ⟨0, _⟩ =>
    have hb : (⟨0, by decide⟩ : Fin S8192x8192.rank) ∈ rowDims.operandBatchingDims := List.mem_singleton.mpr rfl
    rw [GatherDims.start_batching _ _ _ _ hb,
      GatherDims.offCoord_eq_zero _ _ _ (fun h => ((GatherDims.mem_sKept _ _).mp h).2 hb), Nat.zero_add, Nat.add_zero]
    unfold GatherDims.batchCoord
    rw [dif_pos hb]
    rfl
  | ⟨1, _⟩ =>
    have hm : (⟨1, by decide⟩ : Fin S8192x8192.rank) ∈ rowDims.startIndexMap := List.mem_singleton.mpr rfl
    rw [GatherDims.batchCoord_eq_zero _ _ _ (fun h => absurd (congrArg Fin.val (List.mem_singleton.mp h)) (by simp)),
      GatherDims.offCoord_eq_zero _ _ _ (fun h => ((GatherDims.mem_sKept _ _).mp h).1 (List.mem_singleton.mpr rfl)),
      Nat.add_zero]
    unfold GatherDims.start
    rw [dif_pos hm]
    have hsi : rowDims.siIdx (ix2 i j)
        ⟨List.idxOf (⟨1, by decide⟩ : Fin S8192x8192.rank) rowDims.startIndexMap, List.idxOf_lt_length_iff.2 hm⟩
        = ix3 i j (0 : Fin 1) := (eq_ix3 _).trans rfl
    rw [hsi]
    exact hc.symm

theorem ofBits_neg_inf : Ideal.ofBits .f32 0xFF800000#32 = ⊥ := by
  simp [Ideal.ofBits, Ideal.ieee]

theorem rowMax_read (y : FVec Ideal S8192x8192 .f32) (init : S_.Idx → EReal) (hinit : init (Shape.Idx.first h_S_) = ⊥)
    (i : Fin 8192) :
    Host.reduce (FloatOps.maximumf (F := Ideal) (φ := .f32)) y init reducesTo_S8192x8192_S8192_d1 h_S_ (ix1 i)
      = Cert.Spec.rowMax (fun j => y (ix2 i j)) := by
  have h : S8192x8192.Reduces [1] S8192 := by decide
  rw [Host.reduce_eq_fold_single _ y init reducesTo_S8192x8192_S8192_d1 h h_S_ (ix1 i), hinit]
  have e : (y ∘ h.lift (ix1 i)) = fun j : Fin 8192 => y (ix2 i j) :=
    funext fun k => congrArg y ((eq_ix2 _).trans rfl)
  rw [e]
  rfl

-- A fold of "and" from 1 over words that are all 1 stays 1.
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1)
    (hinit : init (Shape.Idx.first hu) = 1#1) :
    Host.reduce IntOp.andi x init h hu j = 1#1 := by
  rw [Host.reduce_eq_foldl, hinit]
  suffices H : ∀ l : List s.Idx, l.foldl (fun r n => IntOp.andi r (x n)) 1#1 = 1#1 from H _
  intro l
  induction l with
  | nil => rfl
  | cons a l ih => rw [List.foldl_cons, hx a]; exact ih

theorem toNat_of_range {a : BitVec 32} (h0 : 0 ≤ a.toInt) (h1 : a.toInt < 8192) :
    a.toInt.toNat = a.toNat ∧ a.toNat < 8192 := by
  have hc := BitVec.toInt_eq_toNat_cond a
  have hl := a.isLt
  split at hc <;> omega

theorem slt_zero_of_nonneg {a : BitVec 32} (h0 : 0 ≤ a.toInt) : IntOp.cmpi .slt a 0#32 = 0#1 :=
  eq_zero_of_ne_one (mt IntOp.cmpi_slt.1 (not_lt.2 h0))

theorem sge_zero_of_nonneg {a : BitVec 32} (h0 : 0 ≤ a.toInt) : IntOp.cmpi .sge a 0#32 = 1#1 := IntOp.cmpi_sge.2 h0

theorem sle_max_of_lt {a : BitVec 32} (h1 : a.toInt < 8192) : IntOp.cmpi .sle a 8191#32 = 1#1 :=
  IntOp.cmpi_sle.2 (Int.le_of_lt_add_one h1)

theorem mask_word (a b : BitVec 32) :
    (((IntOp.cmpi .slt a b).toNat : ℝ) : EReal) = if a.slt b then 1 else 0 := by
  unfold IntOp.cmpi
  cases a.slt b <;> simp

abbrev rows (e : FVec Ideal S8192x256 .f32) : Fin 8192 → Fin 256 → EReal := fun r k => e (ix2 r k)

abbrev wmat (W : FVec Ideal S256x256 .f32) : Fin 256 → Fin 256 → EReal := fun h k => W (ix2 h k)

abbrev bvec (b : FVec Ideal S256 .f32) : Fin 256 → EReal := fun h => b (ix1 h)

variable (e1 e2 : FVec Ideal S8192x256 .f32) (W : FVec Ideal S256x256 .f32) (b : FVec Ideal S256 .f32)
  (labels : IVec S8192x8 32) (counts : IVec S8192 32)

abbrev logits : Fin 8192 → Fin 8192 → EReal := fun i j =>
  Cert.Spec.logit (Cert.Spec.unit (rows e1) (wmat W) (bvec b)) (Cert.Spec.unit (rows e2) (wmat W) (bvec b)) i j

theorem proj1 (r : Fin 8192) (h : Fin 256) :
    val_main_v5 (F := Ideal) e1 W b (ix2 r h) = Cert.Spec.proj (rows e1) (wmat W) (bvec b) r h := by
  rw [val_main_v5_apply, val_main_v4_apply, val_main_v1_apply, val_main_v3_apply, val_main_v2_apply]
  have hl : ∀ k : Fin 256, lidx_main_v1 (ix2 r h) k = ix2 r k := fun k => (eq_ix2 _).trans rfl
  have hr : ∀ k : Fin 256, idx_main_v0 (ridx_main_v1 (ix2 r h) k) = ix2 h k := fun k => (eq_ix2 _).trans rfl
  have hb : idx_main_v2 (idx_main_v3 (ix2 r h)) = ix1 h := (eq_ix1 _).trans rfl
  simp only [val_main_v0_apply, hl, hr, hb, Ideal.hostUnary_tanh_def, Ideal.addf_def]
  rfl

theorem nrm1 (r : Fin 8192) :
    val_main_v14 (F := Ideal) e1 W b (ix2 r (0 : Fin 1)) = Cert.Spec.nrm (Cert.Spec.proj (rows e1) (wmat W) (bvec b) r) := by
  rw [val_main_v14_apply, val_main_v12_apply, val_main_call0_v2_apply, val_main_call0_v1_apply, val_main_call0_cst_apply,
    val_main_v13_apply, val_main_cst_apply]
  have hk : ∀ k : Fin 256, idx_main_call0_v1 (idx_main_call0_v2 (ix2 r (0 : Fin 1))) k = ix2 r k := fun k => (eq_ix2 _).trans rfl
  simp only [hk, val_main_call0_v0_apply, proj1, Ideal.maximumf_def, Ideal.hostUnary_sqrt_def, Ideal.mulf_def, Ideal.ofBits_def,
    Ideal.ofBits_zero_f32, zero_add]
  rfl

theorem unit1 (r : Fin 8192) (h : Fin 256) :
    val_main_v16 (F := Ideal) e1 W b (ix2 r h) = Cert.Spec.unit (rows e1) (wmat W) (bvec b) r h := by
  rw [val_main_v16_apply, val_main_v15_apply, proj1]
  have hi : idx_main_v15 (ix2 r h) = ix2 r (0 : Fin 1) := (eq_ix2 _).trans rfl
  rw [hi, nrm1, Ideal.hostDivf_def]
  rfl

theorem unit2 (r : Fin 8192) (h : Fin 256) :
    val_main_v21 (F := Ideal) e2 W b (ix2 r h) = Cert.Spec.unit (rows e2) (wmat W) (bvec b) r h :=
  unit1 e2 W b r h

theorem logit_read (i j : Fin 8192) :
    val_main_v25 (F := Ideal) e1 e2 W b (ix2 i j) = logits e1 e2 W b i j := by
  rw [val_main_v25_apply, val_main_v23_apply, val_main_v24_apply, val_main_cst_1_apply]
  have hl : ∀ k : Fin 256, lidx_main_v23 (ix2 i j) k = ix2 i k := fun k => (eq_ix2 _).trans rfl
  have hr : ∀ k : Fin 256, idx_main_v22 (ridx_main_v23 (ix2 i j) k) = ix2 j k := fun k => (eq_ix2 _).trans rfl
  simp only [val_main_v22_apply, hl, hr, unit1, unit2, Ideal.hostDivf_def, Ideal.ofBits_def]
  rfl

theorem rowmax_read (i : Fin 8192) :
    val_main_call2_v2 (F := Ideal) e1 e2 W b (ix1 i) = max ⊥ (Cert.Spec.rowMax (logits e1 e2 W b i)) := by
  rw [val_main_call2_v2_apply, val_main_call2_v1_apply, val_main_call2_cst_0_apply]
  unfold val_main_call2_v0
  rw [rowMax_read (val_main_v25 (F := Ideal) e1 e2 W b) (val_main_call2_cst (F := Ideal)) ofBits_neg_inf i]
  simp only [logit_read, Ideal.maximumf_def, Ideal.ofBits_def, ofBits_neg_inf]

theorem shift_read (i k : Fin 8192) :
    val_main_call2_v5 (F := Ideal) e1 e2 W b (ix2 i k)
      = logits e1 e2 W b i k - max ⊥ (Cert.Spec.rowMax (logits e1 e2 W b i)) := by
  rw [val_main_call2_v5_apply, val_main_call2_v4_apply, val_main_call2_v3_apply, logit_read]
  have hi : idx_main_call2_v3 (idx_main_call2_v4 (ix2 i k)) = ix1 i := (eq_ix1 _).trans rfl
  rw [hi, rowmax_read, Ideal.subf_def]

theorem lsm_read (i c : Fin 8192) :
    val_main_v26 (F := Ideal) e1 e2 W b (ix2 i c) = Cert.Spec.lsm (logits e1 e2 W b i) c := by
  rw [val_main_v26_apply, val_main_call2_v10_apply, val_main_call2_v9_apply, val_main_call2_v8_apply,
    val_main_call2_v7_apply, val_main_call2_cst_1_apply, shift_read]
  have hk : ∀ k : Fin 8192, idx_main_call2_v7 (idx_main_call2_v8 (idx_main_call2_v10 (ix2 i c))) k = ix2 i k :=
    fun k => (eq_ix2 _).trans rfl
  simp only [hk, val_main_call2_v6_apply, shift_read, Ideal.subf_def, Ideal.hostUnary_log_def, Ideal.hostUnary_exp_def,
    Ideal.ofBits_def, Ideal.ofBits_zero_f32]
  rfl

section Picked
variable (hlab : ∀ i : S8192x8.Idx, 0 ≤ (labels i).toInt ∧ (labels i).toInt < 8192)
include hlab

theorem wrap_read (y : S8192x8.Idx) : val_main_call3_v4 (F := Ideal) labels y = labels y := by
  rw [val_main_call3_v4_apply, val_main_call3_v1_apply, val_main_call3_v0_apply, val_main_call3_c_apply,
    slt_zero_of_nonneg (hlab y).1]
  exact select_zero _ _

theorem start_read (i : Fin 8192) (j : Fin 8) :
    val_main_call3_v5 (F := Ideal) labels (ix3 i j (0 : Fin 1)) = labels (ix2 i j) := by
  rw [val_main_call3_v5_apply, wrap_read labels hlab]
  refine congrArg labels (funext fun a => Fin.ext ?_)
  have hi := i.isLt
  have hj := j.isLt
  match a with
  | ⟨0, _⟩ => show ((i.val * 8 + j.val) * 1 + 0) / 8 = i.val; omega
  | ⟨1, _⟩ => show ((i.val * 8 + j.val) * 1 + 0) % 8 = j.val; omega

theorem inrange_all (x : S8192x8x1.Idx) : val_main_call3_v11 (F := Ideal) labels x = 1#1 := by
  rw [val_main_call3_v11_apply, val_main_call3_v7_apply, val_main_call3_v10_apply, val_main_call3_v6_apply,
    val_main_call3_c_2_apply, val_main_call3_v9_apply, val_main_call3_v8_apply, val_main_call3_c_1_apply,
    val_main_call3_v5_apply, wrap_read labels hlab, sge_zero_of_nonneg (hlab _).1, sle_max_of_lt (hlab _).2]
  decide

theorem inrange_read (i : Fin 8192) (j : Fin 8) : val_main_call3_v12 (F := Ideal) labels (ix2 i j) = 1#1 := by
  unfold val_main_call3_v12
  exact reduce_andi_ones _ _ _ _ _ (inrange_all labels hlab) rfl

theorem picked_read (i : Fin 8192) (j : Fin 8) :
    val_main_v27 (F := Ideal) e1 e2 W b labels (ix2 i j)
      = Cert.Spec.lsm (logits e1 e2 W b i) (Cert.Spec.labOf (labels (ix2 i j))) := by
  rw [val_main_v27_apply, inrange_read labels hlab i j]
  refine (select_one _ _).trans ?_
  unfold val_main_call3_v13
  refine (gather_row_apply _ _ i j (Cert.Spec.labOf (labels (ix2 i j))) ?_).trans (lsm_read e1 e2 W b i _)
  rw [start_read labels hlab i j]
  obtain ⟨h1, h2⟩ := toNat_of_range (hlab (ix2 i j)).1 (hlab (ix2 i j)).2
  show (labels (ix2 i j)).toNat % 8192 = min (labels (ix2 i j)).toInt.toNat 8191
  omega

end Picked

theorem mask_read (i : Fin 8192) (j : Fin 8) :
    val_main_v34 (F := Ideal) counts (ix2 i j) = Cert.Spec.maskOf (counts (ix1 i)) j := by
  rw [val_main_v34_apply, val_main_v33_apply, val_main_v31_apply, val_main_v29_apply, val_main_v28_apply,
    val_main_v32_apply, val_main_v30_apply]
  have hi : idx_main_v30 (idx_main_v32 (ix2 i j)) = ix1 i := (eq_ix1 _).trans rfl
  rw [hi]
  exact mask_word _ _

section Total
variable (hlab : ∀ i : S8192x8.Idx, 0 ≤ (labels i).toInt ∧ (labels i).toInt < 8192)
include hlab

theorem rowterm_read (i : Fin 8192) :
    val_main_v40 (F := Ideal) e1 e2 W b labels counts (ix1 i)
      = Cert.Spec.rowTerm (logits e1 e2 W b i) (fun j => Cert.Spec.labOf (labels (ix2 i j)))
          (fun j => Cert.Spec.maskOf (counts (ix1 i)) j) (Cert.Spec.cntOf (counts (ix1 i))) := by
  rw [val_main_v40_apply, val_main_v37_apply, val_main_v36_apply, val_main_cst_2_apply, val_main_v39_apply,
    val_main_v38_apply]
  have hk : ∀ k : Fin 8, idx_main_v36 (ix1 i) k = ix2 i k := fun k => (eq_ix2 _).trans rfl
  simp only [hk, val_main_v35_apply, picked_read e1 e2 W b labels hlab, mask_read, Ideal.hostDivf_def, Ideal.hostNegf_def,
    Ideal.negf_def, Ideal.mulf_def, Ideal.ofBits_def, Ideal.ofBits_zero_f32]
  rfl

end Total

theorem ref_loss
    (hreal : (∀ i, Cert.Alg.IsReal (e1 i)) ∧ (∀ i, Cert.Alg.IsReal (e2 i)) ∧ (∀ i, Cert.Alg.IsReal (W i))
      ∧ (∀ i, Cert.Alg.IsReal (b i)))
    (hlab : ∀ i : S8192x8.Idx, 0 ≤ (labels i).toInt ∧ (labels i).toInt < 8192) :
    val_main_v41 (F := Ideal) e1 e2 W b labels counts ValueIdx.ix0
      = Cert.Spec.lossOf (fun r k => e1 (ValueIdx.ix2 r k)) (fun r k => e2 (ValueIdx.ix2 r k))
          (fun h k => W (ValueIdx.ix2 h k)) (fun h => b (ValueIdx.ix1 h)) (fun i j => labels (ValueIdx.ix2 i j))
          (fun i => counts (ValueIdx.ix1 i)) := by
  rw [val_main_v41_apply, val_main_cst_3_apply, ← Equiv.sum_comp (idxEquiv1 (n := 8192)).symm]
  have hrow : ∀ k : Fin 8192, val_main_v40 (F := Ideal) e1 e2 W b labels counts ((idxEquiv1 (n := 8192)).symm k)
      = Cert.Spec.rowTerm (logits e1 e2 W b k) (fun j => Cert.Spec.labOf (labels (ix2 k j)))
          (fun j => Cert.Spec.maskOf (counts (ix1 k)) j) (Cert.Spec.cntOf (counts (ix1 k))) :=
    fun k => rowterm_read e1 e2 W b labels counts hlab k
  simp only [hrow, Ideal.ofBits_def, Ideal.ofBits_zero_f32]
  rfl

end Cert.ReferenceIdeal.RefValue

end
-- ==== Proof.PreFacts.lean ====
import proofs.«417307_j14809047236881_2_alg».proof.Pre_finite_inputs
import proofs.«417307_j14809047236881_2_alg».proof.Proof.LibRealVariance
import Idealize.ShloMosaic.Lib.ReduceAll
import Idealize.ShloMosaic.Lib.StableHlo.Predicate
import Idealize.ShloMosaic.Lib.ValueIdx
import Idealize.ShloMosaic.Lib.Affine

noncomputable section

namespace Cert.PreFacts

open Idealize.ShloMosaic Cert.Pre_finite_inputs Cert.Alg

variable [Cert.Pre_finite_inputs.Facts]

instance : Subsingleton S_.Idx := ⟨fun a b => funext fun d => d.elim0⟩

theorem ofBits_inf : Ideal.ofBits .f32 0x7F800000#32 = (⊤ : EReal) := by
  simp [Ideal.ofBits, Ideal.ieee]

theorem isReal_of_cmp {x : Ideal .f32}
    (h : FloatOps.cmpf .olt (FloatOps.hostAbsf x) (FloatOps.ofBits (F := Ideal) .f32 0x7F800000#32) = 1#1) :
    IsReal x := by
  have h' : Ideal.cmp .olt (max x (-x)) (Ideal.ofBits .f32 0x7F800000#32) = 1#1 := h
  rw [ofBits_inf] at h'
  simp only [Ideal.cmp, StableHlo.Predicate.ofBool_eq_one_iff, decide_eq_true_eq] at h'
  exact isReal_of_abs_lt_top h'

theorem range_of_cmp {w : BitVec 32}
    (h : IntOp.andi (IntOp.cmpi .sge w 0#32) (IntOp.cmpi .slt w 8192#32) = 1#1) :
    0 ≤ w.toInt ∧ w.toInt < 8192 :=
  let ⟨h0, h1⟩ := IntOp.andi_eq_one.1 h
  ⟨IntOp.cmpi_sge.1 h0, IntOp.cmpi_slt.1 h1⟩

theorem facts_of_pre (a0 a1 : FVec Ideal S8192x256 .f32) (a2 : FVec Ideal S256x256 .f32)
    (a3 : FVec Ideal S256 .f32) (a4 : IVec S8192x8 32) (a5 : IVec S8192 32)
    (h : Cert.Pre_finite_inputs.fn (F := Ideal) a0 a1 a2 a3 a4 a5 = (fun _ => 1#1)) :
    ((∀ i, IsReal (a0 i)) ∧ (∀ i, IsReal (a1 i)) ∧ (∀ i, IsReal (a2 i)) ∧ (∀ i, IsReal (a3 i)))
      ∧ (∀ i : S8192x8.Idx, 0 ≤ (a4 i).toInt ∧ (a4 i).toInt < 8192) := by
  have e := congrFun h ValueIdx.ix0
  dsimp only [Cert.Pre_finite_inputs.fn, Cert.Pre_finite_inputs.fn_part1] at e
  simp only [andi, IntOp.andi_eq_one] at e
  obtain ⟨⟨⟨⟨h0, h1⟩, h2⟩, h3⟩, h4⟩ := e
  exact ⟨⟨fun i => isReal_of_cmp (Host.reduce_andi_all _ _ _ _ _ h0 i), fun i => isReal_of_cmp (Host.reduce_andi_all _ _ _ _ _ h1 i),
      fun i => isReal_of_cmp (Host.reduce_andi_all _ _ _ _ _ h2 i), fun i => isReal_of_cmp (Host.reduce_andi_all _ _ _ _ _ h3 i)⟩,
    fun i => range_of_cmp (Host.reduce_andi_all _ _ _ _ _ h4 i)⟩

end Cert.PreFacts

end
-- ==== Proof.Dense0.lean ====
import proofs.«417307_j14809047236881_2_alg».proof.Proof.Gen.KernelIdeal.Launch
import proofs.«417307_j14809047236881_2_alg».proof.Proof.Gen.KernelIdeal.Skeleton
import proofs.«417307_j14809047236881_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_e : Rect S2048x256 := Rect.unit (s := S2048x256) ![0, 0] S2048x256.size inb_S2048x256_S2048x256_0_0
abbrev r0_w : Rect S256x256 := Rect.unit (s := S256x256) ![0, 0] S256x256.size inb_S256x256_S256x256_0_0
abbrev r0_b : Rect S256 := Rect.unit (s := S256) ![0] S256.size inb_S256_S256_0

def out0_3 (x0 : Vec F S2048x256 .f32) (x1 : Vec F S256x256 .f32) (x2 : Vec F S256 .f32) : Vec F S2048x256 .bf16 :=
  View.canon [⟨r0_e, k0_pay1 (View.ld x0 r0_e) (View.ld x1 r0_w) (View.ld x2 r0_b)⟩]

theorem cover0_3 (p0 : Vec F S2048x256 .bf16) (y : S2048x256.Idx) :
    ∃ pc ∈ ([⟨r0_e, p0⟩] : List (View.Piece (Elt F) S2048x256 .bf16)), y ∈ pc.1.set :=
  View.cover_of_tiled [⟨r0_e, p0⟩] S2048x256.size (by rfl) y

set_option maxHeartbeats 4000000 in

theorem sound_kernel0 (c : Dev nD) (E : Set ℕ) (i : grid0.Coords) (arg1 : Memref sig .tc .vmem S2048x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S2048x256 .bf16) (harg4 : arg4.IsWhole)
    (x0 : Vec F S2048x256 .f32) (x1 : Vec F S256x256 .f32) (x2 : Vec F S256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0_dense_norm_kernel i arg1 harg1 arg2 harg2 arg3 harg3 arg4 harg4) K := by
  simp only [cc0_dense_norm_kernel_eq_skeleton]; unfold cc0_dense_norm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe H0 H1 H2
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.Dense1.lean ====
import proofs.«417307_j14809047236881_2_alg».proof.Proof.Gen.KernelIdeal.Launch
import proofs.«417307_j14809047236881_2_alg».proof.Proof.Gen.KernelIdeal.Skeleton
import proofs.«417307_j14809047236881_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_e : Rect S2048x256 := Rect.unit (s := S2048x256) ![0, 0] S2048x256.size inb_S2048x256_S2048x256_0_0
abbrev r1_w : Rect S256x256 := Rect.unit (s := S256x256) ![0, 0] S256x256.size inb_S256x256_S256x256_0_0
abbrev r1_b : Rect S256 := Rect.unit (s := S256) ![0] S256.size inb_S256_S256_0

def out1_3 (x0 : Vec F S2048x256 .f32) (x1 : Vec F S256x256 .f32) (x2 : Vec F S256 .f32) : Vec F S2048x256 .bf16 :=
  View.canon [⟨r1_e, k1_pay1 (View.ld x0 r1_e) (View.ld x1 r1_w) (View.ld x2 r1_b)⟩]

theorem cover1_3 (p0 : Vec F S2048x256 .bf16) (y : S2048x256.Idx) :
    ∃ pc ∈ ([⟨r1_e, p0⟩] : List (View.Piece (Elt F) S2048x256 .bf16)), y ∈ pc.1.set :=
  View.cover_of_tiled [⟨r1_e, p0⟩] S2048x256.size (by rfl) y

set_option maxHeartbeats 4000000 in

theorem sound_kernel1 (c : Dev nD) (E : Set ℕ) (i : grid1.Coords) (arg1 : Memref sig .tc .vmem S2048x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S2048x256 .bf16) (harg4 : arg4.IsWhole)
    (x0 : Vec F S2048x256 .f32) (x1 : Vec F S256x256 .f32) (x2 : Vec F S256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_dense_norm_kernel i arg1 harg1 arg2 harg2 arg3 harg3 arg4 harg4) K := by
  simp only [cc1_dense_norm_kernel_eq_skeleton]; unfold cc1_dense_norm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  iframe H0 H1 H2
  isplitl [H3]; · iexists _; iexact H3
  iintro ⟨H0, H1, H2, H3⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.MainShared.lean ====
import proofs.«417307_j14809047236881_2_alg».proof.Proof.Gen.KernelIdeal.Launch
import proofs.«417307_j14809047236881_2_alg».proof.Proof.Gen.KernelIdeal.Skeleton
import proofs.«417307_j14809047236881_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond2_0 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop :=
  (Scalar.cmpi .ne (Scalar.extui (Scalar.cmpi .eq (BitVec.ofNat 32 (i 1).val) 0#32)) 0#32) = 1#1
theorem hcond2_1 : ∀ t : Fin cfg2.N, cond2_1 (grid2.coords t) ↔ t.val % 8 = 0 :=
  (by decide +kernel : ∀ t : Fin grid2.N, cond2_1 (grid2.coords t) ↔ t.val % 8 = 0)

abbrev cond2_2 (i : grid2.Coords) : Prop :=
  (Scalar.cmpi .ne (Scalar.extui (Scalar.cmpi .eq (BitVec.ofNat 32 (i 1).val) 7#32)) 0#32) = 1#1
theorem hcond2_2 : ∀ t : Fin cfg2.N, cond2_2 (grid2.coords t) ↔ t.val % 8 = 7 :=
  (by decide +kernel : ∀ t : Fin grid2.N, cond2_2 (grid2.coords t) ↔ t.val % 8 = 7)

abbrev cond2_3 (i : grid2.Coords) : Prop := k2_cond4 i = 1#1
theorem hcond2_3 : ∀ t : Fin cfg2.N, cond2_3 (grid2.coords t) ↔ t.val = 63 :=
  (by decide +kernel : ∀ t : Fin grid2.N, cond2_3 (grid2.coords t) ↔ t.val = 63)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

theorem idleAt2_4 : ∀ t : Fin cfg2.N, ¬cond2_3 (grid2.coords t) → cfg2.idle 4 (grid2.coords t) = true := by decide +kernel

theorem noFlush2_4 : ∀ t : Fin cfg2.N, ¬cond2_3 (grid2.coords t) → (cfg2.win 4).flush t = false := by decide +kernel

theorem liveAt2_4 : ∀ t : Fin cfg2.N, cond2_3 (grid2.coords t) → cfg2.idle 4 (grid2.coords t) = false := by decide +kernel

abbrev VO2_4 : View sig .tc .vmem S1x1 .f32 := (Memref.whole cc2_stg4_0 : Memref sig .tc .vmem S1x1 .f32).view
abbrev ms2_0 (t : Fin cfg2.N) : Memref sig .tc .vmem S1024x256 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x8 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)

abbrev scM2_0 : Memref sig .tc .vmem S1024x1 .f32 := Memref.whole cc2_scratch0
abbrev scM2_1 : Memref sig .tc .vmem S1024x1 .f32 := Memref.whole cc2_scratch1
abbrev scM2_2 : Memref sig .tc .vmem S1024x8 .f32 := Memref.whole cc2_scratch2
abbrev scM2_3 : Memref sig .tc .vmem S1x1 .f32 := Memref.whole cc2_scratch3
abbrev VS2_0 : View sig .tc .vmem S1024x1 .f32 := scM2_0.view
abbrev VS2_1 : View sig .tc .vmem S1024x1 .f32 := scM2_1.view
abbrev VS2_2 : View sig .tc .vmem S1024x8 .f32 := scM2_2.view
abbrev VS2_3 : View sig .tc .vmem S1x1 .f32 := scM2_3.view

abbrev other2 (c : Dev nD) (b : Ref sig .tc) : sProp 𝕄 :=
  iprop(∃ f : Buf (Elt F) ((c : Thread nD τ).loc b), ((c : Thread nD τ).loc b) ↦{fullShare} f)

def others2 (c : Dev nD) : sProp 𝕄 :=
  iprop(other2 (F := F) c cc0_stg0_0 ∗ other2 (F := F) c cc0_stg0_1 ∗ other2 (F := F) c cc0_stg1_0 ∗ other2 (F := F) c cc0_stg2_0 ∗ other2 (F := F) c cc0_stg3_0 ∗ other2 (F := F) c cc0_stg3_1 ∗ other2 (F := F) c cc1_stg0_0 ∗ other2 (F := F) c cc1_stg0_1 ∗ other2 (F := F) c cc1_stg1_0 ∗ other2 (F := F) c cc1_stg2_0 ∗ other2 (F := F) c cc1_stg3_0 ∗ other2 (F := F) c cc1_stg3_1)

def Phi2_0 (c : Dev nD) : sProp 𝕄 :=
  iprop(others2 (F := F) c ∗ (∃ d, owns (c : Thread nD τ) scM2_0 fullShare d) ∗ (∃ d, owns (c : Thread nD τ) scM2_1 fullShare d)
    ∗ (∃ d, owns (c : Thread nD τ) scM2_2 fullShare d) ∗ (∃ d, owns (c : Thread nD τ) scM2_3 fullShare d) ∗ (∃ r, prngReg c r))

theorem Phi2_0_of_rest (c : Dev nD) :
    iprop((∃ r, prngReg c r) ∗ Pipeline.scopedRest (Ix := Unit) (Name := ℕ) (U := UR sig nD τ) (Lvl := ℕ) (Val := Elt F) spec2 c) ⊢ Phi2_0 (F := F) c := by
  rw [scopedRest2_eq]; unfold Phi2_0 others2
  simp only [scM2_0, scM2_1, scM2_2, scM2_3, owns_whole]
  iintro ⟨Hp, B0, B1, B2, B3, B4, B5, B6, B7, B8, B9, B10, B11, S0, S1, S2, S3⟩
  iframe

theorem rest_of_Phi2_0 (c : Dev nD) :
    Phi2_0 (F := F) c ⊢ iprop((∃ r, prngReg c r) ∗ Pipeline.scopedRest (Ix := Unit) (Name := ℕ) (U := UR sig nD τ) (Lvl := ℕ) (Val := Elt F) spec2 c) := by
  rw [scopedRest2_eq]; unfold Phi2_0 others2
  simp only [scM2_0, scM2_1, scM2_2, scM2_3, owns_whole]
  iintro ⟨⟨B0, B1, B2, B3, B4, B5, B6, B7, B8, B9, B10, B11⟩, S0, S1, S2, S3, Hp⟩
  iframe

end Cert.KernelIdeal.Gen

end
-- ==== Proof.MainRunA.lean ====
import proofs.«417307_j14809047236881_2_alg».proof.Proof.MainShared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun2_A (c : Dev nD) (i : grid2.Coords) (arg2 : Memref sig .tc .vmem S1024x256 .bf16) (harg2 : arg2.IsWhole) (arg3 : Memref sig .tc .vmem S1024x256 .bf16) (harg3 : arg3.IsWhole) (arg4 : Memref sig .tc .vmem S1024x8 .i32) (harg4 : arg4.IsWhole) (arg5 : Memref sig .tc .vmem S1024x1 .i32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x8 .f32) (harg9 : arg9.IsWhole) (arg10 : Memref sig .tc .vmem S1x1 .f32) (harg10 : arg10.IsWhole)
    (hc0 : cond2_0 i) (hc1 : cond2_1 i) (hc2 : ¬cond2_2 i) (hc3 : ¬cond2_3 i)
    (x0 : Vec F S1024x256 .bf16) (x1 : Vec F S1024x256 .bf16) (x2 : Vec F S1024x8 .i32) (x3 : Vec F S1024x1 .i32) :
    Σ' (LS0 : List (View.Piece (Elt F) S1024x1 .f32)) (LS1 : List (View.Piece (Elt F) S1024x1 .f32)) (LS2 : List (View.Piece (Elt F) S1024x8 .f32)), { LS3 : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4
            ∗ (∃ d, owns (c : Thread nD τ) arg7 fullShare d)
            ∗ (∃ d, owns (c : Thread nD τ) arg8 fullShare d)
            ∗ (∃ d, owns (c : Thread nD τ) arg9 fullShare d)
            ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)
                ∗ (∃ f, arg10.view.loc (c : Thread nD τ) ↦[arg10.view.set]{fullShare} arg10.view.writes (Elt F) f LS3)) -∗ K ⟨⟩))
          ⊢ wp frame (wpE (defs₀ (F := F)) Variants.none c none) E (cc2_main_kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc2_main_kernel_eq_skeleton]; unfold cc2_main_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Gen

end
-- ==== Proof.MainRunB.lean ====
import proofs.«417307_j14809047236881_2_alg».proof.Proof.MainRunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun2_B (c : Dev nD) (i : grid2.Coords) (arg2 : Memref sig .tc .vmem S1024x256 .bf16) (harg2 : arg2.IsWhole) (arg3 : Memref sig .tc .vmem S1024x256 .bf16) (harg3 : arg3.IsWhole) (arg4 : Memref sig .tc .vmem S1024x8 .i32) (harg4 : arg4.IsWhole) (arg5 : Memref sig .tc .vmem S1024x1 .i32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x8 .f32) (harg9 : arg9.IsWhole) (arg10 : Memref sig .tc .vmem S1x1 .f32) (harg10 : arg10.IsWhole)
    (hc0 : ¬cond2_0 i) (hc1 : ¬cond2_1 i) (hc2 : ¬cond2_2 i) (hc3 : ¬cond2_3 i)
    (x0 : Vec F S1024x256 .bf16) (x1 : Vec F S1024x256 .bf16) (x2 : Vec F S1024x8 .i32) (x3 : Vec F S1024x1 .i32) (xs0 : Vec F S1024x1 .f32) (xs1 : Vec F S1024x1 .f32) (xs2 : Vec F S1024x8 .f32) :
    Σ' (LS0 : List (View.Piece (Elt F) S1024x1 .f32)) (LS1 : List (View.Piece (Elt F) S1024x1 .f32)), { LS2 : List (View.Piece (Elt F) S1024x8 .f32) //
      ∀ (xi4 : Vec F S1x1 .f32) (xs3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ owns (c : Thread nD τ) arg10 fullShare xs3) -∗ K ⟨⟩))
          ⊢ wp frame (wpE (defs₀ (F := F)) Variants.none c none) E (cc2_main_kernel i arg2 harg2 arg3 harg3 arg4 harg4 arg5 harg5 arg6 harg6 arg7 harg7 arg8 harg8 arg9 harg9 arg10 harg10) K } := by
  refine ⟨?_, ?_, ?_, fun xi4 xs3 E K => ?run⟩
  case run =>
    simp only [cc2_main_kernel_eq_skeleton]; unfold cc2_main_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4
    obtain rfl := harg7.eq_unread hfs0; obtain rfl := harg8.eq_unread hfs1; obtain rfl := harg9.eq_unread hfs2; obtain rfl := harg10.eq_unread hfs3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; isplitr; · ipureintro; exact harg10.read_unread _
    iexact HS3

end Cert.KernelIdeal.Gen

end
-- ==== Proof.MainRunC.lean ====
import proofs.«417307_j14809047236881_2_alg».proof.Proof.MainRunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun2_C (c : Dev nD) (i : grid2.Coords) (arg2 : Memref sig .tc .vmem S1024x256 .bf16) (harg2 : arg2.IsWhole) (arg3 : Memref sig .tc .vmem S1024x256 .bf16) (harg3 : arg3.IsWhole) (arg4 : Memref sig .tc .vmem S1024x8 .i32) (harg4 : arg4.IsWhole) (arg5 : Memref sig .tc .vmem S1024x1 .i32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x8 .f32) (harg9 : arg9.IsWhole) (arg10 : Memref sig .tc .vmem S1x1 .f32) (harg10 : arg10.IsWhole)
    (hc0 : ¬cond2_0 i) (hc1 : ¬cond2_1 i) (hc2 : cond2_2 i) (hc3 : ¬cond2_3 i)
    (x0 : Vec F S1024x256 .bf16) (x1 : Vec F S1024x256 .bf16) (x2 : Vec F S1024x8 .i32) (x3 : Vec F S1024x1 .i32) (xs0 : Vec F S1024x1 .f32) (xs1 : Vec F S1024x1 .f32) (xs2 : Vec F S1024x8 .f32) (xs3 : Vec F S1x1 .f32) :
    Σ' (LS0 : List (View.Piece (Elt F) S1024x1 .f32)) (LS1 : List (View.Piece (Elt F) S1024x1 .f32)) (LS2 : List (View.Piece (Elt F) S1024x8 .f32)), { LS3 : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4
            ∗ owns (c : Thread nD τ) arg7 fullShare xs0
            ∗ owns (c : Thread nD τ) arg8 fullShare xs1
            ∗ owns (c : Thread nD τ) arg9 fullShare xs2
            ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)
                ∗ (∃ f, arg10.view.loc (c : Thread nD τ) ↦[arg10.view.set]{fullShare} arg10.view.writes (Elt F) f LS3)) -∗ K ⟨⟩))
          ⊢ wp frame (wpE (defs₀ (F := F)) Variants.none c none) E (cc2_main_kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc2_main_kernel_eq_skeleton]; unfold cc2_main_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4
    obtain rfl := harg7.eq_unread hfs0; obtain rfl := harg8.eq_unread hfs1; obtain rfl := harg9.eq_unread hfs2; obtain rfl := harg10.eq_unread hfs3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Gen

end
-- ==== Proof.MainRunD.lean ====
import proofs.«417307_j14809047236881_2_alg».proof.Proof.MainRunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun2_D (c : Dev nD) (i : grid2.Coords) (arg2 : Memref sig .tc .vmem S1024x256 .bf16) (harg2 : arg2.IsWhole) (arg3 : Memref sig .tc .vmem S1024x256 .bf16) (harg3 : arg3.IsWhole) (arg4 : Memref sig .tc .vmem S1024x8 .i32) (harg4 : arg4.IsWhole) (arg5 : Memref sig .tc .vmem S1024x1 .i32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x8 .f32) (harg9 : arg9.IsWhole) (arg10 : Memref sig .tc .vmem S1x1 .f32) (harg10 : arg10.IsWhole)
    (hc0 : ¬cond2_0 i) (hc1 : cond2_1 i) (hc2 : ¬cond2_2 i) (hc3 : ¬cond2_3 i)
    (x0 : Vec F S1024x256 .bf16) (x1 : Vec F S1024x256 .bf16) (x2 : Vec F S1024x8 .i32) (x3 : Vec F S1024x1 .i32) :
    Σ' (LS0 : List (View.Piece (Elt F) S1024x1 .f32)) (LS1 : List (View.Piece (Elt F) S1024x1 .f32)), { LS2 : List (View.Piece (Elt F) S1024x8 .f32) //
      ∀ (xi4 : Vec F S1x1 .f32) (xs3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4
            ∗ (∃ d, owns (c : Thread nD τ) arg7 fullShare d)
            ∗ (∃ d, owns (c : Thread nD τ) arg8 fullShare d)
            ∗ (∃ d, owns (c : Thread nD τ) arg9 fullShare d)
            ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)
                ∗ owns (c : Thread nD τ) arg10 fullShare xs3) -∗ K ⟨⟩))
          ⊢ wp frame (wpE (defs₀ (F := F)) Variants.none c none) E (cc2_main_kernel i arg2 harg2 arg3 harg3 arg4 harg4 arg5 harg5 arg6 harg6 arg7 harg7 arg8 harg8 arg9 harg9 arg10 harg10) K } := by
  refine ⟨?_, ?_, ?_, fun xi4 xs3 E K => ?run⟩
  case run =>
    simp only [cc2_main_kernel_eq_skeleton]; unfold cc2_main_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4
    obtain rfl := harg10.eq_unread hfs3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; isplitr; · ipureintro; exact harg10.read_unread _
    iexact HS3

end Cert.KernelIdeal.Gen

end
-- ==== Proof.MainRunE.lean ====
import proofs.«417307_j14809047236881_2_alg».proof.Proof.MainRunD

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun2_E (c : Dev nD) (i : grid2.Coords) (arg2 : Memref sig .tc .vmem S1024x256 .bf16) (harg2 : arg2.IsWhole) (arg3 : Memref sig .tc .vmem S1024x256 .bf16) (harg3 : arg3.IsWhole) (arg4 : Memref sig .tc .vmem S1024x8 .i32) (harg4 : arg4.IsWhole) (arg5 : Memref sig .tc .vmem S1024x1 .i32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x8 .f32) (harg9 : arg9.IsWhole) (arg10 : Memref sig .tc .vmem S1x1 .f32) (harg10 : arg10.IsWhole)
    (hc0 : ¬cond2_0 i) (hc1 : ¬cond2_1 i) (hc2 : cond2_2 i) (hc3 : cond2_3 i)
    (x0 : Vec F S1024x256 .bf16) (x1 : Vec F S1024x256 .bf16) (x2 : Vec F S1024x8 .i32) (x3 : Vec F S1024x1 .i32) (xs0 : Vec F S1024x1 .f32) (xs1 : Vec F S1024x1 .f32) (xs2 : Vec F S1024x8 .f32) (xs3 : Vec F S1x1 .f32) :
    Σ' (L4 : List (View.Piece (Elt F) S1x1 .f32)) (LS0 : List (View.Piece (Elt F) S1024x1 .f32)) (LS1 : List (View.Piece (Elt F) S1024x1 .f32)) (LS2 : List (View.Piece (Elt F) S1024x8 .f32)), { LS3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ owns (c : Thread nD τ) arg7 fullShare xs0
            ∗ owns (c : Thread nD τ) arg8 fullShare xs1
            ∗ owns (c : Thread nD τ) arg9 fullShare xs2
            ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)
                ∗ (∃ f, arg10.view.loc (c : Thread nD τ) ↦[arg10.view.set]{fullShare} arg10.view.writes (Elt F) f LS3)) -∗ K ⟨⟩))
          ⊢ wp frame (wpE (defs₀ (F := F)) Variants.none c none) E (cc2_main_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2_main_kernel_eq_skeleton]; unfold cc2_main_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.KernelIdeal.Gen

end
-- ==== Proof.MainFrame.lean ====
import proofs.«417307_j14809047236881_2_alg».proof.Proof.MainRunE

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

def idleOut2 : Vec F S1x1 .f32 := VO2_4.read (Elt F) VO2_4.junk

section
variable (c : Dev nD) (i : grid2.Coords)
  (arg2 : Memref sig .tc .vmem S1024x256 .bf16) (harg2 : arg2.IsWhole)
  (arg3 : Memref sig .tc .vmem S1024x256 .bf16) (harg3 : arg3.IsWhole)
  (arg4 : Memref sig .tc .vmem S1024x8 .i32) (harg4 : arg4.IsWhole)
  (arg5 : Memref sig .tc .vmem S1024x1 .i32) (harg5 : arg5.IsWhole)
  (arg6 : Memref sig .tc .vmem S1x1 .f32) (harg6 : arg6.IsWhole)
  (arg7 : Memref sig .tc .vmem S1024x1 .f32) (harg7 : arg7.IsWhole)
  (arg8 : Memref sig .tc .vmem S1024x1 .f32) (harg8 : arg8.IsWhole)
  (arg9 : Memref sig .tc .vmem S1024x8 .f32) (harg9 : arg9.IsWhole)
  (arg10 : Memref sig .tc .vmem S1x1 .f32) (harg10 : arg10.IsWhole)

section
variable (hc0 : cond2_0 i) (hc1 : cond2_1 i) (hc2 : ¬cond2_2 i) (hc3 : ¬cond2_3 i)
  (x0 : Vec F S1024x256 .bf16) (x1 : Vec F S1024x256 .bf16) (x2 : Vec F S1024x8 .i32) (x3 : Vec F S1024x1 .i32)

theorem scover2_A_0 (y : S1024x1.Idx) :
    ∃ pc ∈ (kernelRun2_A c i arg2 harg2 arg3 harg3 arg4 harg4 arg5 harg5 arg6 harg6 arg7 harg7 arg8 harg8 arg9 harg9 arg10 harg10 hc0 hc1 hc2 hc3 x0 x1 x2 x3).1, y ∈ pc.1.set :=
  View.cover_of_tiledL _ S1024x1.size (by sl_kernel_rfl) y

def sout2_A_0 : Vec F S1024x1 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 hc0 hc1 hc2 hc3 x0 x1 x2 x3).1)

theorem scover2_A_1 (y : S1024x1.Idx) :
    ∃ pc ∈ (kernelRun2_A c i arg2 harg2 arg3 harg3 arg4 harg4 arg5 harg5 arg6 harg6 arg7 harg7 arg8 harg8 arg9 harg9 arg10 harg10 hc0 hc1 hc2 hc3 x0 x1 x2 x3).2.1, y ∈ pc.1.set :=
  View.cover_of_tiledL _ S1024x1.size (by sl_kernel_rfl) y

def sout2_A_1 : Vec F S1024x1 .f32 :=
  VS2_1.read (Elt F) (VS2_1.writes (Elt F) VS2_1.junk (kernelRun2_A c i arg2 harg2 arg3 harg3 arg4 harg4 arg5 harg5 arg6 harg6 arg7 harg7 arg8 harg8 arg9 harg9 arg10 harg10 hc0 hc1 hc2 hc3 x0 x1 x2 x3).2.1)

theorem scover2_A_2 (y : S1024x8.Idx) :
    ∃ pc ∈ (kernelRun2_A c i arg2 harg2 arg3 harg3 arg4 harg4 arg5 harg5 arg6 harg6 arg7 harg7 arg8 harg8 arg9 harg9 arg10 harg10 hc0 hc1 hc2 hc3 x0 x1 x2 x3).2.2.1, y ∈ pc.1.set :=
  View.cover_of_tiledL _ S1024x8.size (by sl_kernel_rfl) y

def sout2_A_2 : Vec F S1024x8 .f32 :=
  VS2_2.read (Elt F) (VS2_2.writes (Elt F) VS2_2.junk (kernelRun2_A c i arg2 harg2 arg3 harg3 arg4 harg4 arg5 harg5 arg6 harg6 arg7 harg7 arg8 harg8 arg9 harg9 arg10 harg10 hc0 hc1 hc2 hc3 x0 x1 x2 x3).2.2.1)

theorem scover2_A_3 (y : S1x1.Idx) :
    ∃ pc ∈ (kernelRun2_A c i arg2 harg2 arg3 harg3 arg4 harg4 arg5 harg5 arg6 harg6 arg7 harg7 arg8 harg8 arg9 harg9 arg10 harg10 hc0 hc1 hc2 hc3 x0 x1 x2 x3).2.2.2.1, y ∈ pc.1.set :=
  View.cover_of_tiledL _ S1x1.size (by sl_kernel_rfl) y

def sout2_A_3 : Vec F S1x1 .f32 :=
  VS2_3.read (Elt F) (VS2_3.writes (Elt F) VS2_3.junk (kernelRun2_A c i arg2 harg2 arg3 harg3 arg4 harg4 arg5 harg5 arg6 harg6 arg7 harg7 arg8 harg8 arg9 harg9 arg10 harg10 hc0 hc1 hc2 hc3 x0 x1 x2 x3).2.2.2.1)

def outs2_A :=
  (idleOut2 (F := F), sout2_A_0 c i arg2 harg2 arg3 harg3 arg4 harg4 arg5 harg5 arg6 harg6 arg7 harg7 arg8 harg8 arg9 harg9 arg10 harg10 hc0 hc1 hc2 hc3 x0 x1 x2 x3, sout2_A_1 c i arg2 harg2 arg3 harg3 arg4 harg4 arg5 harg5 arg6 harg6 arg7 harg7 arg8 harg8 arg9 harg9 arg10 harg10 hc0 hc1 hc2 hc3 x0 x1 x2 x3, sout2_A_2 c i arg2 harg2 arg3 harg3 arg4 harg4 arg5 harg5 arg6 harg6 arg7 harg7 arg8 harg8 arg9 harg9 arg10 harg10 hc0 hc1 hc2 hc3 x0 x1 x2 x3, sout2_A_3 c i arg2 harg2 arg3 harg3 arg4 harg4 arg5 harg5 arg6 harg6 arg7 harg7 arg8 harg8 arg9 harg9 arg10 harg10 hc0 hc1 hc2 hc3 x0 x1 x2 x3)

end

section
variable (hc0 : ¬cond2_0 i) (hc1 : ¬cond2_1 i) (hc2 : ¬cond2_2 i) (hc3 : ¬cond2_3 i)
  (x0 : Vec F S1024x256 .bf16) (x1 : Vec F S1024x256 .bf16) (x2 : Vec F S1024x8 .i32) (x3 : Vec F S1024x1 .i32) (xs0 : Vec F S1024x1 .f32) (xs1 : Vec F S1024x1 .f32) (xs2 : Vec F S1024x8 .f32)

theorem scover2_B_0 (y : S1024x1.Idx) :
    ∃ pc ∈ (kernelRun2_B c i arg2 harg2 arg3 harg3 arg4 harg4 arg5 harg5 arg6 harg6 arg7 harg7 arg8 harg8 arg9 harg9 arg10 harg10 hc0 hc1 hc2 hc3 x0 x1 x2 x3 xs0 xs1 xs2).1, y ∈ pc.1.set :=
  View.cover_of_tiledL _ S1024x1.size (by sl_kernel_rfl) y

def sout2_B_0 : Vec F S1024x1 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 hc0 hc1 hc2 hc3 x0 x1 x2 x3 xs0 xs1 xs2).1)

theorem scover2_B_1 (y : S1024x1.Idx) :
    ∃ pc ∈ (kernelRun2_B c i arg2 harg2 arg3 harg3 arg4 harg4 arg5 harg5 arg6 harg6 arg7 harg7 arg8 harg8 arg9 harg9 arg10 harg10 hc0 hc1 hc2 hc3 x0 x1 x2 x3 xs0 xs1 xs2).2.1, y ∈ pc.1.set :=
  View.cover_of_tiledL _ S1024x1.size (by sl_kernel_rfl) y

def sout2_B_1 : Vec F S1024x1 .f32 :=
  VS2_1.read (Elt F) (VS2_1.writes (Elt F) VS2_1.junk (kernelRun2_B c i arg2 harg2 arg3 harg3 arg4 harg4 arg5 harg5 arg6 harg6 arg7 harg7 arg8 harg8 arg9 harg9 arg10 harg10 hc0 hc1 hc2 hc3 x0 x1 x2 x3 xs0 xs1 xs2).2.1)

theorem scover2_B_2 (y : S1024x8.Idx) :
    ∃ pc ∈ (kernelRun2_B c i arg2 harg2 arg3 harg3 arg4 harg4 arg5 harg5 arg6 harg6 arg7 harg7 arg8 harg8 arg9 harg9 arg10 harg10 hc0 hc1 hc2 hc3 x0 x1 x2 x3 xs0 xs1 xs2).2.2.1, y ∈ pc.1.set :=
  View.cover_of_tiledL (s := S1024x8) _ S1024x1.size (by sl_kernel_rfl) y

def sout2_B_2 : Vec F S1024x8 .f32 :=
  VS2_2.read (Elt F) (VS2_2.writes (Elt F) VS2_2.junk (kernelRun2_B c i arg2 harg2 arg3 harg3 arg4 harg4 arg5 harg5 arg6 harg6 arg7 harg7 arg8 harg8 arg9 harg9 arg10 harg10 hc0 hc1 hc2 hc3 x0 x1 x2 x3 xs0 xs1 xs2).2.2.1)

def outs2_B (xs3 : Vec F S1x1 .f32) :=
  (idleOut2 (F := F), sout2_B_0 c i arg2 harg2 arg3 harg3 arg4 harg4 arg5 harg5 arg6 harg6 arg7 harg7 arg8 harg8 arg9 harg9 arg10 harg10 hc0 hc1 hc2 hc3 x0 x1 x2 x3 xs0 xs1 xs2, sout2_B_1 c i arg2 harg2 arg3 harg3 arg4 harg4 arg5 harg5 arg6 harg6 arg7 harg7 arg8 harg8 arg9 harg9 arg10 harg10 hc0 hc1 hc2 hc3 x0 x1 x2 x3 xs0 xs1 xs2, sout2_B_2 c i arg2 harg2 arg3 harg3 arg4 harg4 arg5 harg5 arg6 harg6 arg7 harg7 arg8 harg8 arg9 harg9 arg10 harg10 hc0 hc1 hc2 hc3 x0 x1 x2 x3 xs0 xs1 xs2, xs3)

end

section
variable (hc0 : ¬cond2_0 i) (hc1 : ¬cond2_1 i) (hc2 : cond2_2 i) (hc3 : ¬cond2_3 i)
  (x0 : Vec F S1024x256 .bf16) (x1 : Vec F S1024x256 .bf16) (x2 : Vec F S1024x8 .i32) (x3 : Vec F S1024x1 .i32) (xs0 : Vec F S1024x1 .f32) (xs1 : Vec F S1024x1 .f32) (xs2 : Vec F S1024x8 .f32) (xs3 : Vec F S1x1 .f32)

theorem scover2_C_0 (y : S1024x1.Idx) :
    ∃ pc ∈ (kernelRun2_C c i arg2 harg2 arg3 harg3 arg4 harg4 arg5 harg5 arg6 harg6 arg7 harg7 arg8 harg8 arg9 harg9 arg10 harg10 hc0 hc1 hc2 hc3 x0 x1 x2 x3 xs0 xs1 xs2 xs3).1, y ∈ pc.1.set :=
  View.cover_of_tiledL _ S1024x1.size (by sl_kernel_rfl) y

def sout2_C_0 : Vec F S1024x1 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 hc0 hc1 hc2 hc3 x0 x1 x2 x3 xs0 xs1 xs2 xs3).1)

theorem scover2_C_1 (y : S1024x1.Idx) :
    ∃ pc ∈ (kernelRun2_C c i arg2 harg2 arg3 harg3 arg4 harg4 arg5 harg5 arg6 harg6 arg7 harg7 arg8 harg8 arg9 harg9 arg10 harg10 hc0 hc1 hc2 hc3 x0 x1 x2 x3 xs0 xs1 xs2 xs3).2.1, y ∈ pc.1.set :=
  View.cover_of_tiledL _ S1024x1.size (by sl_kernel_rfl) y

def sout2_C_1 : Vec F S1024x1 .f32 :=
  VS2_1.read (Elt F) (VS2_1.writes (Elt F) VS2_1.junk (kernelRun2_C c i arg2 harg2 arg3 harg3 arg4 harg4 arg5 harg5 arg6 harg6 arg7 harg7 arg8 harg8 arg9 harg9 arg10 harg10 hc0 hc1 hc2 hc3 x0 x1 x2 x3 xs0 xs1 xs2 xs3).2.1)

theorem scover2_C_2 (y : S1024x8.Idx) :
    ∃ pc ∈ (kernelRun2_C c i arg2 harg2 arg3 harg3 arg4 harg4 arg5 harg5 arg6 harg6 arg7 harg7 arg8 harg8 arg9 harg9 arg10 harg10 hc0 hc1 hc2 hc3 x0 x1 x2 x3 xs0 xs1 xs2 xs3).2.2.1, y ∈ pc.1.set :=
  View.cover_of_tiledL (s := S1024x8) _ S1024x1.size (by sl_kernel_rfl) y

def sout2_C_2 : Vec F S1024x8 .f32 :=
  VS2_2.read (Elt F) (VS2_2.writes (Elt F) VS2_2.junk (kernelRun2_C c i arg2 harg2 arg3 harg3 arg4 harg4 arg5 harg5 arg6 harg6 arg7 harg7 arg8 harg8 arg9 harg9 arg10 harg10 hc0 hc1 hc2 hc3 x0 x1 x2 x3 xs0 xs1 xs2 xs3).2.2.1)

theorem scover2_C_3 (y : S1x1.Idx) :
    ∃ pc ∈ (kernelRun2_C c i arg2 harg2 arg3 harg3 arg4 harg4 arg5 harg5 arg6 harg6 arg7 harg7 arg8 harg8 arg9 harg9 arg10 harg10 hc0 hc1 hc2 hc3 x0 x1 x2 x3 xs0 xs1 xs2 xs3).2.2.2.1, y ∈ pc.1.set :=
  View.cover_of_tiledL _ S1x1.size (by sl_kernel_rfl) y

def sout2_C_3 : Vec F S1x1 .f32 :=
  VS2_3.read (Elt F) (VS2_3.writes (Elt F) VS2_3.junk (kernelRun2_C c i arg2 harg2 arg3 harg3 arg4 harg4 arg5 harg5 arg6 harg6 arg7 harg7 arg8 harg8 arg9 harg9 arg10 harg10 hc0 hc1 hc2 hc3 x0 x1 x2 x3 xs0 xs1 xs2 xs3).2.2.2.1)

def outs2_C :=
  (idleOut2 (F := F), sout2_C_0 c i arg2 harg2 arg3 harg3 arg4 harg4 arg5 harg5 arg6 harg6 arg7 harg7 arg8 harg8 arg9 harg9 arg10 harg10 hc0 hc1 hc2 hc3 x0 x1 x2 x3 xs0 xs1 xs2 xs3, sout2_C_1 c i arg2 harg2 arg3 harg3 arg4 harg4 arg5 harg5 arg6 harg6 arg7 harg7 arg8 harg8 arg9 harg9 arg10 harg10 hc0 hc1 hc2 hc3 x0 x1 x2 x3 xs0 xs1 xs2 xs3, sout2_C_2 c i arg2 harg2 arg3 harg3 arg4 harg4 arg5 harg5 arg6 harg6 arg7 harg7 arg8 harg8 arg9 harg9 arg10 harg10 hc0 hc1 hc2 hc3 x0 x1 x2 x3 xs0 xs1 xs2 xs3, sout2_C_3 c i arg2 harg2 arg3 harg3 arg4 harg4 arg5 harg5 arg6 harg6 arg7 harg7 arg8 harg8 arg9 harg9 arg10 harg10 hc0 hc1 hc2 hc3 x0 x1 x2 x3 xs0 xs1 xs2 xs3)

end

section
variable (hc0 : ¬cond2_0 i) (hc1 : cond2_1 i) (hc2 : ¬cond2_2 i) (hc3 : ¬cond2_3 i)
  (x0 : Vec F S1024x256 .bf16) (x1 : Vec F S1024x256 .bf16) (x2 : Vec F S1024x8 .i32) (x3 : Vec F S1024x1 .i32)

theorem scover2_D_0 (y : S1024x1.Idx) :
    ∃ pc ∈ (kernelRun2_D c i arg2 harg2 arg3 harg3 arg4 harg4 arg5 harg5 arg6 harg6 arg7 harg7 arg8 harg8 arg9 harg9 arg10 harg10 hc0 hc1 hc2 hc3 x0 x1 x2 x3).1, y ∈ pc.1.set :=
  View.cover_of_tiledL _ S1024x1.size (by sl_kernel_rfl) y

def sout2_D_0 : Vec F S1024x1 .f32 :=
  VS2_0.read (Elt F) (VS2_0.writes (Elt F) VS2_0.junk (kernelRun2_D c i arg2 harg2 arg3 harg3 arg4 harg4 arg5 harg5 arg6 harg6 arg7 harg7 arg8 harg8 arg9 harg9 arg10 harg10 hc0 hc1 hc2 hc3 x0 x1 x2 x3).1)

theorem scover2_D_1 (y : S1024x1.Idx) :
    ∃ pc ∈ (kernelRun2_D c i arg2 harg2 arg3 harg3 arg4 harg4 arg5 harg5 arg6 harg6 arg7 harg7 arg8 harg8 arg9 harg9 arg10 harg10 hc0 hc1 hc2 hc3 x0 x1 x2 x3).2.1, y ∈ pc.1.set :=
  View.cover_of_tiledL _ S1024x1.size (by sl_kernel_rfl) y

def sout2_D_1 : Vec F S1024x1 .f32 :=
  VS2_1.read (Elt F) (VS2_1.writes (Elt F) VS2_1.junk (kernelRun2_D c i arg2 harg2 arg3 harg3 arg4 harg4 arg5 harg5 arg6 harg6 arg7 harg7 arg8 harg8 arg9 harg9 arg10 harg10 hc0 hc1 hc2 hc3 x0 x1 x2 x3).2.1)

theorem scover2_D_2 (y : S1024x8.Idx) :
    ∃ pc ∈ (kernelRun2_D c i arg2 harg2 arg3 harg3 arg4 harg4 arg5 harg5 arg6 harg6 arg7 harg7 arg8 harg8 arg9 harg9 arg10 harg10 hc0 hc1 hc2 hc3 x0 x1 x2 x3).2.2.1, y ∈ pc.1.set :=
  View.cover_of_tiledL _ S1024x8.size (by sl_kernel_rfl) y

def sout2_D_2 : Vec F S1024x8 .f32 :=
  VS2_2.read (Elt F) (VS2_2.writes (Elt F) VS2_2.junk (kernelRun2_D c i arg2 harg2 arg3 harg3 arg4 harg4 arg5 harg5 arg6 harg6 arg7 harg7 arg8 harg8 arg9 harg9 arg10 harg10 hc0 hc1 hc2 hc3 x0 x1 x2 x3).2.2.1)

def outs2_D (xs3 : Vec F S1x1 .f32) :=
  (idleOut2 (F := F), sout2_D_0 c i arg2 harg2 arg3 harg3 arg4 harg4 arg5 harg5 arg6 harg6 arg7 harg7 arg8 harg8 arg9 harg9 arg10 harg10 hc0 hc1 hc2 hc3 x0 x1 x2 x3, sout2_D_1 c i arg2 harg2 arg3 harg3 arg4 harg4 arg5 harg5 arg6 harg6 arg7 harg7 arg8 harg8 arg9 harg9 arg10 harg10 hc0 hc1 hc2 hc3 x0 x1 x2 x3, sout2_D_2 c i arg2 harg2 arg3 harg3 arg4 harg4 arg5 harg5 arg6 harg6 arg7 harg7 arg8 harg8 arg9 harg9 arg10 harg10 hc0 hc1 hc2 hc3 x0 x1 x2 x3, xs3)

end

section
variable (hc0 : ¬cond2_0 i) (hc1 : ¬cond2_1 i) (hc2 : cond2_2 i) (hc3 : cond2_3 i)
  (x0 : Vec F S1024x256 .bf16) (x1 : Vec F S1024x256 .bf16) (x2 : Vec F S1024x8 .i32) (x3 : Vec F S1024x1 .i32) (xs0 : Vec F S1024x1 .f32) (xs1 : Vec F S1024x1 .f32) (xs2 : Vec F S1024x8 .f32) (xs3 : Vec F S1x1 .f32)

theorem cover2_E_4 (y : S1x1.Idx) :
    ∃ pc ∈ (kernelRun2_E c i arg2 harg2 arg3 harg3 arg4 harg4 arg5 harg5 arg6 harg6 arg7 harg7 arg8 harg8 arg9 harg9 arg10 harg10 hc0 hc1 hc2 hc3 x0 x1 x2 x3 xs0 xs1 xs2 xs3).1, y ∈ pc.1.set :=
  View.cover_of_tiledL _ S1x1.size (by sl_kernel_rfl) y

def out2_E_4 : Vec F S1x1 .f32 :=
  VO2_4.read (Elt F) (VO2_4.writes (Elt F) VO2_4.junk (kernelRun2_E c i arg2 harg2 arg3 harg3 arg4 harg4 arg5 harg5 arg6 harg6 arg7 harg7 arg8 harg8 arg9 harg9 arg10 harg10 hc0 hc1 hc2 hc3 x0 x1 x2 x3 xs0 xs1 xs2 xs3).1)

theorem scover2_E_0 (y : S1024x1.Idx) :
    ∃ pc ∈ (kernelRun2_E c i arg2 harg2 arg3 harg3 arg4 harg4 arg5 harg5 arg6 harg6 arg7 harg7 arg8 harg8 arg9 harg9 arg10 harg10 hc0 hc1 hc2 hc3 x0 x1 x2 x3 xs0 xs1 xs2 xs3).2.1, y ∈ pc.1.set :=
  View.cover_of_tiledL _ S1024x1.size (by sl_kernel_rfl) y

def sout2_E_0 : Vec F S1024x1 .f32 :=
  VS2_0.read (Elt F) (VS2_0.writes (Elt F) VS2_0.junk (kernelRun2_E c i arg2 harg2 arg3 harg3 arg4 harg4 arg5 harg5 arg6 harg6 arg7 harg7 arg8 harg8 arg9 harg9 arg10 harg10 hc0 hc1 hc2 hc3 x0 x1 x2 x3 xs0 xs1 xs2 xs3).2.1)

theorem scover2_E_1 (y : S1024x1.Idx) :
    ∃ pc ∈ (kernelRun2_E c i arg2 harg2 arg3 harg3 arg4 harg4 arg5 harg5 arg6 harg6 arg7 harg7 arg8 harg8 arg9 harg9 arg10 harg10 hc0 hc1 hc2 hc3 x0 x1 x2 x3 xs0 xs1 xs2 xs3).2.2.1, y ∈ pc.1.set :=
  View.cover_of_tiledL _ S1024x1.size (by sl_kernel_rfl) y

def sout2_E_1 : Vec F S1024x1 .f32 :=
  VS2_1.read (Elt F) (VS2_1.writes (Elt F) VS2_1.junk (kernelRun2_E c i arg2 harg2 arg3 harg3 arg4 harg4 arg5 harg5 arg6 harg6 arg7 harg7 arg8 harg8 arg9 harg9 arg10 harg10 hc0 hc1 hc2 hc3 x0 x1 x2 x3 xs0 xs1 xs2 xs3).2.2.1)

theorem scover2_E_2 (y : S1024x8.Idx) :
    ∃ pc ∈ (kernelRun2_E c i arg2 harg2 arg3 harg3 arg4 harg4 arg5 harg5 arg6 harg6 arg7 harg7 arg8 harg8 arg9 harg9 arg10 harg10 hc0 hc1 hc2 hc3 x0 x1 x2 x3 xs0 xs1 xs2 xs3).2.2.2.1, y ∈ pc.1.set :=
  View.cover_of_tiledL (s := S1024x8) _ S1024x1.size (by sl_kernel_rfl) y

def sout2_E_2 : Vec F S1024x8 .f32 :=
  VS2_2.read (Elt F) (VS2_2.writes (Elt F) VS2_2.junk (kernelRun2_E c i arg2 harg2 arg3 harg3 arg4 harg4 arg5 harg5 arg6 harg6 arg7 harg7 arg8 harg8 arg9 harg9 arg10 harg10 hc0 hc1 hc2 hc3 x0 x1 x2 x3 xs0 xs1 xs2 xs3).2.2.2.1)

theorem scover2_E_3 (y : S1x1.Idx) :
    ∃ pc ∈ (kernelRun2_E c i arg2 harg2 arg3 harg3 arg4 harg4 arg5 harg5 arg6 harg6 arg7 harg7 arg8 harg8 arg9 harg9 arg10 harg10 hc0 hc1 hc2 hc3 x0 x1 x2 x3 xs0 xs1 xs2 xs3).2.2.2.2.1, y ∈ pc.1.set :=
  View.cover_of_tiledL _ S1x1.size (by sl_kernel_rfl) y

def sout2_E_3 : Vec F S1x1 .f32 :=
  VS2_3.read (Elt F) (VS2_3.writes (Elt F) VS2_3.junk (kernelRun2_E c i arg2 harg2 arg3 harg3 arg4 harg4 arg5 harg5 arg6 harg6 arg7 harg7 arg8 harg8 arg9 harg9 arg10 harg10 hc0 hc1 hc2 hc3 x0 x1 x2 x3 xs0 xs1 xs2 xs3).2.2.2.2.1)

def outs2_E :=
  (out2_E_4 c i arg2 harg2 arg3 harg3 arg4 harg4 arg5 harg5 arg6 harg6 arg7 harg7 arg8 harg8 arg9 harg9 arg10 harg10 hc0 hc1 hc2 hc3 x0 x1 x2 x3 xs0 xs1 xs2 xs3, sout2_E_0 c i arg2 harg2 arg3 harg3 arg4 harg4 arg5 harg5 arg6 harg6 arg7 harg7 arg8 harg8 arg9 harg9 arg10 harg10 hc0 hc1 hc2 hc3 x0 x1 x2 x3 xs0 xs1 xs2 xs3, sout2_E_1 c i arg2 harg2 arg3 harg3 arg4 harg4 arg5 harg5 arg6 harg6 arg7 harg7 arg8 harg8 arg9 harg9 arg10 harg10 hc0 hc1 hc2 hc3 x0 x1 x2 x3 xs0 xs1 xs2 xs3, sout2_E_2 c i arg2 harg2 arg3 harg3 arg4 harg4 arg5 harg5 arg6 harg6 arg7 harg7 arg8 harg8 arg9 harg9 arg10 harg10 hc0 hc1 hc2 hc3 x0 x1 x2 x3 xs0 xs1 xs2 xs3, sout2_E_3 c i arg2 harg2 arg3 harg3 arg4 harg4 arg5 harg5 arg6 harg6 arg7 harg7 arg8 harg8 arg9 harg9 arg10 harg10 hc0 hc1 hc2 hc3 x0 x1 x2 x3 xs0 xs1 xs2 xs3)

end

end

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- The state after point n, by recursion on n: the point's case acts on the state the point before left.
def outsAt2 (c : Dev nD) : (n : ℕ) → n < cfg2.N → Vec F S1x1 .f32 × Vec F S1024x1 .f32 × Vec F S1024x1 .f32 × Vec F S1024x8 .f32 × Vec F S1x1 .f32
  | 0, hn => outs2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) scM2_2 (Memref.isWhole_whole _) scM2_3 (Memref.isWhole_whole _) ((hcond2_0 ⟨0, hn⟩).mpr rfl) ((hcond2_1 ⟨0, hn⟩).mpr (Nat.zero_mod _)) (fun h => (fun h => by (try dsimp only at h); omega) ((hcond2_2 ⟨0, hn⟩).mp h)) (fun h => (fun h => by (try dsimp only at h); omega) ((hcond2_3 ⟨0, hn⟩).mp h)) (iblk2 V c 0 ⟨0, hn⟩) (iblk2 V c 1 ⟨0, hn⟩) (iblk2 V c 2 ⟨0, hn⟩) (iblk2 V c 3 ⟨0, hn⟩)
  | n + 1, hn =>
    if h8 : (n + 1) % 8 = 0 then
      outs2_D c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) scM2_3 (Memref.isWhole_whole _) (fun h => Nat.succ_ne_zero n ((hcond2_0 ⟨n + 1, hn⟩).mp h)) ((hcond2_1 ⟨n + 1, hn⟩).mpr h8) (fun h => (by omega : ¬(n + 1) % 8 = 7) ((hcond2_2 ⟨n + 1, hn⟩).mp h)) (fun h => (by omega : ¬n + 1 = 63) ((hcond2_3 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.2
    else if h7 : (n + 1) % 8 = 7 then
      if h63 : n + 1 = 63 then
        outs2_E c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) scM2_3 (Memref.isWhole_whole _) (fun h => Nat.succ_ne_zero n ((hcond2_0 ⟨n + 1, hn⟩).mp h)) (fun h => h8 ((hcond2_1 ⟨n + 1, hn⟩).mp h)) ((hcond2_2 ⟨n + 1, hn⟩).mpr h7) ((hcond2_3 ⟨n + 1, hn⟩).mpr h63) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2
      else
        outs2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) scM2_3 (Memref.isWhole_whole _) (fun h => Nat.succ_ne_zero n ((hcond2_0 ⟨n + 1, hn⟩).mp h)) (fun h => h8 ((hcond2_1 ⟨n + 1, hn⟩).mp h)) ((hcond2_2 ⟨n + 1, hn⟩).mpr h7) (fun h => h63 ((hcond2_3 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2
    else
      outs2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) scM2_3 (Memref.isWhole_whole _) (fun h => Nat.succ_ne_zero n ((hcond2_0 ⟨n + 1, hn⟩).mp h)) (fun h => h8 ((hcond2_1 ⟨n + 1, hn⟩).mp h)) (fun h => h7 ((hcond2_2 ⟨n + 1, hn⟩).mp h)) (fun h => (by omega : ¬n + 1 = 63) ((hcond2_3 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2.1 (outsAt2 c n (Nat.lt_of_succ_lt hn)).2.2.2.2

theorem outsAt2_A (c : Dev nD) (t : Fin cfg2.N) (h0 : t.val = 0) :
    outsAt2 V c t.val t.isLt = outs2_A c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) ((hcond2_0 t).mpr h0) ((hcond2_1 t).mpr (by omega)) (fun h => (by omega : ¬t.val % 8 = 7) ((hcond2_2 t).mp h)) (fun h => (by omega : ¬t.val = 63) ((hcond2_3 t).mp h)) (iblk2 V c 0 t) (iblk2 V c 1 t) (iblk2 V c 2 t) (iblk2 V c 3 t) := by
  obtain ⟨n, hn⟩ := t
  cases n with
  | zero => exact rfl
  | succ n => exact absurd h0 (Nat.succ_ne_zero n)

theorem outsAt2_B (c : Dev nD) (t : Fin cfg2.N) (h0 : ¬t.val = 0) (h8 : ¬t.val % 8 = 0) (h7 : ¬t.val % 8 = 7) :
    outsAt2 V c t.val t.isLt = outs2_B c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => h0 ((hcond2_0 t).mp h)) (fun h => h8 ((hcond2_1 t).mp h)) (fun h => h7 ((hcond2_2 t).mp h)) (fun h => (by omega : ¬t.val = 63) ((hcond2_3 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2 := by
  obtain ⟨n, hn⟩ := t
  cases n with
  | zero => exact absurd rfl h0
  | succ n => exact (dif_neg h8).trans ((dif_neg h7).trans rfl)

theorem outsAt2_C (c : Dev nD) (t : Fin cfg2.N) (h8 : ¬t.val % 8 = 0) (h7 : t.val % 8 = 7) (h63 : ¬t.val = 63) :
    outsAt2 V c t.val t.isLt = outs2_C c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => (by omega : ¬t.val = 0) ((hcond2_0 t).mp h)) (fun h => h8 ((hcond2_1 t).mp h)) ((hcond2_2 t).mpr h7) (fun h => h63 ((hcond2_3 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2 := by
  obtain ⟨n, hn⟩ := t
  cases n with
  | zero => exact (by exfalso; (try dsimp only at h7); omega)
  | succ n => exact (dif_neg h8).trans ((dif_pos h7).trans ((dif_neg h63).trans rfl))

theorem outsAt2_D (c : Dev nD) (t : Fin cfg2.N) (h0 : ¬t.val = 0) (h8 : t.val % 8 = 0) :
    outsAt2 V c t.val t.isLt = outs2_D c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => h0 ((hcond2_0 t).mp h)) ((hcond2_1 t).mpr h8) (fun h => (by omega : ¬t.val % 8 = 7) ((hcond2_2 t).mp h)) (fun h => (by omega : ¬t.val = 63) ((hcond2_3 t).mp h)) (iblk2 V c 0 t) (iblk2 V c 1 t) (iblk2 V c 2 t) (iblk2 V c 3 t) (outsAt2 V c (t.val - 1) (Nat.lt_of_le_of_lt (Nat.sub_le _ _) t.isLt)).2.2.2.2 := by
  obtain ⟨n, hn⟩ := t
  cases n with
  | zero => exact absurd rfl h0
  | succ n => exact (dif_pos h8).trans rfl

theorem outsAt2_E (c : Dev nD) (t : Fin cfg2.N) (h8 : ¬t.val % 8 = 0) (h7 : t.val % 8 = 7) (h63 : t.val = 63) :
    outsAt2 V c t.val t.isLt = outs2_E c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => (by omega : ¬t.val = 0) ((hcond2_0 t).mp h)) (fun h => h8 ((hcond2_1 t).mp h)) ((hcond2_2 t).mpr h7) ((hcond2_3 t).mpr h63) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2 := by
  obtain ⟨n, hn⟩ := t
  cases n with
  | zero => exact (by exfalso; (try dsimp only at h7); omega)
  | succ n => exact (dif_neg h8).trans ((dif_pos h7).trans ((dif_pos h63).trans rfl))

def PhiS (c : Dev nD) : (n : ℕ) → n ≤ cfg2.N → sProp 𝕄
  | 0, _ => Phi2_0 (F := F) c
  | n + 1, hn => iprop(others2 (F := F) c ∗ owns (c : Thread nD τ) scM2_0 fullShare ((outsAt2 V c n hn).2.1) ∗ owns (c : Thread nD τ) scM2_1 fullShare ((outsAt2 V c n hn).2.2.1)
      ∗ owns (c : Thread nD τ) scM2_2 fullShare ((outsAt2 V c n hn).2.2.2.1) ∗ owns (c : Thread nD τ) scM2_3 fullShare ((outsAt2 V c n hn).2.2.2.2) ∗ (∃ r, prngReg c r))

theorem PhiS_zero (c : Dev nD) (n : ℕ) (h : n ≤ cfg2.N) (hz : n = 0) : PhiS V c n h = Phi2_0 (F := F) c := by
  subst hz; rfl

theorem PhiS_succ (c : Dev nD) (n : ℕ) (hn : n < cfg2.N) :
    PhiS V c (n + 1) hn = iprop(others2 (F := F) c ∗ owns (c : Thread nD τ) scM2_0 fullShare ((outsAt2 V c n hn).2.1) ∗ owns (c : Thread nD τ) scM2_1 fullShare ((outsAt2 V c n hn).2.2.1)
      ∗ owns (c : Thread nD τ) scM2_2 fullShare ((outsAt2 V c n hn).2.2.2.1) ∗ owns (c : Thread nD τ) scM2_3 fullShare ((outsAt2 V c n hn).2.2.2.2) ∗ (∃ r, prngReg c r)) := rfl

theorem PhiS_pos (c : Dev nD) (n : ℕ) (h : n ≤ cfg2.N) (hz : n ≠ 0) :
    PhiS V c n h = iprop(others2 (F := F) c ∗ owns (c : Thread nD τ) scM2_0 fullShare ((outsAt2 V c (n - 1) (by omega)).2.1) ∗ owns (c : Thread nD τ) scM2_1 fullShare ((outsAt2 V c (n - 1) (by omega)).2.2.1)
      ∗ owns (c : Thread nD τ) scM2_2 fullShare ((outsAt2 V c (n - 1) (by omega)).2.2.2.1) ∗ owns (c : Thread nD τ) scM2_3 fullShare ((outsAt2 V c (n - 1) (by omega)).2.2.2.2) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

theorem leavesExact2 (c : Dev nD) (w : Fin cfg2.W) (t : Fin cfg2.N) (h : cfg2.idle w (grid2.coords t) = false) :
    (dat2 V c).leavesExact w t = owns (c : Thread nD τ) ((cfg2.win w).stage (cfg2.slots t w)) fullShare ((dat2 V c).after w t) := by
  unfold Dat.leavesExact; rw [h]

-- Pieces that cover the whole shape fix what is read back, whatever was there before.
theorem owns_of_cover {s : Shape} {e : EltTy} {κ' : Kind} {sp' : Space} {v' : View sig κ' sp' s e} (c : Dev nD)
    {M : Memref sig .tc .vmem s e} {L : List (View.Piece (Elt F) s e)} (h : ∀ y, ∃ p ∈ L, y ∈ p.1.set) :
    (iprop(∃ f, M.view.loc (c : Thread nD τ) ↦[M.view.set]{fullShare} M.view.writes (Elt F) f L) : sProp 𝕄)
      ⊢ owns (c : Thread nD τ) M fullShare (v'.read (Elt F) (v'.writes (Elt F) v'.junk L)) := by
  unfold owns; iintro ⟨%f, H⟩; iexists _; isplitr; swap; · iexact H
  ipureintro; exact View.read_writes_of_cover _ _ _ _ _ h

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

set_option maxHeartbeats 2000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl,
    show (dat2 V c).Φ t.succ = PhiS V c (t.val + 1) t.isLt from rfl, PhiS_succ, PhiS_castSucc V c t,
    leavesExact2 V c 0 t (liveAt2_0 t), leavesExact2 V c 1 t (liveAt2_1 t), leavesExact2 V c 2 t (liveAt2_2 t),
    leavesExact2 V c 3 t (liveAt2_3 t), after2_0, after2_1, after2_2, after2_3]
  by_cases h63 : t.val = 63
  · rw [leavesExact2 V c 4 t (liveAt2_4 t ((hcond2_3 t).mpr h63)), after2_4, outsAt2_E V c t (by omega) (by omega) h63,
      PhiS_pos V c _ _ (by omega)]
    unfold outs2_E out2_E_4 sout2_E_0 sout2_E_1 sout2_E_2 sout2_E_3; (try dsimp only)
    iintro ⟨⟨HO, HS0, HS1, HS2, HS3, Hg⟩, Ho, ⟨%d0, H0⟩, ⟨%d1, H1⟩, ⟨%d2, H2⟩, ⟨%d3, H3⟩, ⟨%d4, H4⟩⟩
    iapply ((kernelRun2_E c (grid2.coords t) _ _ _ _ _ _ _ _ _ _ _ _ _ _ _ _ _ _ (mt (hcond2_0 t).mp (by omega)) (mt (hcond2_1 t).mp (by omega)) ((hcond2_2 t).mpr (by omega)) ((hcond2_3 t).mpr h63) _ _ _ _ _ _ _ _).2.2.2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HO HS0 HS1 HS2 HS3 Hg]
    · isplitl [HO]; · iexact HO
      isplitl [HS0]; · iapply (owns_of_cover c (scover2_E_0 c _ _ _ _ _ _ _ _ _ _ _ _ _ _ _ _ _ _ _ _ _ _ _ _ _ _ _ _ _ _ _)); iexact HS0
      isplitl [HS1]; · iapply (owns_of_cover c (scover2_E_1 c _ _ _ _ _ _ _ _ _ _ _ _ _ _ _ _ _ _ _ _ _ _ _ _ _ _ _ _ _ _ _)); iexact HS1
      isplitl [HS2]; · iapply (owns_of_cover c (scover2_E_2 c _ _ _ _ _ _ _ _ _ _ _ _ _ _ _ _ _ _ _ _ _ _ _ _ _ _ _ _ _ _ _)); iexact HS2
      isplitl [HS3]; · iapply (owns_of_cover c (scover2_E_3 c _ _ _ _ _ _ _ _ _ _ _ _ _ _ _ _ _ _ _ _ _ _ _ _ _ _ _ _ _ _ _)); iexact HS3
      iexact Hg
    isplitl [Ho]; · iexact Ho
    isplitl [H0]; · iexact H0
    isplitl [H1]; · iexact H1
    isplitl [H2]; · iexact H2
    isplitl [H3]; · iexact H3
    iapply (owns_of_cover c (cover2_E_4 c _ _ _ _ _ _ _ _ _ _ _ _ _ _ _ _ _ _ _ _ _ _ _ _ _ _ _ _ _ _ _)); iexact H4
  have hn63 : ¬cond2_3 (grid2.coords t) := mt (hcond2_3 t).mp h63
  rw [Dat.leavesExact_idle (dat2 V c) 4 t (idleAt2_4 t hn63) (noFlush2_4 t hn63)]
  by_cases h0 : t.val = 0
  · rw [outsAt2_A V c t h0, PhiS_zero V c _ _ h0]
    unfold outs2_A sout2_A_0 sout2_A_1 sout2_A_2 sout2_A_3 Phi2_0; (try dsimp only)
    iintro ⟨⟨HO, HS0, HS1, HS2, HS3, Hg⟩, Ho, ⟨%d0, H0⟩, ⟨%d1, H1⟩, ⟨%d2, H2⟩, ⟨%d3, H3⟩, ⟨%d4, H4⟩⟩
    iapply ((kernelRun2_A c (grid2.coords t) _ _ _ _ _ _ _ _ _ _ _ _ _ _ _ _ _ _ ((hcond2_0 t).mpr h0) ((hcond2_1 t).mpr (by omega)) (mt (hcond2_2 t).mp (by omega)) hn63 _ _ _ _).2.2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HO HS0 HS1 HS2 HS3 Hg]
    · isplitl [HO]; · iexact HO
      isplitl [HS0]; · iapply (owns_of_cover c (scover2_A_0 c _ _ _ _ _ _ _ _ _ _ _ _ _ _ _ _ _ _ _ _ _ _ _ _ _ _ _)); iexact HS0
      isplitl [HS1]; · iapply (owns_of_cover c (scover2_A_1 c _ _ _ _ _ _ _ _ _ _ _ _ _ _ _ _ _ _ _ _ _ _ _ _ _ _ _)); iexact HS1
      isplitl [HS2]; · iapply (owns_of_cover c (scover2_A_2 c _ _ _ _ _ _ _ _ _ _ _ _ _ _ _ _ _ _ _ _ _ _ _ _ _ _ _)); iexact HS2
      isplitl [HS3]; · iapply (owns_of_cover c (scover2_A_3 c _ _ _ _ _ _ _ _ _ _ _ _ _ _ _ _ _ _ _ _ _ _ _ _ _ _ _)); iexact HS3
      iexact Hg
    isplitl [Ho]; · iexact Ho
    isplitl [H0]; · iexact H0
    isplitl [H1]; · iexact H1
    isplitl [H2]; · iexact H2
    isplitl [H3]; · iexact H3
    iexists _; iexact H4
  rw [PhiS_pos V c _ _ h0]
  by_cases h8 : t.val % 8 = 0
  · rw [outsAt2_D V c t h0 h8]
    unfold outs2_D sout2_D_0 sout2_D_1 sout2_D_2; (try dsimp only)
    iintro ⟨⟨HO, HS0, HS1, HS2, HS3, Hg⟩, Ho, ⟨%d0, H0⟩, ⟨%d1, H1⟩, ⟨%d2, H2⟩, ⟨%d3, H3⟩, ⟨%d4, H4⟩⟩
    iapply ((kernelRun2_D c (grid2.coords t) _ _ _ _ _ _ _ _ _ _ _ _ _ _ _ _ _ _ (mt (hcond2_0 t).mp h0) ((hcond2_1 t).mpr h8) (mt (hcond2_2 t).mp (by omega)) hn63 _ _ _ _).2.2.2 _ _ Set.univ _)
    isplitl [H0]; · iexact H0
    isplitl [H1]; · iexact H1
    isplitl [H2]; · iexact H2
    isplitl [H3]; · iexact H3
    isplitl [H4]; · iexact H4
    isplitl [HS0]; · iexists _; iexact HS0
    isplitl [HS1]; · iexists _; iexact HS1
    isplitl [HS2]; · iexists _; iexact HS2
    isplitl [HS3]; · iexact HS3
    iintro ⟨H0, H1, H2, H3, H4, HS0, HS1, HS2, HS3⟩
    isplitl [HO HS0 HS1 HS2 HS3 Hg]
    · isplitl [HO]; · iexact HO
      isplitl [HS0]; · iapply (owns_of_cover c (scover2_D_0 c _ _ _ _ _ _ _ _ _ _ _ _ _ _ _ _ _ _ _ _ _ _ _ _ _ _ _)); iexact HS0
      isplitl [HS1]; · iapply (owns_of_cover c (scover2_D_1 c _ _ _ _ _ _ _ _ _ _ _ _ _ _ _ _ _ _ _ _ _ _ _ _ _ _ _)); iexact HS1
      isplitl [HS2]; · iapply (owns_of_cover c (scover2_D_2 c _ _ _ _ _ _ _ _ _ _ _ _ _ _ _ _ _ _ _ _ _ _ _ _ _ _ _)); iexact HS2
      isplitl [HS3]; · iexact HS3
      iexact Hg
    isplitl [Ho]; · iexact Ho
    isplitl [H0]; · iexact H0
    isplitl [H1]; · iexact H1
    isplitl [H2]; · iexact H2
    isplitl [H3]; · iexact H3
    iexists _; iexact H4
  by_cases h7 : t.val % 8 = 7
  · rw [outsAt2_C V c t h8 h7 h63]
    unfold outs2_C sout2_C_0 sout2_C_1 sout2_C_2 sout2_C_3; (try dsimp only)
    iintro ⟨⟨HO, HS0, HS1, HS2, HS3, Hg⟩, Ho, ⟨%d0, H0⟩, ⟨%d1, H1⟩, ⟨%d2, H2⟩, ⟨%d3, H3⟩, ⟨%d4, H4⟩⟩
    iapply ((kernelRun2_C c (grid2.coords t) _ _ _ _ _ _ _ _ _ _ _ _ _ _ _ _ _ _ (mt (hcond2_0 t).mp h0) (mt (hcond2_1 t).mp h8) ((hcond2_2 t).mpr h7) hn63 _ _ _ _ _ _ _ _).2.2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HO HS0 HS1 HS2 HS3 Hg]
    · isplitl [HO]; · iexact HO
      isplitl [HS0]; · iapply (owns_of_cover c (scover2_C_0 c _ _ _ _ _ _ _ _ _ _ _ _ _ _ _ _ _ _ _ _ _ _ _ _ _ _ _ _ _ _ _)); iexact HS0
      isplitl [HS1]; · iapply (owns_of_cover c (scover2_C_1 c _ _ _ _ _ _ _ _ _ _ _ _ _ _ _ _ _ _ _ _ _ _ _ _ _ _ _ _ _ _ _)); iexact HS1
      isplitl [HS2]; · iapply (owns_of_cover c (scover2_C_2 c _ _ _ _ _ _ _ _ _ _ _ _ _ _ _ _ _ _ _ _ _ _ _ _ _ _ _ _ _ _ _)); iexact HS2
      isplitl [HS3]; · iapply (owns_of_cover c (scover2_C_3 c _ _ _ _ _ _ _ _ _ _ _ _ _ _ _ _ _ _ _ _ _ _ _ _ _ _ _ _ _ _ _)); iexact HS3
      iexact Hg
    isplitl [Ho]; · iexact Ho
    isplitl [H0]; · iexact H0
    isplitl [H1]; · iexact H1
    isplitl [H2]; · iexact H2
    isplitl [H3]; · iexact H3
    iexists _; iexact H4
  rw [outsAt2_B V c t h0 h8 h7]
  unfold outs2_B sout2_B_0 sout2_B_1 sout2_B_2; (try dsimp only)
  iintro ⟨⟨HO, HS0, HS1, HS2, HS3, Hg⟩, Ho, ⟨%d0, H0⟩, ⟨%d1, H1⟩, ⟨%d2, H2⟩, ⟨%d3, H3⟩, ⟨%d4, H4⟩⟩
  iapply ((kernelRun2_B c (grid2.coords t) _ _ _ _ _ _ _ _ _ _ _ _ _ _ _ _ _ _ (mt (hcond2_0 t).mp h0) (mt (hcond2_1 t).mp h8) (mt (hcond2_2 t).mp h7) hn63 _ _ _ _ _ _ _).2.2.2 _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  isplitl [HO HS0 HS1 HS2 HS3 Hg]
  · isplitl [HO]; · iexact HO
    isplitl [HS0]; · iapply (owns_of_cover c (scover2_B_0 c _ _ _ _ _ _ _ _ _ _ _ _ _ _ _ _ _ _ _ _ _ _ _ _ _ _ _ _ _ _)); iexact HS0
    isplitl [HS1]; · iapply (owns_of_cover c (scover2_B_1 c _ _ _ _ _ _ _ _ _ _ _ _ _ _ _ _ _ _ _ _ _ _ _ _ _ _ _ _ _ _)); iexact HS1
    isplitl [HS2]; · iapply (owns_of_cover c (scover2_B_2 c _ _ _ _ _ _ _ _ _ _ _ _ _ _ _ _ _ _ _ _ _ _ _ _ _ _ _ _ _ _)); iexact HS2
    isplitl [HS3]; · iexact HS3
    iexact Hg
  isplitl [Ho]; · iexact Ho
  isplitl [H0]; · iexact H0
  isplitl [H1]; · iexact H1
  isplitl [H2]; · iexact H2
  isplitl [H3]; · iexact H3
  iexists _; iexact H4

theorem body_obligation2 (c : Dev nD) : BodyObligation (dat2 (F := F) V c) (defs₀ (F := F)) Variants.none () Set.univ := fun t => by
  rw [bigSep_W2, bigSep_W2]
  exact sound_body2 V c t

theorem hin2 (c : Dev nD) :
    iprop((∃ r, prngReg c r) ∗ Pipeline.scopedRest (Ix := Unit) (Name := ℕ) (U := UR sig nD τ) (Lvl := ℕ) (Val := Elt F) spec2 c) ⊢ (dat2 V c).Φ 0 := by
  rw [show (dat2 V c).Φ 0 = PhiS V c 0 (Nat.zero_le _) from rfl, PhiS_zero V c 0 _ rfl]
  exact Phi2_0_of_rest c

theorem Phi_out2 (c : Dev nD) (t : Fin (cfg2.N + 1)) (ht : t.val ≠ 0) :
    (dat2 V c).Φ t ⊢ iprop((∃ r, prngReg c r) ∗ Pipeline.scopedRest (Ix := Unit) (Name := ℕ) (U := UR sig nD τ) (Lvl := ℕ) (Val := Elt F) spec2 c) := by
  rw [show (dat2 V c).Φ t = PhiS V c t.val (Nat.le_of_lt_succ t.isLt) from rfl, PhiS_pos V c _ _ ht]
  refine .trans ?_ (rest_of_Phi2_0 c)
  unfold Phi2_0
  iintro ⟨HO, HS0, HS1, HS2, HS3, Hg⟩
  isplitl [HO]; · iexact HO
  isplitl [HS0]; · iexists _; iexact HS0
  isplitl [HS1]; · iexists _; iexact HS1
  isplitl [HS2]; · iexists _; iexact HS2
  isplitl [HS3]; · iexists _; iexact HS3
  iexact Hg

theorem hout2 (c : Dev nD) :
    (dat2 V c).Φ (Fin.last cfg2.N) ⊢ iprop((∃ r, prngReg c r) ∗ Pipeline.scopedRest (Ix := Unit) (Name := ℕ) (U := UR sig nD τ) (Lvl := ℕ) (Val := Elt F) spec2 c) :=
  Phi_out2 V c _ (by rw [Fin.val_last]; have : cfg2.N = 64 := N_2; omega)

end Cert.KernelIdeal.Gen

end
-- ==== Proof.RunAll.lean ====
import proofs.«417307_j14809047236881_2_alg».proof.Proof.Gen.KernelIdeal.Regions
import proofs.«417307_j14809047236881_2_alg».proof.Proof.Dense0
import proofs.«417307_j14809047236881_2_alg».proof.Proof.Dense1
import proofs.«417307_j14809047236881_2_alg».proof.Proof.MainFrame
import proofs.«417307_j14809047236881_2_alg».proof.Proof.LibRegion

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- The buffers' contents between @main's six items: a host stretch applies its operations, a region replaces its output array.
abbrev W0 : Dev nD → Valuation τ sig (Elt F) := fun c b => m (c, b)
abbrev W1 : Dev nD → Valuation τ sig (Elt F) := fun c => StableHlo.after hostOps0 (W0 m c)
abbrev U1 : (c : Dev nD) → (b : Ref sig .tc) → Buf (Elt F) ((c : Thread nD τ).loc b) := fun c b => W1 m c b
def W2 (c : Dev nD) : Valuation τ sig (Elt F) := Function.update (W1 m c) main_v1 ((dat0 (U1 m) c).arrAt 3 cfg0.N)
abbrev U2 : (c : Dev nD) → (b : Ref sig .tc) → Buf (Elt F) ((c : Thread nD τ).loc b) := fun c b => W2 m c b
def W3 (c : Dev nD) : Valuation τ sig (Elt F) := Function.update (W2 m c) main_v2 ((dat1 (U2 m) c).arrAt 3 cfg1.N)
abbrev W4 : Dev nD → Valuation τ sig (Elt F) := fun c => StableHlo.after hostOps2 (W3 m c)
abbrev U4 : (c : Dev nD) → (b : Ref sig .tc) → Buf (Elt F) ((c : Thread nD τ).loc b) := fun c b => W4 m c b
def W5 (c : Dev nD) : Valuation τ sig (Elt F) := Function.update (W4 m c) main_v4 ((dat2 (U4 m) c).arrAt 4 cfg2.N)
abbrev W6 : Dev nD → Valuation τ sig (Elt F) := fun c => StableHlo.after hostOps3 (W5 m c)

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ≠ main_v1) : W2 m c r = W1 m c r :=
  Function.update_of_ne (StableHlo.devRef_ne_of_ne h) ..
theorem W3_of (c : Dev nD) (r : Ref sig .tc) (h : r ≠ main_v2) : W3 m c r = W2 m c r :=
  Function.update_of_ne (StableHlo.devRef_ne_of_ne h) ..
theorem W4_of (c : Dev nD) (r : Ref sig .tc) (h : r ∉ hostOps2_W) : W4 m c r = W3 m c r :=
  StableHlo.after_of_writes_sub hostOps2 _ hostOps2_writes h
theorem W5_of (c : Dev nD) (r : Ref sig .tc) (h : r ≠ main_v4) : W5 m c r = W4 m c r :=
  Function.update_of_ne (StableHlo.devRef_ne_of_ne h) ..
theorem W6_of (c : Dev nD) (r : Ref sig .tc) (h : r ∉ hostOps3_W) : W6 m c r = W5 m c r :=
  StableHlo.after_of_writes_sub hostOps3 _ hostOps3_writes h

-- A buffer no item writes ends as launched.
theorem W6_kept (c : Dev nD) (r : Ref sig .tc) (h0 : r ∉ hostOps0_W := by decide) (h1 : r ≠ main_v1 := by decide) (h2 : r ≠ main_v2 := by decide)
    (h3 : r ∉ hostOps2_W := by decide) (h4 : r ≠ main_v4 := by decide) (h5 : r ∉ hostOps3_W := by decide) : W6 m c r = m ((c : Thread nD τ).loc r) :=
  (W6_of m c r h5).trans <| (W5_of m c r h4).trans <| (W4_of m c r h3).trans <| (W3_of m c r h2).trans <| (W2_of m c r h1).trans <| W1_of m c r h0

def pdats : (p : Fin 3) → (c : Dev nD) → Dat τ (Elt F) Unit ℕ (UR sig nD τ) ℕ (cfgs p) c
  | ⟨0, _⟩ => fun c => dat0 (U1 m) c
  | ⟨1, _⟩ => fun c => dat1 (U2 m) c
  | ⟨2, _⟩ => fun c => dat2 (U4 m) c
abbrev 𝒱₀ : Variants := Variants.none
abbrev L : GSem nD τ sig → Finset Unit := fun _ => ∅
abbrev lv : GSem nD τ sig → Unit → ℕ := fun _ _ => 0

set_option backward.isDefEq.respectTransparency.types false in
def reg0 : Pipeline.RegionSeg (pcfgs (F := F)) adm (pdats m) () defs₀ 𝒱₀ L lv 0 :=
  Cert.LibRegion.regionΦA cfgs (pdats m) defs₀ 𝒱₀ L lv 0 launch0 (W1 m) (W2 m) (fun c => (body_obligation0 (U1 m) c).loose) 3
set_option backward.isDefEq.respectTransparency.types false in
def reg1 : Pipeline.RegionSeg (pcfgs (F := F)) adm (pdats m) () defs₀ 𝒱₀ L lv 1 :=
  Cert.LibRegion.regionΦA cfgs (pdats m) defs₀ 𝒱₀ L lv 1 launch1 (W2 m) (W3 m) (fun c => (body_obligation1 (U2 m) c).loose) 3
set_option backward.isDefEq.respectTransparency.types false in
def reg2 : Pipeline.RegionSeg (pcfgs (F := F)) adm (pdats m) () defs₀ 𝒱₀ L lv 2 :=
  Cert.LibRegion.regionOfHeld cfgs (pdats m) defs₀ 𝒱₀ L lv 2 launch2 (W4 m) (W5 m) (fun c => (body_obligation2 (U4 m) c).loose) 4
    (fun c => by
      refine .trans ?_ (hin2 (U4 m) c)
      iintro ⟨Hp, -, Hr⟩
      iframe)
    (fun c => by
      refine (hout2 (U4 m) c).trans ?_
      iintro ⟨Hp, Hr⟩
      iframe)

abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Cert.LibRegion.Beside

abbrev items : List (Pipeline.Seg (pcfgs (F := F)) adm (pdats m) () defs₀ 𝒱₀ L lv) :=
  [.host (hostSeg hostOps0 hostOps0_sub hostOps0_fresh (W0 m)), .region (reg0 m), .region (reg1 m),
    .host (hostSeg hostOps2 hostOps2_sub hostOps2_fresh (W3 m)), .region (reg2 m), .host (hostSeg hostOps3 hostOps3_sub hostOps3_fresh (W5 m))]
theorem main_run (c : Dev nD) : main (F := F) c = Pipeline.Seg.run (items m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
theorem run_held : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main
    (items m) (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := Cert.LibRegion.own_launch _)
    (T₀ := fun c => iprop(StableHlo.held (c : Thread nD τ) (Pipeline.ucRefs τ sig) (W0 m c) ∗ Cert.LibRegion.Beside c))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ Cert.LibRegion.Beside c)
        ⊢ iprop(iprop(StableHlo.held (c : Thread nD τ) (Pipeline.ucRefs τ sig) (W6 m c) ∗ ∃ r, prngReg c r)
            ∗ ∃ W, owes (c : Thread nD τ) (0 : CellTallies nD τ sig Unit) W)
      iintro ⟨Hh, Hp, HO⟩
      iframe⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

-- Every weakly fair execution of @main ends with the result buffer at the last valuation and every argument as launched.
theorem run_all : θ_run defs (onTc (τ := τ) (main (F := F))) ⟨m, fun _ => 0, ρ⟩ (fun r => ∀ c : Dev nD,
      r.2.mem ((c.tc : Thread nD τ).loc main_v5) = W6 m c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨h c _ (mem_uc main_v5 (by decide)),
      (h c _ (mem_uc main_arg0 (by decide))).trans (W6_kept m c main_arg0), (h c _ (mem_uc main_arg1 (by decide))).trans (W6_kept m c main_arg1),
      (h c _ (mem_uc main_arg2 (by decide))).trans (W6_kept m c main_arg2), (h c _ (mem_uc main_arg3 (by decide))).trans (W6_kept m c main_arg3),
      (h c _ (mem_uc main_arg4 (by decide))).trans (W6_kept m c main_arg4), (h c _ (mem_uc main_arg5 (by decide))).trans (W6_kept m c main_arg5)⟩) (run_held m ρ)

end Cert.KernelIdeal.Gen

end
-- ==== Proof.Trace.lean ====
import proofs.«417307_j14809047236881_2_alg».proof.Proof.RunAll

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

theorem U1_arg0 (c : Dev nD) : U1 m c main_arg0 = m ((c : Thread nD τ).loc main_arg0) := W1_of m c main_arg0 (by decide)
theorem U1_arg3 (c : Dev nD) : U1 m c main_arg3 = m ((c : Thread nD τ).loc main_arg3) := W1_of m c main_arg3 (by decide)
theorem U2_arg1 (c : Dev nD) : U2 m c main_arg1 = m ((c : Thread nD τ).loc main_arg1) :=
  (W2_of m c main_arg1 (by decide)).trans (W1_of m c main_arg1 (by decide))
theorem U2_arg3 (c : Dev nD) : U2 m c main_arg3 = m ((c : Thread nD τ).loc main_arg3) :=
  (W2_of m c main_arg3 (by decide)).trans (W1_of m c main_arg3 (by decide))
theorem U2_v0 (c : Dev nD) : U2 m c main_v0 = U1 m c main_v0 := W2_of m c main_v0 (by decide)
theorem U4_v1 (c : Dev nD) : U4 m c main_v1 = (dat0 (U1 m) c).arrAt 3 cfg0.N :=
  (W4_of m c main_v1 (by decide)).trans <| (W3_of m c main_v1 (by decide)).trans (Function.update_self ..)
theorem U4_v2 (c : Dev nD) : U4 m c main_v2 = (dat1 (U2 m) c).arrAt 3 cfg1.N :=
  (W4_of m c main_v2 (by decide)).trans (Function.update_self ..)
theorem W3_arg5 (c : Dev nD) : W3 m c main_arg5 = m ((c : Thread nD τ).loc main_arg5) :=
  (W3_of m c main_arg5 (by decide)).trans <| (W2_of m c main_arg5 (by decide)).trans (W1_of m c main_arg5 (by decide))
theorem U4_arg4 (c : Dev nD) : U4 m c main_arg4 = m ((c : Thread nD τ).loc main_arg4) :=
  (W4_of m c main_arg4 (by decide)).trans <| (W3_of m c main_arg4 (by decide)).trans <| (W2_of m c main_arg4 (by decide)).trans (W1_of m c main_arg4 (by decide))
theorem W5_v4 (c : Dev nD) : W5 m c main_v4 = (dat2 (U4 m) c).arrAt 4 cfg2.N := Function.update_self ..

end Cert.KernelIdeal.Gen

end
-- ==== Proof.LibMatmulMixed.lean ====
import Idealize.ShloMosaic.Lib.Pipeline.Value
import Idealize.ShloMosaic.Lib.ValueIdx
import Idealize.ShloMosaic.PureOps.Ideal.Laws

noncomputable section

namespace Cert.LibMatmulMixed

open Idealize.ShloMosaic Idealize.ShloMosaic.ValueIdx
open scoped BigOperators

-- Into the zero accumulator a product over one contracted axis is the sum over that axis's coordinate.
theorem matmul_zero_entry {sl sr : Shape} {φ₁ φ₂ : FTy} {M N K : ℕ} (D : DotDims sl sr ⟨2, ![M, N]⟩)
    (prec : Option ContractPrecision) (hr : D.contr.rank = 1) (hs : D.contr.size ⟨0, by omega⟩ = K)
    (l : FVec Ideal sl φ₁) (r : FVec Ideal sr φ₂) (p : Fin M) (n : Fin N) (L : Fin K → sl.Idx) (R : Fin K → sr.Idx)
    (hL : ∀ (k : Fin K) (q : D.contr.Idx), (q ⟨0, by omega⟩ : ℕ) = k.val → D.lhsIdx (ix2 p n) q = L k)
    (hR : ∀ (k : Fin K) (q : D.contr.Idx), (q ⟨0, by omega⟩ : ℕ) = k.val → D.rhsIdx (ix2 p n) q = R k) :
    matmul D prec l r (constant ⟨2, ![M, N]⟩ .f32 0x00000000#32) (ix2 p n) = ∑ k : Fin K, l (L k) * r (R k) := by
  simp only [matmul]
  rw [Ideal.matmul_constant_zero_apply, ← Equiv.sum_comp (contrEquiv1 D K hr hs).symm]
  refine Finset.sum_congr rfl fun k _ => ?_
  rw [hL k _ (contrEquiv1_symm_val D K hr hs k), hR k _ (contrEquiv1_symm_val D K hr hs k)]

end Cert.LibMatmulMixed

end
-- ==== Proof.LibIx2.lean ====
import Idealize.ShloMosaic.Lib.Pipeline.Value
import Idealize.ShloMosaic.Lib.ValueIdx
import Idealize.ShloMosaic.PureOps.Ideal.Laws

noncomputable section

namespace Cert.LibIx2

open Idealize.ShloMosaic Idealize.ShloMosaic.ValueIdx

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibIx2

end
-- ==== Proof.LibRowReduce.lean ====
import proofs.«417307_j14809047236881_2_alg».proof.Proof.LibIx2
import Idealize.ShloMosaic.Lib.Pipeline.Value
import Idealize.ShloMosaic.Lib.ValueIdx
import Idealize.ShloMosaic.PureOps.Ideal.Laws

noncomputable section

namespace Cert.LibRowReduce

open Idealize.ShloMosaic Idealize.ShloMosaic.ValueIdx

-- The unit axis adds nothing to the row-major position.
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    rw [Shape.rowMajor_val_two, Shape.rowMajor_val_one]
    show r.val = r.val * 1 + u.val
    omega)

theorem lift_row {a b : ℕ} (h : (⟨2, ![a, b]⟩ : Shape).Reduces [1] ⟨1, ![a]⟩) (r : Fin a) (k : Fin b) :
    h.lift (ix1 r) k = ix2 r k := by
  funext c
  match c with
  | ⟨0, _⟩ => exact Fin.ext rfl
  | ⟨1, _⟩ => exact Fin.ext rfl

end Cert.LibRowReduce

end
-- ==== Proof.DenseValue.lean ====
import proofs.«417307_j14809047236881_2_alg».proof.Proof.Trace
import proofs.«417307_j14809047236881_2_alg».proof.Proof.Spec
import proofs.«417307_j14809047236881_2_alg».proof.Proof.LibMatmulMixed
import proofs.«417307_j14809047236881_2_alg».proof.Proof.LibIx2
import proofs.«417307_j14809047236881_2_alg».proof.Proof.LibRowReduce
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DenseValue

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

-- entry (p, h) of the tile's product into zero contracts row p of l against column h of r
theorem tile_matmul (l : FVec Ideal S2048x256 .bf16) (r : FVec Ideal S256x256 .bf16) (p : Fin 2048) (h : Fin 256) :
    matmul dot_S2048x256_S256x256_S2048x256_1_0_0_1_n_n none l r (constant S2048x256 .f32 0x00000000#32) (ix2 p h)
      = ∑ k : Fin 256, l (ix2 p k) * r (ix2 k h) :=
  Cert.LibMatmulMixed.matmul_zero_entry dot_S2048x256_S256x256_S2048x256_1_0_0_1_n_n none rfl rfl l r p h
    (fun k => ix2 p k) (fun k => ix2 k h)
    (fun k q hq => funext fun a => Fin.ext (by
      match a with
      | ⟨0, _⟩ => rfl
      | ⟨1, _⟩ => exact (dot_S2048x256_S256x256_S2048x256_1_0_0_1_n_n.lhsIdx_val_of_single rfl _ q).trans hq))
    (fun k q hq => funext fun a => Fin.ext (by
      match a with
      | ⟨0, _⟩ => exact (dot_S2048x256_S256x256_S2048x256_1_0_0_1_n_n.rhsIdx_val_of_single rfl _ q).trans hq
      | ⟨1, _⟩ => rfl))

variable (x0 : Vec Ideal S2048x256 .f32) (x1 : Vec Ideal S256x256 .f32) (x2 : Vec Ideal S256 .f32)

def tileProj : FVec Ideal S2048x256 .f32 :=
  tanh (addf
    (matmul dot_S2048x256_S256x256_S2048x256_1_0_0_1_n_n none (truncf .bf16 x0 bitsLt_bf16_f32)
      (truncf .bf16 (shapeCast S256x256 x1 shapeCasts_S256x256_S256x256) bitsLt_bf16_f32) (constant S2048x256 .f32 0x00000000#32))
    (broadcastTo S2048x256 (shapeCast S1x256 x2 shapeCasts_S256_S1x256) broadcasts_S1x256_S2048x256))

def tileNorm (z : FVec Ideal S2048x256 .f32) : FVec Ideal S2048x1 .f32 :=
  maximumf
    (sqrt (shapeCast S2048x1 (multiReduction .add [1] S2048 (mulf z z) 0x00000000#32 reduces_S2048x256_S2048 (.inl rfl) rfl) shapeCasts_S2048_S2048x1))
    (broadcast S2048x1 (Scalar.ofBits .f32 0x322BCC77#32))

def rowProj (p : Fin 2048) (h : Fin 256) : EReal :=
  Ideal.tanh ((∑ k : Fin 256, x0 (ix2 p k) * x1 (ix2 k h)) + x2 (ix1 h))

theorem tileProj_apply (p : Fin 2048) (h : Fin 256) : tileProj x0 x1 x2 (ix2 p h) = rowProj x0 x1 x2 p h := by
  unfold tileProj rowProj
  show Ideal.tanh (_ + _) = _
  rw [tile_matmul, broadcastTo_1b_ab_apply, shapeCast_a_1a_apply, shapeCast_self]
  rfl

theorem tileNorm_apply (z : FVec Ideal S2048x256 .f32) (p : Fin 2048) (u : Fin 1) :
    tileNorm z (ix2 p u) = max (Ideal.sqrt (∑ h : Fin 256, z (ix2 p h) * z (ix2 p h))) Cert.Spec.eps := by
  unfold tileNorm
  show max (Ideal.sqrt _) _ = _
  rw [Cert.LibRowReduce.shapeCast_a_a1_apply]
  refine congrArg₂ max (congrArg Ideal.sqrt ?_) rfl
  refine (Ideal.multiReduction_add_single (mulf z z) 0x00000000#32 reduces_S2048x256_S2048 (.inl rfl) rfl (ix1 p)).trans ?_
  show ∑ k : Fin 256, mulf z z (reduces_S2048x256_S2048.lift (ix1 p) k) = _
  exact Finset.sum_congr rfl fun k _ => by rw [Cert.LibRowReduce.lift_row]; rfl

-- the tile's value at (p, h): row p's projection at h over row p's clamped norm
theorem pay0_apply (p : Fin 2048) (h : Fin 256) :
    k0_pay1 (F := Ideal) x0 x1 x2 (ix2 p h)
      = Ideal.div (rowProj x0 x1 x2 p h)
          (max (Ideal.sqrt (∑ h' : Fin 256, rowProj x0 x1 x2 p h' * rowProj x0 x1 x2 p h')) Cert.Spec.eps) := by
  show Ideal.div (tileProj x0 x1 x2 (ix2 p h)) (broadcastTo S2048x256 (tileNorm (tileProj x0 x1 x2)) broadcasts_S2048x1_S2048x256 (ix2 p h)) = _
  rw [Cert.LibIx2.broadcastTo_a1_ab_apply, tileNorm_apply, tileProj_apply]
  simp only [tileProj_apply]

def unitArr (E : S8192x256.Idx → EReal) (Wt : S256x256.Idx → EReal) (B : S256.Idx → EReal) : S8192x256.Idx → EReal :=
  fun i => Cert.Spec.unit (fun r k => E (ix2 r k)) (fun h k => Wt (ix2 k h)) (fun h => B (ix1 h))
    ⟨(i 0).val, idx2_lt0 i⟩ ⟨(i 1).val, idx2_lt1 i⟩

theorem hz2 : (![0, 0] : Fin 2 → Nat) = fun _ => 0 := funext fun a => by fin_cases a <;> rfl
theorem hz1 : (![0] : Fin 1 → Nat) = fun _ => 0 := funext fun a => by fin_cases a <;> rfl

variable (E : S8192x256.Idx → EReal) (Wt : S256x256.Idx → EReal) (B : S256.Idx → EReal)

-- from blocks that are row r of E, all of Wt and all of B, the tile's value at (p, h) is the whole-array function at (r, h)
theorem pay0_of_blocks (p : Fin 2048) (r : Fin 8192)
    (h0 : ∀ k : Fin 256, x0 (ix2 p k) = E (ix2 r k)) (h1 : ∀ (k h : Fin 256), x1 (ix2 k h) = Wt (ix2 k h))
    (h2 : ∀ h : Fin 256, x2 (ix1 h) = B (ix1 h)) (h : Fin 256) :
    k0_pay1 (F := Ideal) x0 x1 x2 (ix2 p h) = unitArr E Wt B (ix2 r h) := by
  have hp : ∀ h, rowProj x0 x1 x2 p h = Cert.Spec.proj (fun r k => E (ix2 r k)) (fun h k => Wt (ix2 k h)) (fun h => B (ix1 h)) r h := fun h => by
    unfold rowProj Cert.Spec.proj
    rw [h2 h]
    exact congrArg (fun s => Ideal.tanh (s + B (ix1 h))) (Finset.sum_congr rfl fun k _ => by rw [h0 k, h1 k h])
  rw [pay0_apply]
  show _ = Cert.Spec.unit (fun r k => E (ix2 r k)) (fun h k => Wt (ix2 k h)) (fun h => B (ix1 h)) r h
  unfold Cert.Spec.unit Cert.Spec.nrm
  simp only [hp]

-- a block element at block index (t, 0) of a rank-2 array sits t blocks down its first axis
theorem emb_ix2 {a b A : ℕ} {f : (⟨2, ![a, b]⟩ : Shape).Idx → (⟨2, ![A, b]⟩ : Shape).Idx} {ix : Fin 2 → ℕ}
    (hf : ∀ y n, (f y n : ℕ) = ix n * (⟨2, ![a, b]⟩ : Shape).size n + y n) {t : ℕ} (h0 : ix 0 = t) (h1 : ix 1 = 0)
    (p : Fin a) (k : Fin b) (r : Fin A) (hr : r.val = t * a + p.val) : f (ix2 p k) = ix2 r k := by
  funext n
  apply Fin.ext
  match n with
  | ⟨0, _⟩ => exact (hf (ix2 p k) 0).trans (by rw [h0, hr]; rfl)
  | ⟨1, _⟩ => exact (hf (ix2 p k) 1).trans (by rw [h1]; show 0 * b + k.val = k.val; omega)

-- with blocks at block index (t, 0) of E and the one block of Wt and of B, the tile's value is tile t of the whole-array function
theorem tile_eq (t : ℕ)
    {fe fo : S2048x256.Idx → S8192x256.Idx} {fw : S256x256.Idx → S256x256.Idx} {fb : S256.Idx → S256.Idx}
    {ie iw io : Fin 2 → ℕ} {ib : Fin 1 → ℕ}
    (he : ∀ y a, (fe y a : ℕ) = ie a * S2048x256.size a + y a) (he0 : ie 0 = t) (he1 : ie 1 = 0)
    (hw : ∀ y a, (fw y a : ℕ) = iw a * S256x256.size a + y a) (hw0 : iw 0 = 0) (hw1 : iw 1 = 0)
    (hb : ∀ y a, (fb y a : ℕ) = ib a * S256.size a + y a) (hb0 : ib 0 = 0)
    (ho : ∀ y a, (fo y a : ℕ) = io a * S2048x256.size a + y a) (ho0 : io 0 = t) (ho1 : io 1 = 0)
    (j : S2048x256.Idx) :
    k0_pay1 (F := Ideal) (fun y => E (fe y)) (fun y => Wt (fw y)) (fun y => B (fb y)) j = unitArr E Wt B (fo j) := by
  obtain ⟨p, h, rfl⟩ : ∃ (p : Fin 2048) (h : Fin 256), j = ix2 p h := ⟨j 0, j 1, eq_ix2 j⟩
  have o0 : (fo (ix2 p h) 0 : ℕ) = io 0 * 2048 + p.val := ho _ 0
  have hr := idx2_lt0 (fo (ix2 p h))
  have hlt : t * 2048 + p.val < 8192 := by omega
  rw [emb_ix2 ho ho0 ho1 p h ⟨_, hlt⟩ rfl]
  exact pay0_of_blocks (fun y => E (fe y)) (fun y => Wt (fw y)) (fun y => B (fb y)) E Wt B p ⟨_, hlt⟩ (fun k => congrArg E (emb_ix2 he he0 he1 p k ⟨_, hlt⟩ rfl))
    (fun k h' => congrArg Wt (emb_ix2 hw hw0 hw1 k h' k (by omega)))
    (fun h' => congrArg B (funext fun n => Fin.ext (by
      match n with
      | ⟨0, _⟩ => exact (hb (ix1 h') 0).trans (by rw [hb0]; show 0 * 256 + h'.val = h'.val; omega)))) h

-- four tiles of 2048 rows cover the 8192 rows: index i lies in the tile at block index (i 0 / 2048, 0)
theorem cover_tile {N : ℕ} (hN : N = 4) (ix : Fin N → Fin 2 → ℕ)
    (inb : ∀ t a, ix t a * S2048x256.size a + S2048x256.size a ≤ S8192x256.size a)
    (h : ∀ t, ix t 0 = t.val ∧ ix t 1 = 0) (i : S8192x256.Idx) :
    ∃ t, i ∈ (Rect.unit (s := S8192x256) (fun a => ix t a * S2048x256.size a) S2048x256.size (inb t)).set := by
  have hi := idx2_lt0 i
  have hj := idx2_lt1 i
  refine ⟨⟨(i 0).val / 2048, by omega⟩, ?_⟩
  obtain ⟨h0, h1⟩ := h ⟨(i 0).val / 2048, by omega⟩
  rw [Rect.mem_set_unit]
  intro a
  match a with
  | ⟨0, _⟩ => show ix _ 0 * 2048 ≤ (i 0).val ∧ (i 0).val < ix _ 0 * 2048 + 2048; rw [h0]; show (i 0).val / 2048 * 2048 ≤ (i 0).val ∧ (i 0).val < (i 0).val / 2048 * 2048 + 2048; omega
  | ⟨1, _⟩ => show ix _ 1 * 256 ≤ (i 1).val ∧ (i 1).val < ix _ 1 * 256 + 256; rw [h1]; omega

section Regions

variable (V : (c : Dev nD) → (b : Ref sig .tc) → Buf (Elt Ideal) ((c : Thread nD τ).loc b))

theorem idx_facts0 : ∀ t : Fin cfg0.N, (win0_3.index t (0 : Fin 2) = t.val ∧ win0_3.index t (1 : Fin 2) = 0)
    ∧ win0_0.index t (0 : Fin 2) = t.val ∧ win0_0.index t (1 : Fin 2) = 0
    ∧ win0_1.index t (0 : Fin 2) = 0 ∧ win0_1.index t (1 : Fin 2) = 0
    ∧ win0_2.index t (0 : Fin 1) = 0 :=
  (by decide +kernel : ∀ t : Fin grid0.N, _)

theorem flushed0_eq (c : Dev nD) (t : Fin cfg0.N) :
    (dat0 (F := Ideal) V c).flushed 3 t
      = ((cfg0.win 3).blk t).view.read (Elt Ideal) (unitArr (V c main_arg0) (V c main_v0) (V c main_arg3)) := by
  show (cfg0.win 3).cut (grid0.coords t) ((dat0 V c).after 3 t) = _
  rw [after0_3]
  unfold out0_3
  rw [View.canon_unit_zero hz2]
  simp only [View.ld_unit_zero (S := S2048x256) hz2, View.ld_unit_zero (S := S256x256) hz2, View.ld_unit_zero (S := S256) hz1]
  obtain ⟨⟨o0, o1⟩, e0, e1, w0, w1, b0⟩ := idx_facts0 t
  exact funext (tile_eq (V c main_arg0) (V c main_v0) (V c main_arg3) t.val (win0_0.rect_emb_val t) e0 e1
    (win0_1.rect_emb_val t) w0 w1 (win0_2.rect_emb_val t) b0 (win0_3.rect_emb_val t) o0 o1)

theorem cover0 (i : S8192x256.Idx) : ∃ t : Fin cfg0.N, (cfg0.win 3).flush t = true ∧ i ∈ ((cfg0.win 3).blk t).view.set := by
  obtain ⟨t, ht⟩ := cover_tile N_0 win0_3.index (fun t a => Pipeline.Clip.inb (win0_3.hclip (grid0.coords t) a)) (fun t => (idx_facts0 t).1) i
  refine ⟨t, flush0_3 t, ?_⟩
  show i ∈ ((View.whole main_v1).slice (win0_3.rect t)).set
  rw [View.set_slice_whole]
  exact ht

theorem dense0_value (c : Dev nD) (r : Fin 8192) (h : Fin 256) :
    (dat0 (F := Ideal) V c).arrAt 3 cfg0.N (ix2 r h)
      = Cert.Spec.unit (fun r k => V c main_arg0 (ix2 r k)) (fun h k => V c main_v0 (ix2 k h)) (fun h => V c main_arg3 (ix1 h)) r h := by
  rw [(dat0 (F := Ideal) V c).arrAt_eq_of_cover 3 (unitArr (V c main_arg0) (V c main_v0) (V c main_arg3))
    (fun t _ => flushed0_eq V c t) cover0]
  rfl

theorem idx_facts1 : ∀ t : Fin cfg1.N, (win1_3.index t (0 : Fin 2) = t.val ∧ win1_3.index t (1 : Fin 2) = 0)
    ∧ win1_0.index t (0 : Fin 2) = t.val ∧ win1_0.index t (1 : Fin 2) = 0
    ∧ win1_1.index t (0 : Fin 2) = 0 ∧ win1_1.index t (1 : Fin 2) = 0
    ∧ win1_2.index t (0 : Fin 1) = 0 :=
  (by decide +kernel : ∀ t : Fin grid1.N, _)

theorem flushed1_eq (c : Dev nD) (t : Fin cfg1.N) :
    (dat1 (F := Ideal) V c).flushed 3 t
      = ((cfg1.win 3).blk t).view.read (Elt Ideal) (unitArr (V c main_arg1) (V c main_v0) (V c main_arg3)) := by
  show (cfg1.win 3).cut (grid1.coords t) ((dat1 V c).after 3 t) = _
  rw [after1_3]
  unfold out1_3
  rw [View.canon_unit_zero hz2]
  simp only [View.ld_unit_zero (S := S2048x256) hz2, View.ld_unit_zero (S := S256x256) hz2, View.ld_unit_zero (S := S256) hz1]
  obtain ⟨⟨o0, o1⟩, e0, e1, w0, w1, b0⟩ := idx_facts1 t
  exact funext (tile_eq (V c main_arg1) (V c main_v0) (V c main_arg3) t.val (win1_0.rect_emb_val t) e0 e1
    (win1_1.rect_emb_val t) w0 w1 (win1_2.rect_emb_val t) b0 (win1_3.rect_emb_val t) o0 o1)

theorem cover1 (i : S8192x256.Idx) : ∃ t : Fin cfg1.N, (cfg1.win 3).flush t = true ∧ i ∈ ((cfg1.win 3).blk t).view.set := by
  obtain ⟨t, ht⟩ := cover_tile N_1 win1_3.index (fun t a => Pipeline.Clip.inb (win1_3.hclip (grid1.coords t) a)) (fun t => (idx_facts1 t).1) i
  refine ⟨t, flush1_3 t, ?_⟩
  show i ∈ ((View.whole main_v2).slice (win1_3.rect t)).set
  rw [View.set_slice_whole]
  exact ht

theorem dense1_value (c : Dev nD) (r : Fin 8192) (h : Fin 256) :
    (dat1 (F := Ideal) V c).arrAt 3 cfg1.N (ix2 r h)
      = Cert.Spec.unit (fun r k => V c main_arg1 (ix2 r k)) (fun h k => V c main_v0 (ix2 k h)) (fun h => V c main_arg3 (ix1 h)) r h := by
  rw [(dat1 (F := Ideal) V c).arrAt_eq_of_cover 3 (unitArr (V c main_arg1) (V c main_v0) (V c main_arg3))
    (fun t _ => flushed1_eq V c t) cover1]
  rfl

end Regions

section Host

variable (m : (ℓ : Loc nD τ sig) → Buf (Elt Ideal) ℓ)

theorem w1_v0 (c : Dev nD) (k h : Fin 256) :
    W1 (F := Ideal) m c (Proc.devRef .tc main_v0) (ix2 k h) = m ((c.tc : Thread nD τ).loc main_arg2) (ix2 h k) := by
  have e : (W1 (F := Ideal) m c (Proc.devRef .tc main_v0) : S256x256.Idx → Elt Ideal .f32)
      = transpose S256x256 [1, 0] (m ((c.tc : Thread nD τ).loc main_arg2)) transposes_S256x256_S256x256_1_0 := by
    show StableHlo.after hostOps0 (W0 m c) (Proc.devRef .tc main_v0) = _
    after_results
  rw [e]
  exact transpose_apply [1, 0] _ transposes_S256x256_S256x256_1_0 (ix2 k h) (ix2 h k) (fun b => match b with
    | ⟨0, _⟩ => rfl
    | ⟨1, _⟩ => rfl)

theorem w4_v3 (c : Dev nD) (i : Fin 8192) :
    W4 (F := Ideal) m c (Proc.devRef .tc main_v3) (ix2 i (0 : Fin 1)) = m ((c.tc : Thread nD τ).loc main_arg5) (ix1 i) := by
  have e : (W4 (F := Ideal) m c (Proc.devRef .tc main_v3) : S8192x1.Idx → Elt Ideal .i32)
      = shapeCast S8192x1 (W3 (F := Ideal) m c (Proc.devRef .tc main_arg5)) shapeCasts_S8192_S8192x1 := by
    show StableHlo.after hostOps2 (W3 m c) (Proc.devRef .tc main_v3) = _
    after_results
    rfl
  rw [e, W3_arg5]
  exact Cert.LibRowReduce.shapeCast_a_a1_apply _ shapeCasts_S8192_S8192x1 i 0

theorem w6_v5 (c : Dev nD) :
    W6 (F := Ideal) m c (Proc.devRef .tc main_v5) ix0 = W5 (F := Ideal) m c (Proc.devRef .tc main_v4) (ix2 (0 : Fin 1) (0 : Fin 1)) := by
  have e : (W6 (F := Ideal) m c (Proc.devRef .tc main_v5) : S_.Idx → Elt Ideal .f32)
      = shapeCast S_ (W5 (F := Ideal) m c (Proc.devRef .tc main_v4)) shapeCasts_S1x1_S_ := by
    show StableHlo.after hostOps3 (W5 m c) (Proc.devRef .tc main_v5) = _
    after_results
    rfl
  rw [e]
  refine shapeCast_apply _ shapeCasts_S1x1_S_ ix0 (ix2 (0 : Fin 1) (0 : Fin 1)) ?_
  rw [Shape.rowMajor_val_two]
  have h0 : (S_.rowMajor ix0).val < 1 := (S_.rowMajor ix0).isLt
  show 0 * 1 + 0 = (S_.rowMajor ix0).val
  omega

end Host

end Cert.KernelIdeal.DenseValue

end
-- ==== Proof.MainSteps.lean ====
import proofs.«417307_j14809047236881_2_alg».proof.Proof.MainFrame

noncomputable section

namespace Cert.KernelIdeal.Gen

open Idealize.ShloMosaic

variable {F : FTy → Type} [FloatOps F] [Named F]

abbrev rc0 : Rect S1024x8 := Rect.unit (s := S1024x8) ![0, 0] S1024x1.size inb_S1024x8_S1024x1_0_0
abbrev rc1 : Rect S1024x8 := Rect.unit (s := S1024x8) ![0, 1] S1024x1.size inb_S1024x8_S1024x1_0_1
abbrev rc2 : Rect S1024x8 := Rect.unit (s := S1024x8) ![0, 2] S1024x1.size inb_S1024x8_S1024x1_0_2
abbrev rc3 : Rect S1024x8 := Rect.unit (s := S1024x8) ![0, 3] S1024x1.size inb_S1024x8_S1024x1_0_3
abbrev rc4 : Rect S1024x8 := Rect.unit (s := S1024x8) ![0, 4] S1024x1.size inb_S1024x8_S1024x1_0_4
abbrev rc5 : Rect S1024x8 := Rect.unit (s := S1024x8) ![0, 5] S1024x1.size inb_S1024x8_S1024x1_0_5
abbrev rc6 : Rect S1024x8 := Rect.unit (s := S1024x8) ![0, 6] S1024x1.size inb_S1024x8_S1024x1_0_6
abbrev rc7 : Rect S1024x8 := Rect.unit (s := S1024x8) ![0, 7] S1024x1.size inb_S1024x8_S1024x1_0_7

abbrev iotaCols : IVec S1024x1024 32 := iota .tc S1024x1024 32 [1] iota_S1024x1024_d1_w32

abbrev colOff (i : grid2.Coords) : BitVec 32 := Scalar.muli (BitVec.ofNat 32 (i 1).val) 1024#32

def stepM (x0 x1 : Vec F S1024x256 .bf16) (mo : Vec F S1024x1 .f32) : Vec F S1024x1 .f32 :=
  k2_pay9 (k2_pay7 x0 x1 mo)

def stepL (x0 x1 : Vec F S1024x256 .bf16) (mo lo : Vec F S1024x1 .f32) : Vec F S1024x1 .f32 :=
  k2_pay8 x0 x1 mo lo

def stepP (i : grid2.Coords) (x0 x1 : Vec F S1024x256 .bf16) (x2 : Vec F S1024x8 .i32) (po : Vec F S1024x8 .f32) : Vec F S1024x8 .f32 :=
  View.canon [⟨rc7, k2_pay20 (k2_pay6 x0 x1) iotaCols x2 (colOff i) (View.ld po rc7)⟩,
    ⟨rc6, k2_pay19 (k2_pay6 x0 x1) iotaCols x2 (colOff i) (View.ld po rc6)⟩,
    ⟨rc5, k2_pay18 (k2_pay6 x0 x1) (k2_pay16 iotaCols x2 (colOff i)) (k2_pay17 (F := F)) (View.ld po rc5)⟩,
    ⟨rc4, k2_pay15 (k2_pay6 x0 x1) iotaCols x2 (colOff i) (View.ld po rc4)⟩,
    ⟨rc3, k2_pay14 (k2_pay6 x0 x1) iotaCols x2 (colOff i) (View.ld po rc3)⟩,
    ⟨rc2, k2_pay13 (k2_pay12 (BitVec.ofNat 32 (i 1).val) (k2_pay6 x0 x1) x2) (View.ld po rc2)⟩,
    ⟨rc1, k2_pay11 (BitVec.ofNat 32 (i 1).val) (k2_pay6 x0 x1) x2 (View.ld po rc1)⟩,
    ⟨rc0, k2_pay10 (BitVec.ofNat 32 (i 1).val) (k2_pay6 x0 x1) x2 (View.ld po rc0)⟩]

def stepAcc (mn ln : Vec F S1024x1 .f32) (pn : Vec F S1024x8 .f32) (x3 : Vec F S1024x1 .i32) (ao : Vec F S1x1 .f32) : Vec F S1x1 .f32 :=
  k2_pay1 mn ln pn x3 ao

abbrev M0 : Vec F S1024x1 .f32 := k2_pay3 (F := F)
abbrev L0 : Vec F S1024x1 .f32 := k2_pay4 (F := F)
abbrev P0 : Vec F S1024x8 .f32 := k2_pay5 (F := F)
abbrev A0 : Vec F S1x1 .f32 := k2_pay2 (F := F)

end Cert.KernelIdeal.Gen

end
-- ==== Proof.MainPieces.lean ====
import proofs.«417307_j14809047236881_2_alg».proof.Proof.MainSteps
import Idealize.ShloMosaic.Lib.Pipeline.Value

set_option maxRecDepth 16384

noncomputable section

namespace Cert.KernelIdeal.Gen

open Idealize.ShloMosaic Idealize.ShloMosaic.TcCoe Idealize.ShloMosaic.Tactic

variable {F : FTy → Type} [FloatOps F] [Named F]

theorem pieces_hz : (![0, 0] : Fin 2 → Nat) = fun _ => 0 := funext fun a => by fin_cases a <;> rfl

theorem canon_append_apply_of_mem {Val : EltTy → Type} [∀ e, Nonempty (Val e)] {S : Shape} {e : EltTy}
    (L L' : List (View.Piece Val S e)) (y : S.Idx) (h : ∃ p ∈ L, y ∈ p.1.set) :
    View.canon (L ++ L') y = View.canon L y := by
  induction L with
  | nil => obtain ⟨_, hm, _⟩ := h; exact absurd hm List.not_mem_nil
  | cons p L ih =>
    by_cases hy : y ∈ p.1.set
    · obtain ⟨r, w⟩ := p
      obtain ⟨x, rfl⟩ := r.exists_idx_of_mem hy
      rw [List.cons_append, show r.idx x = r.emb x from rfl, View.canon_cons_emb, View.canon_cons_emb]
    · rw [List.cons_append, View.canon_cons_of_not_mem _ _ hy, View.canon_cons_of_not_mem _ _ hy]
      apply ih
      obtain ⟨q, hq, hyq⟩ := h
      rcases List.mem_cons.mp hq with rfl | hq'
      · exact absurd hyq hy
      · exact ⟨q, hq', hyq⟩

theorem canon_append_of_cover {Val : EltTy → Type} [∀ e, Nonempty (Val e)] {S : Shape} {e : EltTy}
    (L L' : List (View.Piece Val S e)) (h : ∀ y, ∃ p ∈ L, y ∈ p.1.set) : View.canon (L ++ L') = View.canon L :=
  funext fun y => canon_append_apply_of_mem L L' y (h y)

section
variable {Val : EltTy → Type} [∀ e, Nonempty (Val e)] {sig : RefSig} {κ : Kind} {sp : Space} {d : Fin 2 → ℕ} {e : EltTy}
  (v : View sig κ sp ⟨2, d⟩ e) (inb : ∀ a, (![0, 0] : Fin 2 → ℕ) a + d a ≤ d a)

theorem ld0 (X : Shape.Idx ⟨2, d⟩ → Val e) : View.ld X (Rect.unit (s := ⟨2, d⟩) ![0, 0] d inb) = X :=
  View.ld_unit_zero pieces_hz inb X

theorem canon0 (w : Shape.Idx ⟨2, d⟩ → Val e) (L : List (View.Piece Val ⟨2, d⟩ e)) :
    View.canon ((⟨Rect.unit (s := ⟨2, d⟩) ![0, 0] d inb, w⟩ : View.Piece Val ⟨2, d⟩ e) :: L) = w :=
  View.canon_cons_unit_zero pieces_hz inb w L

theorem readCov0 (L : List (View.Piece Val ⟨2, d⟩ e)) :
    v.readCov L (Rect.unit (s := ⟨2, d⟩) ![0, 0] d inb).toLoadRect = View.canon L := by
  rw [View.readCov_eq_canon']; exact View.ld_unit_zero pieces_hz inb (View.canon L)

theorem readCov0_ld (P : Shape.Idx ⟨2, d⟩ → Val e) (r : Rect ⟨2, d⟩) :
    v.readCov [(⟨Rect.unit (s := ⟨2, d⟩) ![0, 0] d inb, P⟩ : View.Piece Val ⟨2, d⟩ e)] r.toLoadRect = View.ld P r := by
  rw [View.readCov_eq_canon_ld _ _ _ (fun y => ⟨_, List.mem_singleton_self _, View.mem_set_unit_zero pieces_hz inb y⟩),
    View.canon_unit_zero pieces_hz]
end

theorem canon_cols_reset {Val : EltTy → Type} [∀ e, Nonempty (Val e)]
    (w7 : rc7.shape.Idx → Val .f32) (w6 : rc6.shape.Idx → Val .f32) (w5 : rc5.shape.Idx → Val .f32) (w4 : rc4.shape.Idx → Val .f32)
    (w3 : rc3.shape.Idx → Val .f32) (w2 : rc2.shape.Idx → Val .f32) (w1 : rc1.shape.Idx → Val .f32) (w0 : rc0.shape.Idx → Val .f32)
    (q : View.Piece Val S1024x8 .f32) :
    View.canon [⟨rc7, w7⟩, ⟨rc6, w6⟩, ⟨rc5, w5⟩, ⟨rc4, w4⟩, ⟨rc3, w3⟩, ⟨rc2, w2⟩, ⟨rc1, w1⟩, ⟨rc0, w0⟩, q]
      = View.canon [⟨rc7, w7⟩, ⟨rc6, w6⟩, ⟨rc5, w5⟩, ⟨rc4, w4⟩, ⟨rc3, w3⟩, ⟨rc2, w2⟩, ⟨rc1, w1⟩, ⟨rc0, w0⟩] :=
  canon_append_of_cover [⟨rc7, w7⟩, ⟨rc6, w6⟩, ⟨rc5, w5⟩, ⟨rc4, w4⟩, ⟨rc3, w3⟩, ⟨rc2, w2⟩, ⟨rc1, w1⟩, ⟨rc0, w0⟩] [q]
    (View.cover_of_tiledL _ S1024x1.size (by sl_kernel_rfl))

theorem readCov_col_cons {Val : EltTy → Type} [∀ e, Nonempty (Val e)] {sig : RefSig} {κ : Kind} {sp : Space}
    (v : View sig κ sp S1024x8 .f32) (k j : ℕ) (hk : ∀ a, (![0, k] : Fin 2 → ℕ) a + (![1024, 1] : Fin 2 → ℕ) a ≤ S1024x8.size a)
    (hj : ∀ a, (![0, j] : Fin 2 → ℕ) a + (![1024, 1] : Fin 2 → ℕ) a ≤ S1024x8.size a) (h : k ≠ j)
    (w : (Rect.unit (s := S1024x8) ![0, k] ![1024, 1] hk).shape.Idx → Val .f32) (L : List (View.Piece Val S1024x8 .f32)) :
    v.readCov (⟨Rect.unit (s := S1024x8) ![0, k] ![1024, 1] hk, w⟩ :: L) (Rect.unit (s := S1024x8) ![0, j] ![1024, 1] hj).toLoadRect
      = v.readCov L (Rect.unit (s := S1024x8) ![0, j] ![1024, 1] hj).toLoadRect :=
  View.readCov_cons_of_disjoint v _ L _ (Rect.unit_disjoint (inb := hk) (inb' := hj) 1 (by show k + 1 ≤ j ∨ j + 1 ≤ k; omega))

variable {c : Dev nD} {i : grid2.Coords} {arg2 : Memref sig .tc .vmem S1024x256 .bf16} {harg2 : arg2.IsWhole} {arg3 : Memref sig .tc .vmem S1024x256 .bf16} {harg3 : arg3.IsWhole} {arg4 : Memref sig .tc .vmem S1024x8 .i32} {harg4 : arg4.IsWhole} {arg5 : Memref sig .tc .vmem S1024x1 .i32} {harg5 : arg5.IsWhole} {arg6 : Memref sig .tc .vmem S1x1 .f32} {harg6 : arg6.IsWhole} {arg7 : Memref sig .tc .vmem S1024x1 .f32} {harg7 : arg7.IsWhole} {arg8 : Memref sig .tc .vmem S1024x1 .f32} {harg8 : arg8.IsWhole} {arg9 : Memref sig .tc .vmem S1024x8 .f32} {harg9 : arg9.IsWhole} {arg10 : Memref sig .tc .vmem S1x1 .f32} {harg10 : arg10.IsWhole}
  {x0 x1 : Vec F S1024x256 .bf16} {x2 : Vec F S1024x8 .i32} {x3 : Vec F S1024x1 .i32} {xs0 xs1 : Vec F S1024x1 .f32} {xs2 : Vec F S1024x8 .f32} {xs3 : Vec F S1x1 .f32}

theorem pieces2_A {hc0 : cond2_0 i} {hc1 : cond2_1 i} {hc2 : ¬cond2_2 i} {hc3 : ¬cond2_3 i} :
    sout2_A_0 c i arg2 harg2 arg3 harg3 arg4 harg4 arg5 harg5 arg6 harg6 arg7 harg7 arg8 harg8 arg9 harg9 arg10 harg10 hc0 hc1 hc2 hc3 x0 x1 x2 x3 = stepM x0 x1 M0
    ∧ sout2_A_1 c i arg2 harg2 arg3 harg3 arg4 harg4 arg5 harg5 arg6 harg6 arg7 harg7 arg8 harg8 arg9 harg9 arg10 harg10 hc0 hc1 hc2 hc3 x0 x1 x2 x3 = stepL x0 x1 M0 L0
    ∧ sout2_A_2 c i arg2 harg2 arg3 harg3 arg4 harg4 arg5 harg5 arg6 harg6 arg7 harg7 arg8 harg8 arg9 harg9 arg10 harg10 hc0 hc1 hc2 hc3 x0 x1 x2 x3 = stepP i x0 x1 x2 P0 := by
  unfold sout2_A_0 sout2_A_1 sout2_A_2
  rw [View.read_writes_eq_canon VS2_0 _ _ fun y => scover2_A_0 ..,
    View.read_writes_eq_canon VS2_1 _ _ fun y => scover2_A_1 ..,
    View.read_writes_eq_canon VS2_2 _ _ fun y => scover2_A_2 ..]
  unfold kernelRun2_A
  dsimp only
  simp only [kernelRun2_A.sl.HS2_1, kernelRun2_A.sl.HS2_2, kernelRun2_A.sl.HS2_3, kernelRun2_A.sl.HS2_4, kernelRun2_A.sl.HS2_5, kernelRun2_A.sl.HS2_6, kernelRun2_A.sl.HS2_7, kernelRun2_A.sl.HS2_8, kernelRun2_A.sl.v51, kernelRun2_A.sl.v65, kernelRun2_A.sl.v79, kernelRun2_A.sl.v93, kernelRun2_A.sl.v107, kernelRun2_A.sl.v121, kernelRun2_A.sl.v135, kernelRun2_A.sl.v149, kernelRun2_A.sl.v48, kernelRun2_A.sl.v62, kernelRun2_A.sl.v76, kernelRun2_A.sl.v90, kernelRun2_A.sl.v104, kernelRun2_A.sl.v118, kernelRun2_A.sl.v132, kernelRun2_A.sl.v146, kernelRun2_A.sl.v47, kernelRun2_A.sl.v61, kernelRun2_A.sl.v75, kernelRun2_A.sl.v89, kernelRun2_A.sl.v103, kernelRun2_A.sl.v117, kernelRun2_A.sl.v131, kernelRun2_A.sl.v145, readCov_col_cons, ne_eq, Nat.reduceEqDiff, not_false_eq_true, readCov0_ld]
  rw [canon_cols_reset]
  sl_unfold_words
  simp only [canon0, View.readAt_eq_ld, Memref.IsWhole.read_unread, ld0, readCov0]
  exact ⟨rfl, rfl, rfl⟩

theorem piece2_A_3 {hc0 : cond2_0 i} {hc1 : cond2_1 i} {hc2 : ¬cond2_2 i} {hc3 : ¬cond2_3 i} :
    sout2_A_3 c i arg2 harg2 arg3 harg3 arg4 harg4 arg5 harg5 arg6 harg6 arg7 harg7 arg8 harg8 arg9 harg9 arg10 harg10 hc0 hc1 hc2 hc3 x0 x1 x2 x3 = A0 := by
  unfold sout2_A_3
  rw [View.read_writes_eq_canon VS2_3 _ _ fun y => scover2_A_3 ..]
  unfold kernelRun2_A
  dsimp only
  sl_unfold_words
  rw [canon0]

theorem pieces2_D {hc0 : ¬cond2_0 i} {hc1 : cond2_1 i} {hc2 : ¬cond2_2 i} {hc3 : ¬cond2_3 i} :
    sout2_D_0 c i arg2 harg2 arg3 harg3 arg4 harg4 arg5 harg5 arg6 harg6 arg7 harg7 arg8 harg8 arg9 harg9 arg10 harg10 hc0 hc1 hc2 hc3 x0 x1 x2 x3 = stepM x0 x1 M0
    ∧ sout2_D_1 c i arg2 harg2 arg3 harg3 arg4 harg4 arg5 harg5 arg6 harg6 arg7 harg7 arg8 harg8 arg9 harg9 arg10 harg10 hc0 hc1 hc2 hc3 x0 x1 x2 x3 = stepL x0 x1 M0 L0
    ∧ sout2_D_2 c i arg2 harg2 arg3 harg3 arg4 harg4 arg5 harg5 arg6 harg6 arg7 harg7 arg8 harg8 arg9 harg9 arg10 harg10 hc0 hc1 hc2 hc3 x0 x1 x2 x3 = stepP i x0 x1 x2 P0 := by
  unfold sout2_D_0 sout2_D_1 sout2_D_2
  rw [View.read_writes_eq_canon VS2_0 _ _ fun y => scover2_D_0 ..,
    View.read_writes_eq_canon VS2_1 _ _ fun y => scover2_D_1 ..,
    View.read_writes_eq_canon VS2_2 _ _ fun y => scover2_D_2 ..]
  unfold kernelRun2_D
  dsimp only
  simp only [kernelRun2_D.sl.HS2_1, kernelRun2_D.sl.HS2_2, kernelRun2_D.sl.HS2_3, kernelRun2_D.sl.HS2_4, kernelRun2_D.sl.HS2_5, kernelRun2_D.sl.HS2_6, kernelRun2_D.sl.HS2_7, kernelRun2_D.sl.HS2_8, kernelRun2_D.sl.v51, kernelRun2_D.sl.v65, kernelRun2_D.sl.v79, kernelRun2_D.sl.v93, kernelRun2_D.sl.v107, kernelRun2_D.sl.v121, kernelRun2_D.sl.v135, kernelRun2_D.sl.v149, kernelRun2_D.sl.v48, kernelRun2_D.sl.v62, kernelRun2_D.sl.v76, kernelRun2_D.sl.v90, kernelRun2_D.sl.v104, kernelRun2_D.sl.v118, kernelRun2_D.sl.v132, kernelRun2_D.sl.v146, kernelRun2_D.sl.v47, kernelRun2_D.sl.v61, kernelRun2_D.sl.v75, kernelRun2_D.sl.v89, kernelRun2_D.sl.v103, kernelRun2_D.sl.v117, kernelRun2_D.sl.v131, kernelRun2_D.sl.v145, readCov_col_cons, ne_eq, Nat.reduceEqDiff, not_false_eq_true, readCov0_ld]
  rw [canon_cols_reset]
  sl_unfold_words
  simp only [canon0, View.readAt_eq_ld, Memref.IsWhole.read_unread, ld0, readCov0]
  exact ⟨rfl, rfl, rfl⟩

theorem pieces2_B {hc0 : ¬cond2_0 i} {hc1 : ¬cond2_1 i} {hc2 : ¬cond2_2 i} {hc3 : ¬cond2_3 i} :
    sout2_B_0 c i arg2 harg2 arg3 harg3 arg4 harg4 arg5 harg5 arg6 harg6 arg7 harg7 arg8 harg8 arg9 harg9 arg10 harg10 hc0 hc1 hc2 hc3 x0 x1 x2 x3 xs0 xs1 xs2 = stepM x0 x1 xs0
    ∧ sout2_B_1 c i arg2 harg2 arg3 harg3 arg4 harg4 arg5 harg5 arg6 harg6 arg7 harg7 arg8 harg8 arg9 harg9 arg10 harg10 hc0 hc1 hc2 hc3 x0 x1 x2 x3 xs0 xs1 xs2 = stepL x0 x1 xs0 xs1
    ∧ sout2_B_2 c i arg2 harg2 arg3 harg3 arg4 harg4 arg5 harg5 arg6 harg6 arg7 harg7 arg8 harg8 arg9 harg9 arg10 harg10 hc0 hc1 hc2 hc3 x0 x1 x2 x3 xs0 xs1 xs2 = stepP i x0 x1 x2 xs2 := by
  unfold sout2_B_0 sout2_B_1 sout2_B_2
  rw [View.read_writes_eq_canon VS2_0 _ _ fun y => scover2_B_0 ..,
    View.read_writes_eq_canon VS2_1 _ _ fun y => scover2_B_1 ..,
    View.read_writes_eq_canon VS2_2 _ _ fun y => scover2_B_2 ..]
  unfold kernelRun2_B
  dsimp only
  sl_unfold_words
  simp only [canon0, View.readAt_eq_ld, Memref.IsWhole.read_unread, ld0, readCov0]
  exact ⟨rfl, rfl, rfl⟩

theorem pieces2_C {hc0 : ¬cond2_0 i} {hc1 : ¬cond2_1 i} {hc2 : cond2_2 i} {hc3 : ¬cond2_3 i} :
    sout2_C_0 c i arg2 harg2 arg3 harg3 arg4 harg4 arg5 harg5 arg6 harg6 arg7 harg7 arg8 harg8 arg9 harg9 arg10 harg10 hc0 hc1 hc2 hc3 x0 x1 x2 x3 xs0 xs1 xs2 xs3 = stepM x0 x1 xs0
    ∧ sout2_C_1 c i arg2 harg2 arg3 harg3 arg4 harg4 arg5 harg5 arg6 harg6 arg7 harg7 arg8 harg8 arg9 harg9 arg10 harg10 hc0 hc1 hc2 hc3 x0 x1 x2 x3 xs0 xs1 xs2 xs3 = stepL x0 x1 xs0 xs1
    ∧ sout2_C_2 c i arg2 harg2 arg3 harg3 arg4 harg4 arg5 harg5 arg6 harg6 arg7 harg7 arg8 harg8 arg9 harg9 arg10 harg10 hc0 hc1 hc2 hc3 x0 x1 x2 x3 xs0 xs1 xs2 xs3 = stepP i x0 x1 x2 xs2
    ∧ sout2_C_3 c i arg2 harg2 arg3 harg3 arg4 harg4 arg5 harg5 arg6 harg6 arg7 harg7 arg8 harg8 arg9 harg9 arg10 harg10 hc0 hc1 hc2 hc3 x0 x1 x2 x3 xs0 xs1 xs2 xs3 = stepAcc (stepM x0 x1 xs0) (stepL x0 x1 xs0 xs1) (stepP i x0 x1 x2 xs2) x3 xs3 := by
  unfold sout2_C_0 sout2_C_1 sout2_C_2 sout2_C_3
  rw [View.read_writes_eq_canon VS2_0 _ _ fun y => scover2_C_0 ..,
    View.read_writes_eq_canon VS2_1 _ _ fun y => scover2_C_1 ..,
    View.read_writes_eq_canon VS2_2 _ _ fun y => scover2_C_2 ..,
    View.read_writes_eq_canon VS2_3 _ _ fun y => scover2_C_3 ..]
  unfold kernelRun2_C
  dsimp only
  sl_unfold_words
  simp only [canon0, View.readAt_eq_ld, Memref.IsWhole.read_unread, ld0, readCov0]
  exact ⟨rfl, rfl, rfl, rfl⟩

theorem pieces2_E {hc0 : ¬cond2_0 i} {hc1 : ¬cond2_1 i} {hc2 : cond2_2 i} {hc3 : cond2_3 i} :
    sout2_E_0 c i arg2 harg2 arg3 harg3 arg4 harg4 arg5 harg5 arg6 harg6 arg7 harg7 arg8 harg8 arg9 harg9 arg10 harg10 hc0 hc1 hc2 hc3 x0 x1 x2 x3 xs0 xs1 xs2 xs3 = stepM x0 x1 xs0
    ∧ sout2_E_1 c i arg2 harg2 arg3 harg3 arg4 harg4 arg5 harg5 arg6 harg6 arg7 harg7 arg8 harg8 arg9 harg9 arg10 harg10 hc0 hc1 hc2 hc3 x0 x1 x2 x3 xs0 xs1 xs2 xs3 = stepL x0 x1 xs0 xs1
    ∧ sout2_E_2 c i arg2 harg2 arg3 harg3 arg4 harg4 arg5 harg5 arg6 harg6 arg7 harg7 arg8 harg8 arg9 harg9 arg10 harg10 hc0 hc1 hc2 hc3 x0 x1 x2 x3 xs0 xs1 xs2 xs3 = stepP i x0 x1 x2 xs2
    ∧ sout2_E_3 c i arg2 harg2 arg3 harg3 arg4 harg4 arg5 harg5 arg6 harg6 arg7 harg7 arg8 harg8 arg9 harg9 arg10 harg10 hc0 hc1 hc2 hc3 x0 x1 x2 x3 xs0 xs1 xs2 xs3 = stepAcc (stepM x0 x1 xs0) (stepL x0 x1 xs0 xs1) (stepP i x0 x1 x2 xs2) x3 xs3 := by
  refine ⟨(View.read_writes_eq_canon _ _ _ fun y => scover2_E_0 ..).trans ?_,
    (View.read_writes_eq_canon _ _ _ fun y => scover2_E_1 ..).trans ?_,
    (View.read_writes_eq_canon _ _ _ fun y => scover2_E_2 ..).trans ?_,
    (View.read_writes_eq_canon _ _ _ fun y => scover2_E_3 ..).trans ?_⟩ <;>
  · unfold kernelRun2_E
    dsimp only
    sl_unfold_words
    simp only [canon0, View.readAt_eq_ld, Memref.IsWhole.read_unread, ld0, readCov0]
    rfl

theorem piece2_E_4 {hc0 : ¬cond2_0 i} {hc1 : ¬cond2_1 i} {hc2 : cond2_2 i} {hc3 : cond2_3 i} :
    out2_E_4 c i arg2 harg2 arg3 harg3 arg4 harg4 arg5 harg5 arg6 harg6 arg7 harg7 arg8 harg8 arg9 harg9 arg10 harg10 hc0 hc1 hc2 hc3 x0 x1 x2 x3 xs0 xs1 xs2 xs3 = stepAcc (stepM x0 x1 xs0) (stepL x0 x1 xs0 xs1) (stepP i x0 x1 x2 xs2) x3 xs3 := by
  unfold out2_E_4
  rw [View.read_writes_eq_canon VO2_4 _ _ fun y => cover2_E_4 ..]
  unfold kernelRun2_E
  dsimp only
  sl_unfold_words
  simp only [canon0, View.readAt_eq_ld, Memref.IsWhole.read_unread, ld0, readCov0]
  rfl

end Cert.KernelIdeal.Gen

end
-- ==== Proof.MainStepsIdeal.lean ====
import proofs.«417307_j14809047236881_2_alg».proof.Proof.MainSteps
import proofs.«417307_j14809047236881_2_alg».proof.Proof.Spec
import proofs.«417307_j14809047236881_2_alg».proof.Proof.LibIx2
import proofs.«417307_j14809047236881_2_alg».proof.Proof.LibRowReduce
import proofs.«417307_j14809047236881_2_alg».proof.Proof.LibMatmulMixed
import Idealize.ShloMosaic.PureOps.IdealRules
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.StepsIdeal

open Idealize.ShloMosaic Cert.KernelIdeal Cert.KernelIdeal.Gen Cert.Alg ValueIdx
open scoped BigOperators

theorem scale_eq : Named.named (F := Ideal) Cert.KernelIdeal.κ "fold_c_268435456_13421773" (φ := .f32) 0x41A00000#32 = Cert.Spec.scale :=
  IdealRules.named_const.ideal_named_scalar _ _ _ _ rfl

variable (i : grid2.Coords) (x0 x1 : Vec Ideal S1024x256 .bf16) (x2 : Vec Ideal S1024x8 .i32)

-- entry (r, q) of the product contracts feature h of row r of x0 against feature h of row q of x1
theorem logits_apply (r q : Fin 1024) :
    k2_pay6 (F := Ideal) x0 x1 (ix2 r q) = (∑ h : Fin 256, x0 (ix2 r h) * x1 (ix2 q h)) * Cert.Spec.scale := by
  unfold k2_pay6
  rw [shapeCast_self, shapeCast_self, mulf_apply, broadcast_apply, scale_eq]
  refine congrArg (· * Cert.Spec.scale) ?_
  refine Cert.LibMatmulMixed.matmul_zero_entry dot_S1024x256_S1024x256_S1024x1024_1_1_0_0_n_n none rfl rfl x0 x1 r q
    (fun h => ix2 r h) (fun h => ix2 q h) (fun k c hk => ?_) (fun k c hk => ?_)
  · exact funext fun a => Fin.ext (by
      match a with
      | ⟨0, _⟩ => rfl
      | ⟨1, _⟩ => exact (dot_S1024x256_S1024x256_S1024x1024_1_1_0_0_n_n.lhsIdx_val_of_single rfl _ c).trans hk)
  · exact funext fun a => Fin.ext (by
      match a with
      | ⟨0, _⟩ => rfl
      | ⟨1, _⟩ => exact (dot_S1024x256_S1024x256_S1024x1024_1_1_0_0_n_n.rhsIdx_val_of_single rfl _ c).trans hk)

theorem ofBits_neg_inf : Ideal.ofBits .f32 0xFF800000#32 = ⊥ := by simp [Ideal.ofBits, Ideal.ieee]
theorem M0_apply (r : Fin 1024) : M0 (F := Ideal) (ix2 r (0 : Fin 1)) = ⊥ := ofBits_neg_inf
theorem L0_apply (r : Fin 1024) : L0 (F := Ideal) (ix2 r (0 : Fin 1)) = 0 := Ideal.ofBits_zero_f32
theorem P0_apply (r : Fin 1024) (j : Fin 8) : P0 (F := Ideal) (ix2 r j) = 0 := Ideal.ofBits_zero_f32
theorem A0_apply : A0 (F := Ideal) (ix2 (0 : Fin 1) (0 : Fin 1)) = 0 := Ideal.ofBits_zero_f32

theorem rowMax_col (e : FVec Ideal S1024x1024 .f32) (r : Fin 1024) :
    shapeCast S1024x1 (multiReduction (F := Ideal) .maximumf [1] S1024 e 0xFF800000#32 reduces_S1024x1024_S1024 (.inl rfl) rfl)
        shapeCasts_S1024_S1024x1 (ix2 r (0 : Fin 1))
      = Cert.Online.bmax (fun q : Fin 1024 => e (ix2 r q)) := by
  rw [Cert.LibRowReduce.shapeCast_a_a1_apply]
  refine (Ideal.multiReduction_maximumf_single e 0xFF800000#32 reduces_S1024x1024_S1024 (.inl rfl) rfl (ix1 r)).trans ?_
  show (Finset.univ : Finset (Fin 1024)).fold max (Ideal.ofBits .f32 0xFF800000#32)
      (fun k => e (reduces_S1024x1024_S1024.lift (ix1 r) k)) = _
  rw [ofBits_neg_inf]
  exact congrArg (fun f => (Finset.univ : Finset (Fin 1024)).fold max ⊥ f)
    (funext fun k => congrArg e (Cert.LibRowReduce.lift_row _ r k))

-- the row sums of an a × b array kept as a column: at row r, the sum of row r
theorem rowSum_col {a b : ℕ} (e : FVec Ideal ⟨2, ![a, b]⟩ .f32) (h : (⟨2, ![a, b]⟩ : Shape).Reduces [1] ⟨1, ![a]⟩)
    (hsc : (⟨1, ![a]⟩ : Shape).ShapeCasts ⟨2, ![a, 1]⟩) (r : Fin a) :
    shapeCast ⟨2, ![a, 1]⟩ (multiReduction (F := Ideal) .add [1] ⟨1, ![a]⟩ e 0x00000000#32 h (.inl rfl) rfl) hsc (ix2 r (0 : Fin 1))
      = ∑ q : Fin b, e (ix2 r q) := by
  rw [Cert.LibRowReduce.shapeCast_a_a1_apply]
  refine (Ideal.multiReduction_add_single e 0x00000000#32 h (.inl rfl) rfl (ix1 r)).trans ?_
  show ∑ k : Fin b, e (h.lift (ix1 r) k) = _
  exact Finset.sum_congr rfl fun k _ => by rw [Cert.LibRowReduce.lift_row]

theorem pay7_apply (mo : Vec Ideal S1024x1 .f32) (r : Fin 1024) :
    k2_pay7 (F := Ideal) x0 x1 mo (ix2 r (0 : Fin 1))
      = Cert.Online.stepM (mo (ix2 r (0 : Fin 1))) (fun q : Fin 1024 => k2_pay6 (F := Ideal) x0 x1 (ix2 r q)) := by
  unfold k2_pay7
  rw [maximumf_apply, rowMax_col]
  rfl

theorem stepM_apply (mo : Vec Ideal S1024x1 .f32) (r : Fin 1024) :
    stepM (F := Ideal) x0 x1 mo (ix2 r (0 : Fin 1))
      = Cert.Online.stepM (mo (ix2 r (0 : Fin 1))) (fun q : Fin 1024 => k2_pay6 (F := Ideal) x0 x1 (ix2 r q)) := by
  unfold stepM k2_pay9
  rw [shapeCast_self]
  exact pay7_apply x0 x1 mo r

theorem stepL_apply (mo lo : Vec Ideal S1024x1 .f32) (r : Fin 1024) :
    stepL (F := Ideal) x0 x1 mo lo (ix2 r (0 : Fin 1))
      = Cert.Online.stepL (mo (ix2 r (0 : Fin 1))) (lo (ix2 r (0 : Fin 1))) (fun q : Fin 1024 => k2_pay6 (F := Ideal) x0 x1 (ix2 r q)) := by
  unfold stepL k2_pay8
  rw [shapeCast_self, addf_apply, mulf_apply, rowSum_col]
  show Ideal.exp (mo (ix2 r (0 : Fin 1)) - k2_pay7 (F := Ideal) x0 x1 mo (ix2 r (0 : Fin 1))) * lo (ix2 r (0 : Fin 1))
      + ∑ q : Fin 1024, Ideal.exp (k2_pay6 (F := Ideal) x0 x1 (ix2 r q)
          - broadcastTo S1024x1024 (k2_pay7 (F := Ideal) x0 x1 mo) broadcasts_S1024x1_S1024x1024 (ix2 r q)) = _
  simp only [Cert.LibIx2.broadcastTo_a1_ab_apply, pay7_apply]
  rw [mul_comm]
  rfl

theorem select_cmpi_eq {α : Type} (a b : BitVec 32) (u v : α) :
    Scalar.select (IntOp.cmpi .eq a b) u v = if a = b then u else v := by
  show (if BitVec.ofBool (a == b) = 1#1 then u else v) = _
  by_cases h : a = b
  · rw [if_pos h, if_pos (by subst h; simp)]
  · rw [if_neg h, if_neg (by rw [show (a == b) = false from by simpa using h]; decide)]

def pickedNew (po : Vec Ideal S1024x8 .f32) : Vec Ideal S1024x8 .f32 :=
  fun y => po y + (0 + ∑ q : Fin 1024,
    if BitVec.ofNat 32 q.val = x2 y - colOff i then k2_pay6 (F := Ideal) x0 x1 (ix2 (⟨(y 0).val, idx2_lt0 y⟩ : Fin 1024) q) else 0)

theorem col_emb (off : Fin 2 → ℕ) (inb : ∀ a, off a + S1024x1.size a ≤ S1024x8.size a) (c : Fin 8)
    (h0 : off 0 = 0) (h1 : off 1 = c.val) (a : Fin 1024) (b : Fin 1) :
    (Rect.unit (s := S1024x8) off S1024x1.size inb).emb (ix2 a b) = ix2 a c := by
  funext d
  apply Fin.ext
  rw [Rect.emb_apply]
  match d with
  | ⟨0, _⟩ => show off 0 + 1 * a.val = a.val; omega
  | ⟨1, _⟩ => show off 1 + 1 * b.val = c.val; have := b.isLt; omega

-- the piece at offset (0, c) is the old column plus the tile's logits where the column number is label c less the tile's first column
theorem col_piece (po : Vec Ideal S1024x8 .f32) (off : Fin 2 → ℕ) (inb : ∀ a, off a + S1024x1.size a ≤ S1024x8.size a)
    (hs : S1024x8.Slices off S1024x1) (h0 : off 0 = 0) (x : (Rect.unit (s := S1024x8) off S1024x1.size inb).shape.Idx) :
    shapeCast S1024x1 (addf (View.ld po (Rect.unit (s := S1024x8) off S1024x1.size inb))
        (shapeCast S1024x1 (multiReduction (F := Ideal) .add [1] S1024
          (select (cmpi .eq iotaCols (broadcastTo S1024x1024 (subi (extractStridedSlice S1024x1 off x2 hs) (broadcast S1024x1 (colOff i)))
              broadcasts_S1024x1_S1024x1024)) (k2_pay6 (F := Ideal) x0 x1) (broadcast S1024x1024 (Scalar.ofBits (F := Ideal) .f32 0x00000000#32)))
          0x00000000#32 reduces_S1024x1024_S1024 (.inl rfl) rfl) shapeCasts_S1024_S1024x1)) shapeCasts_S1024x1_S1024x1 x
      = pickedNew i x0 x1 x2 po ((Rect.unit (s := S1024x8) off S1024x1.size inb).emb x) := by
  obtain ⟨a, b, rfl⟩ : ∃ (a : Fin 1024) (b : Fin 1), x = ix2 a b := ⟨x 0, x 1, eq_ix2 x⟩
  obtain rfl : b = 0 := Subsingleton.elim _ _
  have hc : off 1 < 8 := inb 1
  rw [shapeCast_self, addf_apply, rowSum_col]
  show po ((Rect.unit (s := S1024x8) off S1024x1.size inb).emb (ix2 a (0 : Fin 1))) + _
    = pickedNew i x0 x1 x2 po ((Rect.unit (s := S1024x8) off S1024x1.size inb).emb (ix2 a (0 : Fin 1)))
  rw [col_emb off inb ⟨off 1, hc⟩ h0 rfl a 0]
  refine congrArg (po _ + ·) ((Finset.sum_congr rfl fun q _ => ?_).trans (zero_add _).symm)
  rw [select_apply, broadcast_apply]
  show Scalar.select (IntOp.cmpi .eq (iota .tc S1024x1024 32 [1] iota_S1024x1024_d1_w32 (ix2 a q))
      (broadcastTo S1024x1024 (subi (extractStridedSlice S1024x1 off x2 hs) (broadcast S1024x1 (colOff i))) broadcasts_S1024x1_S1024x1024 (ix2 a q)))
      (k2_pay6 (F := Ideal) x0 x1 (ix2 a q)) (Ideal.ofBits .f32 0x00000000#32) = _
  rw [Cert.LibIx2.broadcastTo_a1_ab_apply, iota_single_apply, select_cmpi_eq, Ideal.ofBits_zero_f32]
  show (if BitVec.ofNat 32 q.val = extractStridedSlice S1024x1 off x2 hs (ix2 a (0 : Fin 1)) - colOff i then _ else 0) = _
  rw [extractStridedSlice_apply off x2 hs (ix2 a (0 : Fin 1)) (ix2 a ⟨off 1, hc⟩) (fun n => by
    match n with
    | ⟨0, _⟩ => show a.val = off 0 + a.val; omega
    | ⟨1, _⟩ => show off 1 = off 1 + 0; omega)] <;> rfl

theorem stepP_apply (po : Vec Ideal S1024x8 .f32) (r : Fin 1024) (j : Fin 8) :
    stepP (F := Ideal) i x0 x1 x2 po (ix2 r j)
      = po (ix2 r j) + (0 + ∑ q : Fin 1024,
          if BitVec.ofNat 32 q.val = x2 (ix2 r j) - colOff i then k2_pay6 (F := Ideal) x0 x1 (ix2 r q) else 0) := by
  unfold stepP
  refine (View.canon_apply_of_pieces (pickedNew i x0 x1 x2 po) _ ?_ (ix2 r j) ?_).trans rfl
  swap
  · exact View.cover_of_tiledL (s := S1024x8) _ S1024x1.size (by sl_kernel_rfl) _
  intro p hp x
  simp only [List.mem_cons, List.not_mem_nil, or_false] at hp
  rcases hp with rfl | rfl | rfl | rfl | rfl | rfl | rfl | rfl <;> exact col_piece i x0 x1 x2 po _ _ _ rfl x

theorem colSum_all (e : FVec Ideal S1024x1 .f32) :
    shapeCast S1x1 (multiReduction (F := Ideal) .add [0] S1 e 0x00000000#32 reduces_S1024x1_S1 (.inl rfl) rfl)
        shapeCasts_S1_S1x1 (ix2 (0 : Fin 1) (0 : Fin 1))
      = ∑ r : Fin 1024, e (ix2 r (0 : Fin 1)) := by
  rw [Cert.LibRowReduce.shapeCast_a_a1_apply]
  refine (Ideal.multiReduction_add_single e 0x00000000#32 reduces_S1024x1_S1 (.inl rfl) rfl (ix1 (0 : Fin 1))).trans ?_
  show ∑ k : Fin 1024, e (reduces_S1024x1_S1.lift (ix1 (0 : Fin 1)) k) = _
  refine Finset.sum_congr rfl fun k _ => congrArg e ?_
  funext c
  match c with
  | ⟨0, _⟩ => exact Fin.ext rfl
  | ⟨1, _⟩ => exact Fin.ext rfl

theorem mask_val (a b : BitVec 32) :
    (FloatOps.sitofp (F := Ideal) .f32 ((IntOp.cmpi .slt a b).setWidth 32) : EReal) = if a.slt b then 1 else 0 := by
  show ((((BitVec.ofBool (a.slt b)).setWidth 32).toInt : ℝ) : EReal) = _
  cases a.slt b
  · rw [show ((BitVec.ofBool false).setWidth 32).toInt = 0 from by decide]; simp
  · rw [show ((BitVec.ofBool true).setWidth 32).toInt = 1 from by decide]; simp

theorem mask_apply (x3 : Vec Ideal S1024x1 .i32) (r : Fin 1024) (j : Fin 8) :
    sitofp (F := Ideal) .f32 (extui 32 (cmpi .slt (broadcastTo S1024x8 (iota .tc S1x8 32 [1] iota_S1x8_d1_w32) broadcasts_S1x8_S1024x8)
        (broadcastTo S1024x8 x3 broadcasts_S1024x1_S1024x8)) natLt_1_32) (ix2 r j)
      = Cert.Spec.maskOf (x3 (ix2 r (0 : Fin 1))) j := by
  rw [sitofp_apply, extui_apply]
  show FloatOps.sitofp (F := Ideal) .f32 ((IntOp.cmpi .slt
      (broadcastTo S1024x8 (iota .tc S1x8 32 [1] iota_S1x8_d1_w32) broadcasts_S1x8_S1024x8 (ix2 r j))
      (broadcastTo S1024x8 x3 broadcasts_S1024x1_S1024x8 (ix2 r j))).setWidth 32) = _
  rw [broadcastTo_1b_ab_apply, Cert.LibIx2.broadcastTo_a1_ab_apply, iota_single_apply, mask_val]
  rfl

-- row r's term: the masked sum of picked − (m + log l), negated, over the count squared
theorem stepAcc_apply (mn ln : Vec Ideal S1024x1 .f32) (pn : Vec Ideal S1024x8 .f32) (x3 : Vec Ideal S1024x1 .i32) (ao : Vec Ideal S1x1 .f32) :
    stepAcc (F := Ideal) mn ln pn x3 ao (ix2 (0 : Fin 1) (0 : Fin 1))
      = ao (ix2 (0 : Fin 1) (0 : Fin 1)) + (0 + ∑ r : Fin 1024,
          Ideal.div (0 - (0 + ∑ j : Fin 8,
              (pn (ix2 r j) - (mn (ix2 r (0 : Fin 1)) + Ideal.log (ln (ix2 r (0 : Fin 1))))) * Cert.Spec.maskOf (x3 (ix2 r (0 : Fin 1))) j))
            (Cert.Spec.cntOf (x3 (ix2 r (0 : Fin 1))) * Cert.Spec.cntOf (x3 (ix2 r (0 : Fin 1))))) := by
  unfold stepAcc k2_pay1
  simp only [shapeCast_self]
  rw [addf_apply, colSum_all, zero_add]
  refine congrArg (ao (ix2 (0 : Fin 1) (0 : Fin 1)) + ·) (Finset.sum_congr rfl fun r _ => ?_)
  rw [divf_apply, subf_apply, broadcast_apply, rowSum_col, mulf_apply, sitofp_apply, zero_add]
  show Ideal.div (Ideal.ofBits .f32 0x00000000#32 - ∑ j : Fin 8, _) (Cert.Spec.cntOf (x3 (ix2 r (0 : Fin 1))) * Cert.Spec.cntOf (x3 (ix2 r (0 : Fin 1)))) = _
  rw [Ideal.ofBits_zero_f32]
  refine congrArg (fun s => Ideal.div (0 - s) _) (Finset.sum_congr rfl fun j _ => ?_)
  rw [mulf_apply, subf_apply, mask_apply, Cert.LibIx2.broadcastTo_a1_ab_apply, addf_apply]
  rfl

end Cert.KernelIdeal.StepsIdeal

end
-- ==== Proof.MainValue.lean ====
import proofs.«417307_j14809047236881_2_alg».proof.Proof.MainPieces
import proofs.«417307_j14809047236881_2_alg».proof.Proof.MainStepsIdeal
import proofs.«417307_j14809047236881_2_alg».proof.Proof.Spec
import Idealize.ShloMosaic.Lib.Pipeline.Value
import Idealize.ShloMosaic.Lib.ValueIdx

noncomputable section

namespace Cert.KernelIdeal.MainValue

open Idealize.ShloMosaic Idealize.ShloMosaic.TcCoe Idealize.SL.Sem
open Idealize.ShloMosaic.Pipeline (Dat)
open Cert.KernelIdeal Cert.KernelIdeal.Gen Cert.KernelIdeal.StepsIdeal Cert.Alg ValueIdx
open scoped BigOperators

variable (V : (c : Dev nD) → (b : Ref sig .tc) → Buf (Elt Ideal) ((c : Thread nD τ).loc b)) (c : Dev nD)

abbrev n1 (r : Fin 8192) (h : Fin 256) : EReal := V c main_v1 (ix2 r h)

abbrev n2 (r : Fin 8192) (h : Fin 256) : EReal := V c main_v2 (ix2 r h)

abbrev labW (i : Fin 8192) (j : Fin 8) : BitVec 32 := V c main_arg4 (ix2 i j)

abbrev cntW (i : Fin 8192) : BitVec 32 := V c main_v3 (ix2 i (0 : Fin 1))

abbrev xb0 (t : Fin cfg2.N) : Vec Ideal S1024x256 .bf16 := iblk2 V c 0 t

abbrev xb1 (t : Fin cfg2.N) : Vec Ideal S1024x256 .bf16 := iblk2 V c 1 t

abbrev xb2 (t : Fin cfg2.N) : Vec Ideal S1024x8 .i32 := iblk2 V c 2 t

abbrev xb3 (t : Fin cfg2.N) : Vec Ideal S1024x1 .i32 := iblk2 V c 3 t

theorem idx_facts : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = t.val / 8 ∧ win2_3.index t (1 : Fin 2) = 0 :=
  (by decide +kernel : ∀ t : Fin grid2.N, _)

theorem coord1 : ∀ t : Fin cfg2.N, ((grid2.coords t) 1).val = t.val % 8 :=
  (by decide +kernel : ∀ t : Fin grid2.N, _)

theorem xb0_apply (t : Fin cfg2.N) (r : Fin 1024) (h : Fin 256) (i : Fin 8192)
    (hi : i.val = r.val + 1024 * (t.val / 8)) : xb0 V c t (ix2 r h) = n1 V c i h := by
  show V c main_v1 (((cfg2.win 0).blk t).view.emb (ix2 r h)) = V c main_v1 (ix2 i h)
  refine congrArg _ (funext fun a => Fin.ext ?_)
  match a with
  | ⟨0, _⟩ =>
    show win2_0.index t (0 : Fin 2) * 1024 + 1 * r.val = i.val
    rw [(idx_facts t).1]; omega
  | ⟨1, _⟩ =>
    show win2_0.index t (1 : Fin 2) * 256 + 1 * h.val = h.val
    rw [(idx_facts t).2.1]; omega

theorem xb1_apply (t : Fin cfg2.N) (p : Fin 1024) (h : Fin 256) (j : Fin 8192)
    (hj : j.val = t.val % 8 * 1024 + p.val) : xb1 V c t (ix2 p h) = n2 V c j h := by
  show V c main_v2 (((cfg2.win 1).blk t).view.emb (ix2 p h)) = V c main_v2 (ix2 j h)
  refine congrArg _ (funext fun a => Fin.ext ?_)
  match a with
  | ⟨0, _⟩ =>
    show win2_1.index t (0 : Fin 2) * 1024 + 1 * p.val = j.val
    rw [(idx_facts t).2.2.1]; omega
  | ⟨1, _⟩ =>
    show win2_1.index t (1 : Fin 2) * 256 + 1 * h.val = h.val
    rw [(idx_facts t).2.2.2.1]; omega

theorem xb2_apply (t : Fin cfg2.N) (r : Fin 1024) (j : Fin 8) (i : Fin 8192)
    (hi : i.val = r.val + 1024 * (t.val / 8)) : xb2 V c t (ix2 r j) = labW V c i j := by
  show V c main_arg4 (((cfg2.win 2).blk t).view.emb (ix2 r j)) = V c main_arg4 (ix2 i j)
  refine congrArg _ (funext fun a => Fin.ext ?_)
  match a with
  | ⟨0, _⟩ =>
    show win2_2.index t (0 : Fin 2) * 1024 + 1 * r.val = i.val
    rw [(idx_facts t).2.2.2.2.1]; omega
  | ⟨1, _⟩ =>
    show win2_2.index t (1 : Fin 2) * 8 + 1 * j.val = j.val
    rw [(idx_facts t).2.2.2.2.2.1]; omega

theorem xb3_apply (t : Fin cfg2.N) (r : Fin 1024) (i : Fin 8192)
    (hi : i.val = r.val + 1024 * (t.val / 8)) : xb3 V c t (ix2 r (0 : Fin 1)) = cntW V c i := by
  show V c main_v3 (((cfg2.win 3).blk t).view.emb (ix2 r (0 : Fin 1))) = V c main_v3 (ix2 i (0 : Fin 1))
  refine congrArg _ (funext fun a => Fin.ext ?_)
  match a with
  | ⟨0, _⟩ =>
    show win2_3.index t (0 : Fin 2) * 1024 + 1 * r.val = i.val
    rw [(idx_facts t).2.2.2.2.2.2.1]; omega
  | ⟨1, _⟩ =>
    show win2_3.index t (1 : Fin 2) * 1 + 1 * (0 : Fin 1).val = (0 : Fin 1).val
    rw [(idx_facts t).2.2.2.2.2.2.2]; rfl

theorem toNat_lt_of_range (w : BitVec 32) (hw : 0 ≤ w.toInt ∧ w.toInt < 8192) : w.toNat < 8192 := by
  obtain ⟨h0, h1⟩ := hw
  rw [BitVec.toInt_eq_toNat_cond] at h0 h1
  split at h0 <;> omega

theorem labOf_val (w : BitVec 32) (hw : 0 ≤ w.toInt ∧ w.toInt < 8192) : (Cert.Spec.labOf w).val = w.toNat :=
  Nat.mod_eq_of_lt (toNat_lt_of_range w hw)

theorem label_test (w : BitVec 32) (hw : 0 ≤ w.toInt ∧ w.toInt < 8192) (p : Fin 1024) (k : ℕ) (hk : k < 8) :
    BitVec.ofNat 32 p.val = w - Scalar.muli (BitVec.ofNat 32 k) 1024#32
      ↔ p.val + 1024 * k = (Cert.Spec.labOf w).val := by
  have hp := p.isLt
  have hn := toNat_lt_of_range w hw
  rw [labOf_val w hw, BitVec.toNat_eq]
  show (BitVec.ofNat 32 p.val).toNat = (w - BitVec.ofNat 32 k * BitVec.ofNat 32 1024).toNat ↔ _
  rw [BitVec.toNat_sub, BitVec.toNat_mul, BitVec.toNat_ofNat, BitVec.toNat_ofNat, BitVec.toNat_ofNat]
  omega

theorem lt_N {n : ℕ} (h : n < 64) : n < cfg2.N := by rw [show cfg2.N = 64 from N_2]; exact h

abbrev stM (n : ℕ) (hn : n < cfg2.N) : Vec Ideal S1024x1 .f32 := (outsAt2 V c n hn).2.1

abbrev stL (n : ℕ) (hn : n < cfg2.N) : Vec Ideal S1024x1 .f32 := (outsAt2 V c n hn).2.2.1

abbrev stP (n : ℕ) (hn : n < cfg2.N) : Vec Ideal S1024x8 .f32 := (outsAt2 V c n hn).2.2.2.1

abbrev stA (n : ℕ) (hn : n < cfg2.N) : Vec Ideal S1x1 .f32 := (outsAt2 V c n hn).2.2.2.2

abbrev stO (n : ℕ) (hn : n < cfg2.N) : Vec Ideal S1x1 .f32 := (outsAt2 V c n hn).1

theorem step_reset (n : ℕ) (hn : n < cfg2.N) (h8 : n % 8 = 0) :
    stM V c n hn = stepM (xb0 V c ⟨n, hn⟩) (xb1 V c ⟨n, hn⟩) M0
    ∧ stL V c n hn = stepL (xb0 V c ⟨n, hn⟩) (xb1 V c ⟨n, hn⟩) M0 L0
    ∧ stP V c n hn = stepP (grid2.coords ⟨n, hn⟩) (xb0 V c ⟨n, hn⟩) (xb1 V c ⟨n, hn⟩) (xb2 V c ⟨n, hn⟩) P0 := by
  unfold stM stL stP
  by_cases h0 : n = 0
  · rw [show outsAt2 V c n hn = _ from outsAt2_A V c ⟨n, hn⟩ h0]
    unfold outs2_A
    dsimp only
    exact pieces2_A
  · rw [show outsAt2 V c n hn = _ from outsAt2_D V c ⟨n, hn⟩ h0 h8]
    unfold outs2_D
    dsimp only
    exact pieces2_D

theorem step_cont (m : ℕ) (hn : m + 1 < cfg2.N) (hp : m < cfg2.N) (h8 : ¬(m + 1) % 8 = 0) :
    stM V c (m + 1) hn = stepM (xb0 V c ⟨m + 1, hn⟩) (xb1 V c ⟨m + 1, hn⟩) (stM V c m hp)
    ∧ stL V c (m + 1) hn = stepL (xb0 V c ⟨m + 1, hn⟩) (xb1 V c ⟨m + 1, hn⟩) (stM V c m hp) (stL V c m hp)
    ∧ stP V c (m + 1) hn = stepP (grid2.coords ⟨m + 1, hn⟩) (xb0 V c ⟨m + 1, hn⟩) (xb1 V c ⟨m + 1, hn⟩) (xb2 V c ⟨m + 1, hn⟩) (stP V c m hp) := by
  unfold stM stL stP
  by_cases h7 : (m + 1) % 8 = 7
  · by_cases h63 : m + 1 = 63
    · rw [show outsAt2 V c (m + 1) hn = _ from outsAt2_E V c ⟨m + 1, hn⟩ h8 h7 h63]
      unfold outs2_E
      dsimp only
      exact ⟨pieces2_E.1, pieces2_E.2.1, pieces2_E.2.2.1⟩
    · rw [show outsAt2 V c (m + 1) hn = _ from outsAt2_C V c ⟨m + 1, hn⟩ h8 h7 h63]
      unfold outs2_C
      dsimp only
      exact ⟨pieces2_C.1, pieces2_C.2.1, pieces2_C.2.2.1⟩
  · rw [show outsAt2 V c (m + 1) hn = _ from outsAt2_B V c ⟨m + 1, hn⟩ (Nat.succ_ne_zero m) h8 h7]
    unfold outs2_B
    dsimp only
    exact pieces2_B

theorem acc_first (hn : 0 < cfg2.N) : stA V c 0 hn = A0 := by
  unfold stA
  rw [show outsAt2 V c 0 hn = _ from outsAt2_A V c ⟨0, hn⟩ rfl]
  unfold outs2_A
  dsimp only
  exact piece2_A_3

theorem acc_keep (m : ℕ) (hn : m + 1 < cfg2.N) (hp : m < cfg2.N) (h7 : ¬(m + 1) % 8 = 7) :
    stA V c (m + 1) hn = stA V c m hp := by
  unfold stA
  by_cases h8 : (m + 1) % 8 = 0
  · rw [show outsAt2 V c (m + 1) hn = _ from outsAt2_D V c ⟨m + 1, hn⟩ (Nat.succ_ne_zero m) h8]
    unfold outs2_D
    rfl
  · rw [show outsAt2 V c (m + 1) hn = _ from outsAt2_B V c ⟨m + 1, hn⟩ (Nat.succ_ne_zero m) h8 h7]
    unfold outs2_B
    rfl

theorem acc_add (m : ℕ) (hn : m + 1 < cfg2.N) (hp : m < cfg2.N) (h7 : (m + 1) % 8 = 7) :
    stA V c (m + 1) hn
      = stepAcc (stM V c (m + 1) hn) (stL V c (m + 1) hn) (stP V c (m + 1) hn) (xb3 V c ⟨m + 1, hn⟩) (stA V c m hp) := by
  have h8 : ¬(m + 1) % 8 = 0 := by omega
  obtain ⟨eM, eL, eP⟩ := step_cont V c m hn hp h8
  rw [eM, eL, eP]
  unfold stA
  by_cases h63 : m + 1 = 63
  · rw [show outsAt2 V c (m + 1) hn = _ from outsAt2_E V c ⟨m + 1, hn⟩ h8 h7 h63]
    unfold outs2_E
    dsimp only
    exact pieces2_E.2.2.2
  · rw [show outsAt2 V c (m + 1) hn = _ from outsAt2_C V c ⟨m + 1, hn⟩ h8 h7 h63]
    unfold outs2_C
    dsimp only
    exact pieces2_C.2.2.2

theorem out_last (m : ℕ) (hn : m + 1 < cfg2.N) (hp : m < cfg2.N) (h63 : m + 1 = 63) :
    stO V c (m + 1) hn = stA V c (m + 1) hn := by
  have h8 : ¬(m + 1) % 8 = 0 := by omega
  have h7 : (m + 1) % 8 = 7 := by omega
  unfold stO stA
  rw [show outsAt2 V c (m + 1) hn = _ from outsAt2_E V c ⟨m + 1, hn⟩ h8 h7 h63]
  unfold outs2_E
  dsimp only
  exact piece2_E_4.trans pieces2_E.2.2.2.symm

abbrev rowOf (n : ℕ) (hn : n < 64) (r : Fin 1024) : Fin 8192 := ⟨r.val + 1024 * (n / 8), by omega⟩

abbrev yv (i j : Fin 8192) : EReal := Cert.Spec.logit (n1 V c) (n2 V c) i j

def pickBlock (y : Fin 8192 → EReal) (l : Fin 8192) (k : ℕ) : EReal :=
  if hk : k < 8 then ∑ p : Fin 1024, (if p.val + 1024 * k = l.val then y ⟨p.val + 1024 * k, by omega⟩ else 0) else 0

abbrev labC (i : Fin 8192) (j : Fin 8) : Fin 8192 := Cert.Spec.labOf (labW V c i j)

theorem pick_full (y : Fin 8192 → EReal) (l : Fin 8192) : ∑ k ∈ Finset.range 8, pickBlock y l k = y l := by
  rw [← Cert.Spec.pick_by_blocks y l, ← Fin.sum_univ_eq_sum_range (fun k => pickBlock y l k) 8]
  refine Finset.sum_congr rfl fun k _ => ?_
  show pickBlock y l k.val = _
  unfold pickBlock
  rw [dif_pos k.isLt]

abbrev fterm (i : Fin 8192) : EReal :=
  Cert.Spec.rowTerm (yv V c i) (fun j => labC V c i j) (fun j => Cert.Spec.maskOf (cntW V c i) j)
    (Cert.Spec.cntOf (cntW V c i))

theorem lt63 : 63 < cfg2.N := lt_N (by norm_num)

theorem out_offsets : ∀ t : Fin cfg2.N, (fun a => win2_4.index t a * main_v4.ty.shape.size a) = fun _ => 0 :=
  (by decide +kernel : ∀ t : Fin grid2.N, ∀ a, win2_4.index t a * main_v4.ty.shape.size a = 0) |> fun h t => funext (h t)

theorem flushed_eq (t : Fin cfg2.N) (hf : (cfg2.win 4).flush t = true) :
    (dat2 V c).flushed 4 t = ((cfg2.win 4).blk t).view.read (Elt Ideal) (stO V c 63 lt63) := by
  have hlt : t.val < 64 := t.isLt.trans_eq (show cfg2.N = 64 from N_2)
  have h63 : t.val = 63 := by have := (flush2_4 t).mp hf; omega
  have e : ∀ (n : ℕ) (h : n < cfg2.N), n = 63 → stO V c 63 lt63 = stO V c n h := by
    intro n h hn; subst hn; rfl
  rw [e t.val t.isLt h63]
  show (cfg2.win 4).cut (grid2.coords t) ((dat2 V c).after 4 t) = _
  rw [after2_4]
  exact (Memref.read_access_unit_zero (Elt Ideal) main_v4 (out_offsets t) (fun a => by rw [congrFun (out_offsets t) a]; simp)
    (stO V c t.val t.isLt)).symm

abbrev tLast : Fin cfg2.N := ⟨63, lt63⟩

theorem final : (dat2 V c).arrAt 4 cfg2.N = stO V c 63 lt63 :=
  (dat2 V c).arrAt_eq_of_cover 4 (stO V c 63 lt63) (flushed_eq V c) fun i =>
    ⟨tLast, (flush2_4 tLast).mpr rfl, by
      show i ∈ ((View.whole main_v4).slice (win2_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win2_4.index tLast 0 * win2_4.size 0 ≤ (i 0 : Nat)
          ∧ (i 0 : Nat) < win2_4.index tLast 0 * win2_4.size 0 + win2_4.xsize (grid2.coords tLast) 0
        rw [show win2_4.index tLast 0 * win2_4.size 0 = 0 from by decide +kernel,
          show win2_4.xsize (grid2.coords tLast) 0 = 1 from by decide +kernel]
        omega
      | ⟨1, _⟩ =>
        show win2_4.index tLast 1 * win2_4.size 1 ≤ (i 1 : Nat)
          ∧ (i 1 : Nat) < win2_4.index tLast 1 * win2_4.size 1 + win2_4.xsize (grid2.coords tLast) 1
        rw [show win2_4.index tLast 1 * win2_4.size 1 = 0 from by decide +kernel,
          show win2_4.xsize (grid2.coords tLast) 1 = 1 from by decide +kernel]
        omega⟩

section
variable (hn1 : ∀ r h, IsReal (n1 V c r h)) (hn2 : ∀ r h, IsReal (n2 V c r h))
include hn1 hn2

theorem cosine_real
    (i j : Fin 8192) : IsReal (Cert.Spec.cosine (n1 V c) (n2 V c) i j) :=
  IsReal.sum _ fun h => IsReal.mul (hn1 i h) (hn2 j h)

theorem cosine_scale
    (i j : Fin 8192) : (∑ h : Fin 256, n1 V c i h * n2 V c j h) * Cert.Spec.scale = yv V c i j :=
  Cert.Spec.mul_scale_eq_div_temp (cosine_real V c hn1 hn2 i j)

theorem yv_real
    (i j : Fin 8192) : IsReal (yv V c i j) := by
  rw [← cosine_scale V c hn1 hn2 i j]
  exact IsReal.mul (cosine_real V c hn1 hn2 i j) (IsReal.coe _)

theorem logit_at
    (t : Fin cfg2.N) (r p : Fin 1024) (i j : Fin 8192) (hi : i.val = r.val + 1024 * (t.val / 8))
    (hj : j.val = t.val % 8 * 1024 + p.val) :
    k2_pay6 (F := Ideal) (xb0 V c t) (xb1 V c t) (ix2 r p) = yv V c i j := by
  rw [logits_apply, ← cosine_scale V c hn1 hn2]
  refine congrArg (· * Cert.Spec.scale) (Finset.sum_congr rfl fun h _ => ?_)
  rw [xb0_apply V c t r h i hi, xb1_apply V c t p h j hj]

theorem tile_logits
    (t : Fin cfg2.N) (r : Fin 1024) (i : Fin 8192) (hi : i.val = r.val + 1024 * (t.val / 8)) (k : ℕ) (e : t.val % 8 = k) :
    (fun p : Fin 1024 => k2_pay6 (F := Ideal) (xb0 V c t) (xb1 V c t) (ix2 r p))
      = Cert.Online.blocks (W := 1024) (yv V c i) k := by
  subst e
  funext p
  have hlt : t.val % 8 * 1024 + p.val < 8192 := by have := p.isLt; omega
  unfold Cert.Online.blocks
  rw [dif_pos hlt]
  exact logit_at V c hn1 hn2 t r p i ⟨_, hlt⟩ hi rfl

theorem inv_ML :
    ∀ (n : ℕ) (hn : n < 64) (r : Fin 1024),
      stM V c n (lt_N hn) (ix2 r (0 : Fin 1))
          = (Cert.Online.run (Cert.Online.blocks (W := 1024) (yv V c (rowOf n hn r))) (n % 8)).1
      ∧ stL V c n (lt_N hn) (ix2 r (0 : Fin 1))
          = (Cert.Online.run (Cert.Online.blocks (W := 1024) (yv V c (rowOf n hn r))) (n % 8)).2 := by
  intro n
  induction n with
  | zero =>
    intro hn r
    have S := step_reset V c 0 (lt_N hn) rfl
    rw [S.1, S.2.1, stepM_apply, stepL_apply, M0_apply, L0_apply,
      tile_logits V c hn1 hn2 ⟨0, lt_N hn⟩ r (rowOf 0 hn r) rfl 0 rfl]
    exact ⟨rfl, rfl⟩
  | succ m ih =>
    intro hn r
    by_cases h8 : (m + 1) % 8 = 0
    · have S := step_reset V c (m + 1) (lt_N hn) h8
      rw [S.1, S.2.1, stepM_apply, stepL_apply, M0_apply, L0_apply,
        tile_logits V c hn1 hn2 ⟨m + 1, lt_N hn⟩ r (rowOf (m + 1) hn r) rfl 0 h8, h8]
      exact ⟨rfl, rfl⟩
    · have hm : m < 64 := by omega
      have S := step_cont V c m (lt_N hn) (lt_N hm) h8
      obtain ⟨ihM, ihL⟩ := ih hm r
      have hrow : rowOf m hm r = rowOf (m + 1) hn r :=
        Fin.ext (by show r.val + 1024 * (m / 8) = r.val + 1024 * ((m + 1) / 8); omega)
      have hk : (m + 1) % 8 = m % 8 + 1 := by omega
      rw [S.1, S.2.1, stepM_apply, stepL_apply, ihM, ihL, hrow,
        tile_logits V c hn1 hn2 ⟨m + 1, lt_N hn⟩ r (rowOf (m + 1) hn r) rfl (m % 8 + 1) hk, hk]
      exact ⟨rfl, rfl⟩

variable (hlab : ∀ i j, 0 ≤ (labW V c i j).toInt ∧ (labW V c i j).toInt < 8192)
include hlab

theorem tile_pick
    (t : Fin cfg2.N) (r : Fin 1024) (j : Fin 8) (i : Fin 8192) (hi : i.val = r.val + 1024 * (t.val / 8)) (k : ℕ) (e : t.val % 8 = k) :
    (0 + ∑ q : Fin 1024, if BitVec.ofNat 32 q.val = xb2 V c t (ix2 r j) - colOff (grid2.coords t)
        then k2_pay6 (F := Ideal) (xb0 V c t) (xb1 V c t) (ix2 r q) else 0)
      = pickBlock (yv V c i) (labC V c i j) k := by
  subst e
  have hk : t.val % 8 < 8 := Nat.mod_lt _ (by norm_num)
  have hc : colOff (grid2.coords t) = Scalar.muli (BitVec.ofNat 32 (t.val % 8)) 1024#32 := by
    show Scalar.muli (BitVec.ofNat 32 ((grid2.coords t) 1).val) 1024#32 = _
    rw [coord1 t]
  unfold pickBlock
  rw [zero_add, dif_pos hk, xb2_apply V c t r j i hi, hc]
  refine Finset.sum_congr rfl fun q _ => ?_
  by_cases h : q.val + 1024 * (t.val % 8) = (labC V c i j).val
  · rw [if_pos ((label_test _ (hlab i j) q _ hk).mpr h), if_pos h]
    exact logit_at V c hn1 hn2 t r q i _ hi
      (by show q.val + 1024 * (t.val % 8) = t.val % 8 * 1024 + q.val; omega)
  · rw [if_neg (fun e => h ((label_test _ (hlab i j) q _ hk).mp e)), if_neg h]

theorem inv_P :
    ∀ (n : ℕ) (hn : n < 64) (r : Fin 1024) (j : Fin 8),
      stP V c n (lt_N hn) (ix2 r j)
        = ∑ k ∈ Finset.range (n % 8 + 1), pickBlock (yv V c (rowOf n hn r)) (labC V c (rowOf n hn r) j) k := by
  intro n
  induction n with
  | zero =>
    intro hn r j
    rw [(step_reset V c 0 (lt_N hn) rfl).2.2, stepP_apply, P0_apply,
      tile_pick V c hn1 hn2 hlab ⟨0, lt_N hn⟩ r j (rowOf 0 hn r) rfl 0 rfl, zero_add]
    exact (Finset.sum_range_one _).symm
  | succ m ih =>
    intro hn r j
    by_cases h8 : (m + 1) % 8 = 0
    · rw [(step_reset V c (m + 1) (lt_N hn) h8).2.2, stepP_apply, P0_apply,
        tile_pick V c hn1 hn2 hlab ⟨m + 1, lt_N hn⟩ r j (rowOf (m + 1) hn r) rfl 0 h8, zero_add, h8]
      exact (Finset.sum_range_one _).symm
    · have hm : m < 64 := by omega
      have hrow : rowOf m hm r = rowOf (m + 1) hn r :=
        Fin.ext (by show r.val + 1024 * (m / 8) = r.val + 1024 * ((m + 1) / 8); omega)
      have hk : (m + 1) % 8 = m % 8 + 1 := by omega
      rw [(step_cont V c m (lt_N hn) (lt_N hm) h8).2.2, stepP_apply, ih hm r j, hrow,
        tile_pick V c hn1 hn2 hlab ⟨m + 1, lt_N hn⟩ r j (rowOf (m + 1) hn r) rfl (m % 8 + 1) hk, hk]
      exact (Finset.sum_range_succ _ _).symm

theorem tile_loss
    (n : ℕ) (hn : n < 64) (h7 : n % 8 = 7) (ao : Vec Ideal S1x1 .f32) :
    stepAcc (F := Ideal) (stM V c n (lt_N hn)) (stL V c n (lt_N hn)) (stP V c n (lt_N hn)) (xb3 V c ⟨n, lt_N hn⟩) ao
        (ix2 (0 : Fin 1) (0 : Fin 1))
      = ao (ix2 (0 : Fin 1) (0 : Fin 1)) + Cert.Spec.tileSum (fterm V c) ⟨n / 8, by omega⟩ := by
  rw [stepAcc_apply]
  unfold Cert.Spec.tileSum
  refine congrArg (fun s => ao (ix2 (0 : Fin 1) (0 : Fin 1)) + (0 + s)) (Finset.sum_congr rfl fun r _ => ?_)
  have hML := inv_ML V c hn1 hn2 n hn r
  rw [h7] at hML
  have e8 : n % 8 + 1 = 8 := by omega
  rw [hML.1, hML.2, xb3_apply V c ⟨n, lt_N hn⟩ r (rowOf n hn r) rfl, zero_sub]
  show _ = Cert.Spec.rowTerm (yv V c (rowOf n hn r)) (fun j => labC V c (rowOf n hn r) j)
    (fun j => Cert.Spec.maskOf (cntW V c (rowOf n hn r)) j) (Cert.Spec.cntOf (cntW V c (rowOf n hn r)))
  unfold Cert.Spec.rowTerm
  refine congrArg (fun s => Ideal.div (-(0 + s)) (Cert.Spec.cntOf (cntW V c (rowOf n hn r)) * Cert.Spec.cntOf (cntW V c (rowOf n hn r))))
    (Finset.sum_congr rfl fun j _ => ?_)
  rw [inv_P V c hn1 hn2 hlab n hn r j, e8, pick_full,
    Cert.Spec.online_eq_lsm (yv V c (rowOf n hn r)) (yv_real V c hn1 hn2 (rowOf n hn r))]

theorem inv_A :
    ∀ (n : ℕ) (hn : n < 64),
      stA V c n (lt_N hn) (ix2 (0 : Fin 1) (0 : Fin 1)) = Cert.Spec.acc (fterm V c) ((n + 1) / 8) := by
  intro n
  induction n with
  | zero =>
    intro hn
    rw [acc_first V c (lt_N hn), A0_apply]
    rfl
  | succ m ih =>
    intro hn
    have hm : m < 64 := by omega
    by_cases h7 : (m + 1) % 8 = 7
    · have e : (m + 1 + 1) / 8 = (m + 1) / 8 + 1 := by omega
      have hq : (m + 1) / 8 < 8 := by omega
      rw [acc_add V c m (lt_N hn) (lt_N hm) h7, tile_loss V c hn1 hn2 hlab (m + 1) hn h7, ih hm, e]
      show _ = Cert.Spec.acc (fterm V c) ((m + 1) / 8)
        + (if h : (m + 1) / 8 < 8 then Cert.Spec.tileSum (fterm V c) ⟨(m + 1) / 8, h⟩ else 0)
      rw [dif_pos hq]
    · rw [acc_keep V c m (lt_N hn) (lt_N hm) h7, ih hm, show (m + 1 + 1) / 8 = (m + 1) / 8 from by omega]

theorem last_value :
    ∀ (n : ℕ) (h : n < cfg2.N), n = 63 →
      stO V c n h (ix2 (0 : Fin 1) (0 : Fin 1))
        = Cert.Spec.loss (fun i j => yv V c i j) (fun i j => labC V c i j)
            (fun i j => Cert.Spec.maskOf (cntW V c i) j) (fun i => Cert.Spec.cntOf (cntW V c i)) := by
  intro n h hn
  obtain ⟨m, rfl⟩ : ∃ m, n = m + 1 := ⟨62, hn⟩
  have hm : m + 1 < 64 := by omega
  have hp : m < cfg2.N := lt_N (by omega)
  rw [out_last V c m h hp hn, inv_A V c hn1 hn2 hlab (m + 1) hm, show (m + 1 + 1) / 8 = 8 from by omega,
    Cert.Spec.sum_tiles]
  rfl

end

theorem main_value (V : (c : Dev nD) → (b : Ref sig .tc) → Buf (Elt Ideal) ((c : Thread nD τ).loc b)) (c : Dev nD)
    (hn1 : ∀ r h, Cert.Alg.IsReal (V c main_v1 (ix2 r h))) (hn2 : ∀ r h, Cert.Alg.IsReal (V c main_v2 (ix2 r h)))
    (hlab : ∀ i j, 0 ≤ (V c main_arg4 (ix2 i j)).toInt ∧ (V c main_arg4 (ix2 i j)).toInt < 8192) :
    (dat2 (F := Ideal) V c).arrAt 4 cfg2.N (ix2 (0 : Fin 1) (0 : Fin 1))
      = Cert.Spec.loss (fun i j => Cert.Spec.logit (fun r h => V c main_v1 (ix2 r h)) (fun r h => V c main_v2 (ix2 r h)) i j)
          (fun i j => Cert.Spec.labOf (V c main_arg4 (ix2 i j))) (fun i j => Cert.Spec.maskOf (V c main_v3 (ix2 i (0 : Fin 1))) j)
          (fun i => Cert.Spec.cntOf (V c main_v3 (ix2 i (0 : Fin 1)))) :=
  (congrFun (final V c) (ix2 (0 : Fin 1) (0 : Fin 1))).trans (last_value V c hn1 hn2 hlab 63 lt63 rfl)

end Cert.KernelIdeal.MainValue

end
-- ==== Proof.UnitReal.lean ====
import proofs.«417307_j14809047236881_2_alg».proof.Proof.Spec

noncomputable section

namespace Cert.Spec

open Idealize.ShloMosaic Cert.Alg
open scoped BigOperators

theorem eps_pos : ∃ e : ℝ, 0 < e ∧ eps = (e : EReal) := by
  refine ⟨(11258999 : ℝ) * (2 : ℝ) ^ (-50 : ℤ), by positivity, ?_⟩
  simp [eps, Ideal.ofBits, Ideal.ieee, -EReal.coe_mul]

theorem nrm_pos {z : Fin 256 → EReal} (hz : ∀ h, IsReal (z h)) : ∃ n : ℝ, 0 < n ∧ nrm z = (n : EReal) := by
  choose a ha using hz
  obtain ⟨e, he0, he⟩ := eps_pos
  have hs : (∑ h : Fin 256, z h * z h) = ((∑ h : Fin 256, a h * a h : ℝ) : EReal) := by
    rw [coe_finset_sum]
    exact Finset.sum_congr rfl fun h _ => by rw [ha h, ← EReal.coe_mul]
  have h0 : ¬ (∑ h : Fin 256, a h * a h) < 0 := not_lt.mpr (Finset.sum_nonneg fun h _ => mul_self_nonneg (a h))
  refine ⟨max (Real.sqrt (∑ h : Fin 256, a h * a h)) e, lt_max_of_lt_right he0, ?_⟩
  rw [nrm, hs, Ideal.sqrt_coe, if_neg h0, he]
  exact (EReal.coe_strictMono.monotone.map_max).symm

section
variable {e : Fin 8192 → Fin 256 → EReal} {W : Fin 256 → Fin 256 → EReal} {b : Fin 256 → EReal}
  (he : ∀ r k, IsReal (e r k)) (hW : ∀ h k, IsReal (W h k)) (hb : ∀ h, IsReal (b h)) (r : Fin 8192) (h : Fin 256)
include he hW hb

theorem proj_isReal : IsReal (proj e W b r h) := by
  obtain ⟨x, hx⟩ := IsReal.add (IsReal.sum _ fun k => IsReal.mul (he r k) (hW h k)) (hb h)
  rw [proj, hx, Ideal.tanh_coe]
  exact IsReal.coe _

theorem unit_isReal : IsReal (unit e W b r h) := by
  obtain ⟨n, hn0, hn⟩ := nrm_pos (z := proj e W b r) fun h => proj_isReal he hW hb r h
  rw [unit, hn]
  exact IsReal.div (proj_isReal he hW hb r h) (IsReal.coe n) (by exact_mod_cast hn0.ne')

end

end Cert.Spec

end
-- ==== Proof.KernelValue.lean ====
import proofs.«417307_j14809047236881_2_alg».proof.Proof.Trace
import proofs.«417307_j14809047236881_2_alg».proof.Proof.DenseValue
import proofs.«417307_j14809047236881_2_alg».proof.Proof.MainValue
import proofs.«417307_j14809047236881_2_alg».proof.Proof.UnitReal
import proofs.«417307_j14809047236881_2_alg».proof.Proof.Spec
import Idealize.ShloMosaic.Lib.ValueIdx

noncomputable section

namespace Cert.KernelIdeal.Loss

open Idealize.ShloMosaic Idealize.ShloMosaic.TcCoe Cert.KernelIdeal Cert.KernelIdeal.Gen Cert.Alg ValueIdx

variable (m : (ℓ : Loc nD τ sig) → Buf (Elt Ideal) ℓ) (c : Dev nD)

abbrev emb1 : Fin 8192 → Fin 256 → EReal := fun r k => m ((c.tc : Thread nD τ).loc main_arg0) (ix2 r k)
abbrev emb2 : Fin 8192 → Fin 256 → EReal := fun r k => m ((c.tc : Thread nD τ).loc main_arg1) (ix2 r k)
abbrev wgt : Fin 256 → Fin 256 → EReal := fun h k => m ((c.tc : Thread nD τ).loc main_arg2) (ix2 h k)
abbrev bias : Fin 256 → EReal := fun h => m ((c.tc : Thread nD τ).loc main_arg3) (ix1 h)
-- The loss of the launch arrays: what both programs leave in their scalar result.
abbrev loss : EReal := Cert.Spec.lossOf (emb1 m c) (emb2 m c) (wgt m c) (bias m c)
  (fun i j => m ((c.tc : Thread nD τ).loc main_arg4) (ix2 i j)) (fun i => m ((c.tc : Thread nD τ).loc main_arg5) (ix1 i))

theorem wgt_eq : (fun (h k : Fin 256) => U1 (F := Ideal) m c main_v0 (ix2 k h)) = wgt m c :=
  funext fun h => funext fun k => Cert.KernelIdeal.DenseValue.w1_v0 m c k h

-- The loss region's two matrix operands are the normalised projections of the launch embeddings.
theorem anchors_eq (r : Fin 8192) (h : Fin 256) :
    U4 (F := Ideal) m c main_v1 (ix2 r h) = Cert.Spec.unit (emb1 m c) (wgt m c) (bias m c) r h := by
  rw [U4_v1, Cert.KernelIdeal.DenseValue.dense0_value (U1 m) c r h, U1_arg0, U1_arg3, wgt_eq]

theorem columns_eq (r : Fin 8192) (h : Fin 256) :
    U4 (F := Ideal) m c main_v2 (ix2 r h) = Cert.Spec.unit (emb2 m c) (wgt m c) (bias m c) r h := by
  rw [U4_v2, Cert.KernelIdeal.DenseValue.dense1_value (U2 m) c r h, U2_arg1, U2_arg3, U2_v0, wgt_eq]

theorem kernel_loss
    (hreal : (∀ i, IsReal (m ((c.tc : Thread nD τ).loc main_arg0) i)) ∧ (∀ i, IsReal (m ((c.tc : Thread nD τ).loc main_arg1) i))
      ∧ (∀ i, IsReal (m ((c.tc : Thread nD τ).loc main_arg2) i)) ∧ (∀ i, IsReal (m ((c.tc : Thread nD τ).loc main_arg3) i)))
    (hlab : ∀ i : S8192x8.Idx, 0 ≤ (m ((c.tc : Thread nD τ).loc main_arg4) i).toInt ∧ (m ((c.tc : Thread nD τ).loc main_arg4) i).toInt < 8192) :
    W6 (F := Ideal) m c (Proc.devRef .tc main_v5) ix0 = loss m c := by
  obtain ⟨h0, h1, h2, h3⟩ := hreal
  have hn1 : ∀ (r : Fin 8192) (h : Fin 256), IsReal (U4 (F := Ideal) m c main_v1 (ix2 r h)) := fun r h => by
    rw [anchors_eq]; exact Cert.Spec.unit_isReal (fun _ _ => h0 _) (fun _ _ => h2 _) (fun _ => h3 _) r h
  have hn2 : ∀ (r : Fin 8192) (h : Fin 256), IsReal (U4 (F := Ideal) m c main_v2 (ix2 r h)) := fun r h => by
    rw [columns_eq]; exact Cert.Spec.unit_isReal (fun _ _ => h1 _) (fun _ _ => h2 _) (fun _ => h3 _) r h
  have hl : ∀ (i : Fin 8192) (j : Fin 8), 0 ≤ (U4 (F := Ideal) m c main_arg4 (ix2 i j)).toInt ∧ (U4 (F := Ideal) m c main_arg4 (ix2 i j)).toInt < 8192 := fun i j => by
    rw [U4_arg4]; exact hlab _
  rw [Cert.KernelIdeal.DenseValue.w6_v5, W5_v4, Cert.KernelIdeal.MainValue.main_value (U4 m) c hn1 hn2 hl]
  unfold loss Cert.Spec.lossOf
  simp only [anchors_eq m c, columns_eq m c, U4_arg4 m c, Cert.KernelIdeal.DenseValue.w4_v3 m c]

end Cert.KernelIdeal.Loss

end
-- ==== Proof.lean ====
import proofs.«417307_j14809047236881_2_alg».proof.Defs
import proofs.«417307_j14809047236881_2_alg».proof.Proof.Gen.Kernel
import proofs.«417307_j14809047236881_2_alg».proof.Proof.Gen.KernelIdeal
import proofs.«417307_j14809047236881_2_alg».proof.Proof.Gen.ReferenceIdeal
import proofs.«417307_j14809047236881_2_alg».proof.Proof.Gen.Pre_finite_inputs
import proofs.«417307_j14809047236881_2_alg».proof.Proof.KRunAll
import proofs.«417307_j14809047236881_2_alg».proof.Proof.RefRunMain
import proofs.«417307_j14809047236881_2_alg».proof.Proof.RefValue
import proofs.«417307_j14809047236881_2_alg».proof.Proof.PreFacts
import proofs.«417307_j14809047236881_2_alg».proof.Proof.KernelValue
import Idealize.ShloMosaic.Adequacy
import Idealize.ShloMosaic.Init

noncomputable section

namespace Cert.Proof

open Idealize.ShloMosaic Idealize.ShloMosaic.TcCoe Idealize.SL.Sem

-- The three frames: each program's run with its result dropped.
theorem frame_kernel : Cert.frame_Kernel := fun m ρ _ =>
  (θ_run Cert.Kernel.defs _ _).mono (fun _ h c => (h c).2) (Cert.Kernel.Gen.run_all (F := Bits) m ρ)

theorem frame_kernelIdeal : Cert.frame_KernelIdeal := fun m ρ _ =>
  (θ_run Cert.KernelIdeal.defs _ _).mono (fun _ h c => (h c).2) (Cert.KernelIdeal.Gen.run_all (F := Ideal) m ρ)

theorem frame_referenceIdeal : Cert.frame_ReferenceIdeal := fun m ρ _ =>
  (θ_run Cert.ReferenceIdeal.defs _ _).mono (fun _ h c => (h c).2) (Cert.ReferenceIdeal.RunH.run (F := Ideal) m ρ)

-- The scale 20 is named 268435456 / 13421773, the exact reciprocal of the temperature 13421773 · 2⁻²⁸ the reference divides by.
theorem preserves : Cert.preserves_Kernel_KernelIdeal :=
  IdealRules.named_const.statement Cert.KernelIdeal.κ "fold_c_268435456_13421773" .f32 0x41A00000#32 ((268435456 / 13421773 : ℝ) : EReal) rfl

-- Both programs end with the loss of the launch arrays; the precondition makes the float arguments real and the labels columns of the batch.
theorem algebraic : Cert.algebraic_KernelIdeal_ReferenceIdeal := by
  intro m ρ m' ρ' hpre hagree
  refine ⟨fun c _ => Cert.KernelIdeal.Loss.loss m c, ?_, ?_⟩
  · refine (θ_run Cert.KernelIdeal.defs _ _).mono (fun r h c => ⟨?_, (h c).2⟩) (Cert.KernelIdeal.Gen.run_all (F := Ideal) m ρ)
    have hf := Cert.PreFacts.facts_of_pre _ _ _ _ _ _ (hpre c)
    rw [(h c).1]
    funext i
    rw [show i = ValueIdx.ix0 from funext fun a => a.elim0]
    exact Cert.KernelIdeal.Loss.kernel_loss m c hf.1 hf.2
  · refine (θ_run Cert.ReferenceIdeal.defs _ _).mono (fun r h c => ⟨?_, (h c).2⟩) (Cert.ReferenceIdeal.RunH.run (F := Ideal) m' ρ')
    have hf := Cert.PreFacts.facts_of_pre _ _ _ _ _ _ (hpre c)
    rw [(h c).1]
    funext i
    rw [show i = ValueIdx.ix0 from funext fun a => a.elim0]
    obtain ⟨e0, e1, e2, e3, e4, e5⟩ := hagree c
    rw [e0, e1, e2, e3, e4, e5]
    exact Cert.ReferenceIdeal.RefValue.ref_loss _ _ _ _ _ _ hf.1 hf.2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
